-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x800000 : Shape := ⟨2, ![2, 800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg11 : FVec F S1 .f32) (main_arg12 : IVec S2x800000 32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg12 main_v59
  let main_c_23 : IVec S_ 32 := constantI S_ 32 50000#32
  let main_v61 : IVec S2x800000 32 := broadcastInDim S2x800000 ![] bcast_S_S2x800000 main_c_23
  let main_v62 : IVec S2x800000 1 := cmpi .slt main_arg12 main_v61
  let main_v63 : IVec S2x800000 1 := andi main_v60 main_v62
  let main_c_24 : IVec S_ 1 := constantI S_ 1 1#1
  let main_v64 : IVec S_ 1 := (fun x v => Host.reduce IntOp.andi x v reducesTo_S2x800000_S_d0_1 h_S_) main_v63 main_c_24
  let main_v65 : IVec S_ 1 := andi main_v58 main_v64
  main_v65

def fn_part2 {F : FTy → Type} [FloatOps F] (main_arg7 : FVec F S32 .f32) (main_arg8 : FVec F S32 .f32) (main_arg9 : FVec F S32 .f32) (main_arg10 : FVec F S32x1 .f32) (main_arg11 : FVec F S1 .f32) (main_arg12 : IVec S2x800000 32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_arg11 main_arg12 main_v48 main_v49 main_v50

def fn_part1 {F : FTy → Type} [FloatOps F] (main_arg4 : FVec F S64 .f32) (main_arg5 : FVec F S64 .f32) (main_arg6 : FVec F S64x32 .f32) (main_arg7 : FVec F S32 .f32) (main_arg8 : FVec F S32 .f32) (main_arg9 : FVec F S32 .f32) (main_arg10 : FVec F S32x1 .f32) (main_arg11 : FVec F S1 .f32) (main_arg12 : IVec S2x800000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x256 .f32) (main_arg1 : FVec F S256x128 .f32) (main_arg2 : FVec F S128x64 .f32) (main_arg3 : FVec F S64 .f32) (main_arg4 : FVec F S64 .f32) (main_arg5 : FVec F S64 .f32) (main_arg6 : FVec F S64x32 .f32) (main_arg7 : FVec F S32 .f32) (main_arg8 : FVec F S32 .f32) (main_arg9 : FVec F S32 .f32) (main_arg10 : FVec F S32x1 .f32) (main_arg11 : FVec F S1 .f32) (main_arg12 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_v13 main_v16
-- ==== Kernel.lean ====
abbrev S50000x256 : Shape := ⟨2, ![50000, 256]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S2000x256 : Shape := ⟨2, ![2000, 256]⟩
abbrev S2000x128 : Shape := ⟨2, ![2000, 128]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x64 : Shape := ⟨2, ![1, 64]⟩
abbrev S1x32 : Shape := ⟨2, ![1, 32]⟩
abbrev S3200x128 : Shape := ⟨2, ![3200, 128]⟩
abbrev S3200x64 : Shape := ⟨2, ![3200, 64]⟩
abbrev S800000x64 : Shape := ⟨2, ![800000, 64]⟩
abbrev S3200x32 : Shape := ⟨2, ![3200, 32]⟩
abbrev S3200x1 : Shape := ⟨2, ![3200, 1]⟩
abbrev S3200 : Shape := ⟨1, ![3200]⟩
abbrev S50000 : Shape := ⟨1, ![50000]⟩
abbrev S50000x1 : Shape := ⟨2, ![50000, 1]⟩
abbrev S2000x1 : Shape := ⟨2, ![2000, 1]⟩

abbrev nBuf : Space → Nat
  | .hbm => 111
  | .vmem => 53
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x128, .f32⟩
  | .hbm, ⟨60, _⟩ => ⟨S800000x128, .i1⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S1x64, .f32⟩
  | .hbm, ⟨67, _⟩ => ⟨S1x32, .f32⟩
  | .hbm, ⟨68, _⟩ => ⟨S1x64, .f32⟩
  | .hbm, ⟨69, _⟩ => ⟨S1x64, .f32⟩
  | .hbm, ⟨70, _⟩ => ⟨S1x32, .f32⟩
  | .hbm, ⟨71, _⟩ => ⟨S1x32, .f32⟩
  | .hbm, ⟨72, _⟩ => ⟨S1x32, .f32⟩
  | .hbm, ⟨73, _⟩ => ⟨S1x1, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S800000x64, .bf16⟩
  | .hbm, ⟨85, _⟩ => ⟨S1x32, .f32⟩
  | .hbm, ⟨86, _⟩ => ⟨S1x32, .f32⟩
  | .hbm, ⟨87, _⟩ => ⟨S_, .f32⟩
  | .hbm, ⟨88, _⟩ => ⟨S1x32, .f32⟩
  | .hbm, ⟨89, _⟩ => ⟨S1x32, .f32⟩
  | .hbm, ⟨90, _⟩ => ⟨S_, .f32⟩
  | .hbm, ⟨91, _⟩ => ⟨S1x32, .f32⟩
  | .hbm, ⟨92, _⟩ => ⟨S1x32, .f32⟩
  | .hbm, ⟨93, _⟩ => ⟨S1x32, .f32⟩
  | .hbm, ⟨94, _⟩ => ⟨S1x32, .f32⟩
  | .hbm, ⟨95, _⟩ => ⟨S800000, .i1⟩
  | .hbm, ⟨96, _⟩ => ⟨S800000, .f32⟩
  | .hbm, ⟨97, _⟩ => ⟨S800000x1, .f32⟩
  | .hbm, ⟨98, _⟩ => ⟨S800000x1, .f32⟩
  | .hbm, ⟨99, _⟩ => ⟨S800000x128, .f32⟩
  | .hbm, ⟨100, _⟩ => ⟨S800000, .f32⟩
  | .hbm, ⟨101, _⟩ => ⟨S_, .f32⟩
  | .hbm, ⟨102, _⟩ => ⟨S50000, .f32⟩
  | .hbm, ⟨103, _⟩ => ⟨S800000x1, .i32⟩
  | .hbm, ⟨104, _⟩ => ⟨S50000, .f32⟩
  | .hbm, ⟨105, _⟩ => ⟨S_, .f32⟩
  | .hbm, ⟨106, _⟩ => ⟨S50000x128, .f32⟩
  | .hbm, ⟨107, _⟩ => ⟨S800000x1, .i32⟩
  | .hbm, ⟨108, _⟩ => ⟨S50000x128, .f32⟩
  | .hbm, ⟨109, _⟩ => ⟨S50000x1, .f32⟩
  | .hbm, ⟨110, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S3200x128, .f32⟩
  | .local _ .vmem, ⟨6, _⟩ => ⟨S3200x128, .f32⟩
  | .local _ .vmem, ⟨7, _⟩ => ⟨S128x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S3200x128, .f32⟩
  | .local _ .vmem, ⟨14, _⟩ => ⟨S3200x128, .f32⟩
  | .local _ .vmem, ⟨15, _⟩ => ⟨S128x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S64x32, .f32⟩
  | .local _ .vmem, ⟨22, _⟩ => ⟨S1x32, .f32⟩
  | .local _ .vmem, ⟨23, _⟩ => ⟨S3200x64, .bf16⟩
  | .local _ .vmem, ⟨24, _⟩ => ⟨S3200x64, .bf16⟩
  | .local _ .vmem, ⟨25, _⟩ => ⟨S1x32, .f32⟩
  | .local _ .vmem, ⟨26, _⟩ => ⟨S1x32, .f32⟩
  | .local _ .vmem, ⟨27, _⟩ => ⟨S1x32, .f32⟩
  | .local _ .vmem, ⟨28, _⟩ => ⟨S1x32, .f32⟩
  | .local _ .vmem, ⟨29, _⟩ => ⟨S3200x64, .bf16⟩
  | .local _ .vmem, ⟨30, _⟩ => ⟨S3200x64, .bf16⟩
  | .local _ .vmem, ⟨31, _⟩ => ⟨S3200x128, .f32⟩
  | .local _ .vmem, ⟨32, _⟩ => ⟨S3200x128, .f32⟩
  | .local _ .vmem, ⟨33, _⟩ => ⟨S64x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S1x1, .f32⟩
  | .local _ .vmem, ⟨41, _⟩ => ⟨S3200x1, .f32⟩
  | .local _ .vmem, ⟨42, _⟩ => ⟨S3200x1, .f32⟩
  | .local _ .vmem, ⟨43, _⟩ => ⟨S3200x1, .f32⟩
  | .local _ .vmem, ⟨44, _⟩ => ⟨S3200x1, .f32⟩
  | .local _ .vmem, ⟨45, _⟩ => ⟨S3200x128, .f32⟩
  | .local _ .vmem, ⟨46, _⟩ => ⟨S3200x128, .f32⟩
  | .local _ .vmem, ⟨47, _⟩ => ⟨S2000x128, .f32⟩
  | .local _ .vmem, ⟨48, _⟩ => ⟨S2000x128, .f32⟩
  | .local _ .vmem, ⟨49, _⟩ => ⟨S2000x1, .f32⟩
  | .local _ .vmem, ⟨50, _⟩ => ⟨S2000x1, .f32⟩
  | .local _ .vmem, ⟨51, _⟩ => ⟨S2000x128, .f32⟩
  | .local _ .vmem, ⟨52, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17_0 : Ref sig .tc := ⟨.hbm, 74, rfl⟩
abbrev main_v17_1 : Ref sig .tc := ⟨.hbm, 75, rfl⟩
abbrev main_cst : Ref sig .tc := ⟨.hbm, 76, rfl⟩
abbrev main_v18 : Ref sig .tc := ⟨.hbm, 77, rfl⟩
abbrev main_v19 : Ref sig .tc := ⟨.hbm, 78, rfl⟩
abbrev main_cst_0 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24_0 : Ref sig .tc := ⟨.hbm, 84, rfl⟩
abbrev main_v24_1 : Ref sig .tc := ⟨.hbm, 85, rfl⟩
abbrev main_v24_2 : Ref sig .tc := ⟨.hbm, 86, rfl⟩
abbrev main_cst_1 : Ref sig .tc := ⟨.hbm, 87, rfl⟩
abbrev main_v25 : Ref sig .tc := ⟨.hbm, 88, rfl⟩
abbrev main_v26 : Ref sig .tc := ⟨.hbm, 89, rfl⟩
abbrev main_cst_2 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34_0 : Ref sig .tc := ⟨.hbm, 98, rfl⟩
abbrev main_v34_1 : Ref sig .tc := ⟨.hbm, 99, rfl⟩
abbrev main_v35 : Ref sig .tc := ⟨.hbm, 100, rfl⟩
abbrev main_cst_3 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_4 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg9_1 : Ref sig .tc := ⟨.vmem, 24, rfl⟩
abbrev cc2_stg10_0 : Ref sig .tc := ⟨.vmem, 25, rfl⟩
abbrev cc2_stg11_0 : Ref sig .tc := ⟨.vmem, 26, rfl⟩
abbrev cc2_scratch0 : Ref sig .tc := ⟨.vmem, 27, rfl⟩
abbrev cc2_scratch1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg10_1 : Ref sig .tc := ⟨.vmem, 42, rfl⟩
abbrev cc3_stg11_0 : Ref sig .tc := ⟨.vmem, 43, rfl⟩
abbrev cc3_stg11_1 : Ref sig .tc := ⟨.vmem, 44, rfl⟩
abbrev cc3_stg12_0 : Ref sig .tc := ⟨.vmem, 45, rfl⟩
abbrev cc3_stg12_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem9_1 : DmaSem sig := 22
abbrev cc2_sem10_0 : DmaSem sig := 23
abbrev cc2_sem11_0 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc3_sem10_1 : DmaSem sig := 38
abbrev cc3_sem11_0 : DmaSem sig := 39
abbrev cc3_sem11_1 : DmaSem sig := 40
abbrev cc3_sem12_0 : DmaSem sig := 41
abbrev cc3_sem12_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def k1_cond2 (i : grid1.Coords) : BitVec 1 :=
  let arg0 : BitVec 32 := BitVec.ofNat 32 (i 0).val
  let c249_i32 : BitVec 32 := 249#32
  let v28 : BitVec 1 := Scalar.cmpi .eq arg0 c249_i32
  let v29 : BitVec 32 := Scalar.extui v28
  let c0_i32_16 : BitVec 32 := 0#32
  let v30 : BitVec 1 := Scalar.cmpi .ne v29 c0_i32_16
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![250], ![false]⟩

def k2_cond2 (i : grid2.Coords) : BitVec 1 :=
  let arg0 : BitVec 32 := BitVec.ofNat 32 (i 0).val
  let c249_i32 : BitVec 32 := 249#32
  let v62 : BitVec 1 := Scalar.cmpi .eq arg0 c249_i32
  let v63 : BitVec 32 := Scalar.extui v62
  let c0_i32_34 : BitVec 32 := 0#32
  let v64 : BitVec 1 := Scalar.cmpi .ne v63 c0_i32_34
  v64

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S3200x64 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3200x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S3200x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S3200x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S3200x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S64_S1x64 : S64.ShapeCasts S1x64
  shapeCasts_S32_S1x32 : S32.ShapeCasts S1x32
  shapeCasts_S32x1_S1x32 : S32x1.ShapeCasts S1x32
  shapeCasts_S1_S1x1 : S1.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x64_S128x64_0_0 : ∀ a, (![0, 0] : Fin 2 → Nat) a + S128x64.size a ≤ S128x64.size a
  h_S128x64 : 0 < S128x64.numel
  broadcasts_S1x64_S3200x64 : S1x64.Broadcasts S3200x64
  reduces_S3200x64_S64 : S3200x64.Reduces [0] S64
  bcast_S_S1x64 : S_.BroadcastsInDim S1x64 (![] : Fin 0 → Fin S1x64.rank)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S3200x64_S3200x64_0_0 : ∀ a, (![0, 0] : Fin 2 → Nat) a + S3200x64.size a ≤ S3200x64.size a
  h_S3200x64 : 0 < S3200x64.numel
  packedbf16_S3200x64_S3200x64_0_0 : (Rect.unit (s := S3200x64) ![0, 0] S3200x64.size inb_S3200x64_S3200x64_0_0).PackedRows (EltTy.packing .bf16)
  inb_S64x32_S64x32_0_0 : ∀ a, (![0, 0] : Fin 2 → Nat) a + S64x32.size a ≤ S64x32.size a
  h_S64x32 : 0 < S64x32.numel
  broadcasts_S1x32_S3200x32 : S1x32.Broadcasts S3200x32
  reduces_S3200x32_S32 : S3200x32.Reduces [0] S32
  bcast_S_S1x32 : S_.BroadcastsInDim S1x32 (![] : Fin 0 → Fin S1x32.rank)
  shapeCasts_S800000_S800000x1 : S800000.ShapeCasts S800000x1
  shapeCasts_S3200x64_S3200x64 : S3200x64.ShapeCasts S3200x64
  reduces_S3200x32_S3200 : S3200x32.Reduces [1] S3200
  shapeCasts_S3200_S3200x1 : S3200.ShapeCasts S3200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  broadcasts_S3200x1_S3200x128 : S3200x1.Broadcasts S3200x128
  shapeCasts_S800000x1_S800000 : S800000x1.ShapeCasts S800000
  bcast_S_S50000 : S_.BroadcastsInDim S50000 (![] : Fin 0 → Fin S50000.rank)
  bcast_S_S50000x128 : S_.BroadcastsInDim S50000x128 (![] : Fin 0 → Fin S50000x128.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  dot_S3200x128_S128x64_S3200x64_1_0_0_1_n_n_wf : DotDims.WF S3200x128 S128x64 S3200x64 [1] [0] [0] [1] [] []
  dot_S3200x64_S64x32_S3200x32_1_0_0_1_n_n_wf : DotDims.WF S3200x64 S64x32 S3200x32 [1] [0] [0] [1] [] []
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S800000x128.size a
  hwx2_0 : ∀ i : grid2.Coords, EltTy.bits .f32 = 32 ∨ (Rect.block (s := S800000x128) S3200x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x32.size a ≤ S64x32.size a
  hwx2_7 : ∀ i : grid2.Coords, EltTy.bits .f32 = 32 ∨ (Rect.block (s := S64x32) S64x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S3200x64.size a ≤ S800000x64.size a
  hwx2_9 : ∀ i : grid2.Coords, EltTy.bits .bf16 = 32 ∨ (Rect.block (s := S800000x64) S3200x64.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x32.size a ≤ S1x32.size a
  hwx2_11 : ∀ i : grid2.Coords, EltTy.bits .f32 = 32 ∨ (Rect.block (s := S1x32) S1x32.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x64.size a ≤ S800000x64.size a
  hwx3_0 : ∀ i : grid3.Coords, EltTy.bits .bf16 = 32 ∨ (Rect.block (s := S800000x64) S3200x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3200x128.size a ≤ S800000x128.size a
  hwx3_1 : ∀ i : grid3.Coords, EltTy.bits .f32 = 32 ∨ (Rect.block (s := S800000x128) S3200x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x32.size a ≤ S1x32.size a
  hwx3_7 : ∀ i : grid3.Coords, EltTy.bits .f32 = 32 ∨ (Rect.block (s := S1x32) S1x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x32.size a ≤ S1x32.size a
  hwx3_8 : ∀ i : grid3.Coords, EltTy.bits .f32 = 32 ∨ (Rect.block (s := S1x32) S1x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S3200x1.size a ≤ S800000x1.size a
  hwx3_10 : ∀ i : grid3.Coords, EltTy.bits .f32 = 32 ∨ (Rect.block (s := S800000x1) S3200x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S3200x1.size a ≤ S800000x1.size a
  hwx3_11 : ∀ i : grid3.Coords, EltTy.bits .f32 = 32 ∨ (Rect.block (s := S800000x1) S3200x1.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S3200x128.size a ≤ S800000x128.size a
  hwx3_12 : ∀ i : grid3.Coords, EltTy.bits .f32 = 32 ∨ (Rect.block (s := S800000x128) S3200x128.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x32_S3200x32_1_0_0_1_n_n : DotDims S3200x64 S64x32 S3200x32 where
  lhsContracting := [1]
  rhsContracting := [0]
  lhsNonContracting := [0]
  rhsNonContracting := [1]
  lhsBatch := []
  rhsBatch := []
  wf := dot_S3200x64_S64x32_S3200x32_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17_0) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_1) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v8) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg6) S64x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v10) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v24_0) S3200x64.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v24_1) S1x32.size cc2_transform_10 reads2_10 true true 1 stage2_10 sem2_10
    hrank2 hreads2_10 hinb2_10 nbuf2_10 (Memref.isWhole_whole _) hwx2_10 hstage2_10

abbrev win2_11 : Pipeline.Window sig grid2 :=
  Pipeline.Window.ofSpec (Memref.whole main_v24_2) S1x32.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev idle2 : Fin 12 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond2 i == 1#1) | 11 => fun i => !(k2_cond2 i == 1#1) | ⟨_ + 12, h⟩ => absurd h (Nat.not_lt.2 (Nat.le_add_left _ _))

abbrev win3_0 : Pipeline.Window sig grid3 :=
  Pipeline.Window.ofSpec (Memref.whole main_v24_0) S3200x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S3200x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v13) S1x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v14) S1x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v15) S1x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v16) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v33) S3200x1.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v34_0) S3200x1.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v34_1) S3200x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v41) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S1x64 : Shape := ⟨2, ![1, 64]⟩
abbrev S800000x32 : Shape := ⟨2, ![800000, 32]⟩
abbrev S1x32 : Shape := ⟨2, ![1, 32]⟩
abbrev S1x1 : Shape := ⟨2, ![1, 1]⟩
abbrev S50000 : Shape := ⟨1, ![50000]⟩
abbrev S50000x1 : Shape := ⟨2, ![50000, 1]⟩

abbrev nBuf : Space → Nat
  | .hbm => 174
  | .vmem => 0
  | .smem => 0
  | _ => 0

abbrev hbmTy0_0 (i : Nat) : BufTy := match i % 128 with
  | 0 => ⟨S50000x256, .f32⟩
  | 1 => ⟨S256x128, .f32⟩
  | 2 => ⟨S128x64, .f32⟩
  | 3 => ⟨S64, .f32⟩
  | 4 => ⟨S64, .f32⟩
  | 5 => ⟨S64, .f32⟩
  | 6 => ⟨S64x32, .f32⟩
  | 7 => ⟨S32, .f32⟩
  | 8 => ⟨S32, .f32⟩
  | 9 => ⟨S32, .f32⟩
  | 10 => ⟨S32x1, .f32⟩
  | 11 => ⟨S1, .f32⟩
  | 12 => ⟨S2x800000, .i32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x128, .f32⟩
  | 37 => ⟨S800000x128, .f32⟩
  | 38 => ⟨S800000x64, .f32⟩
  | 39 => ⟨S1x64, .f32⟩
  | 40 => ⟨S800000x64, .f32⟩
  | 41 => ⟨S800000x64, .f32⟩
  | 42 => ⟨S_, .f32⟩
  | 43 => ⟨S64, .f32⟩
  | 44 => ⟨S_, .f32⟩
  | 45 => ⟨S64, .f32⟩
  | 46 => ⟨S64, .f32⟩
  | 47 => ⟨S1x64, .f32⟩
  | 48 => ⟨S800000x64, .f32⟩
  | 49 => ⟨S800000x64, .f32⟩
  | 50 => ⟨S800000x64, .f32⟩
  | 51 => ⟨S_, .f32⟩
  | 52 => ⟨S64, .f32⟩
  | 53 => ⟨S_, .f32⟩
  | 54 => ⟨S64, .f32⟩
  | 55 => ⟨S64, .f32⟩
  | 56 => ⟨S1x64, .f32⟩
  | 57 => ⟨S800000x64, .f32⟩
  | 58 => ⟨S800000x64, .f32⟩
  | 59 => ⟨S_, .f32⟩
  | 60 => ⟨S64, .f32⟩
  | 61 => ⟨S64, .f32⟩
  | 62 => ⟨S64, .f32⟩
  | 63 => ⟨S1x64, .f32⟩
  | 64 => ⟨S800000x64, .f32⟩
  | 65 => ⟨S800000x64, .f32⟩
  | 66 => ⟨S1x64, .f32⟩
  | 67 => ⟨S800000x64, .f32⟩
  | 68 => ⟨S800000x64, .f32⟩
  | 69 => ⟨S1x64, .f32⟩
  | 70 => ⟨S800000x64, .f32⟩
  | 71 => ⟨S800000x64, .f32⟩
  | 72 => ⟨S_, .f32⟩
  | 73 => ⟨S800000x64, .f32⟩
  | 74 => ⟨S800000x64, .i1⟩
  | 75 => ⟨S_, .f32⟩
  | 76 => ⟨S800000x64, .f32⟩
  | 77 => ⟨S800000x64, .f32⟩
  | 78 => ⟨S800000x64, .f32⟩
  | 79 => ⟨S800000x32, .f32⟩
  | 80 => ⟨S1x32, .f32⟩
  | 81 => ⟨S800000x32, .f32⟩
  | 82 => ⟨S800000x32, .f32⟩
  | 83 => ⟨S_, .f32⟩
  | 84 => ⟨S32, .f32⟩
  | 85 => ⟨S_, .f32⟩
  | 86 => ⟨S32, .f32⟩
  | 87 => ⟨S32, .f32⟩
  | 88 => ⟨S1x32, .f32⟩
  | 89 => ⟨S800000x32, .f32⟩
  | 90 => ⟨S800000x32, .f32⟩
  | 91 => ⟨S800000x32, .f32⟩
  | 92 => ⟨S_, .f32⟩
  | 93 => ⟨S32, .f32⟩
  | 94 => ⟨S_, .f32⟩
  | 95 => ⟨S32, .f32⟩
  | 96 => ⟨S32, .f32⟩
  | 97 => ⟨S1x32, .f32⟩
  | 98 => ⟨S800000x32, .f32⟩
  | 99 => ⟨S800000x32, .f32⟩
  | 100 => ⟨S_, .f32⟩
  | 101 => ⟨S32, .f32⟩
  | 102 => ⟨S32, .f32⟩
  | 103 => ⟨S32, .f32⟩
  | 104 => ⟨S1x32, .f32⟩
  | 105 => ⟨S800000x32, .f32⟩
  | 106 => ⟨S800000x32, .f32⟩
  | 107 => ⟨S1x32, .f32⟩
  | 108 => ⟨S800000x32, .f32⟩
  | 109 => ⟨S800000x32, .f32⟩
  | 110 => ⟨S1x32, .f32⟩
  | 111 => ⟨S800000x32, .f32⟩
  | 112 => ⟨S800000x32, .f32⟩
  | 113 => ⟨S_, .f32⟩
  | 114 => ⟨S800000x32, .f32⟩
  | 115 => ⟨S800000x32, .i1⟩
  | 116 => ⟨S_, .f32⟩
  | 117 => ⟨S800000x32, .f32⟩
  | 118 => ⟨S800000x32, .f32⟩
  | 119 => ⟨S800000x32, .f32⟩
  | 120 => ⟨S800000x1, .f32⟩
  | 121 => ⟨S1x1, .f32⟩
  | 122 => ⟨S800000x1, .f32⟩
  | 123 => ⟨S800000x1, .f32⟩
  | 124 => ⟨S_, .f32⟩
  | 125 => ⟨S800000x1, .f32⟩
  | 126 => ⟨S800000x1, .i1⟩
  | 127 => ⟨S_, .f32⟩
  | _ => ⟨S50000x256, .f32⟩

abbrev hbmTy0_1 (i : Nat) : BufTy := match i % 128 with
  | 0 => ⟨S800000x1, .f32⟩
  | 1 => ⟨S800000x1, .f32⟩
  | 2 => ⟨S800000x1, .f32⟩
  | 3 => ⟨S800000, .f32⟩
  | 4 => ⟨S800000, .f32⟩
  | 5 => ⟨S800000, .f32⟩
  | 6 => ⟨S800000, .i1⟩
  | 7 => ⟨S800000, .f32⟩
  | 8 => ⟨S800000, .f32⟩
  | 9 => ⟨S_, .f32⟩
  | 10 => ⟨S50000, .f32⟩
  | 11 => ⟨S800000x1, .i32⟩
  | 12 => ⟨S50000, .f32⟩
  | 13 => ⟨S_, .f32⟩
  | 14 => ⟨S50000, .f32⟩
  | 15 => ⟨S50000, .i1⟩
  | 16 => ⟨S_, .f32⟩
  | 17 => ⟨S_, .f32⟩
  | 18 => ⟨S50000, .f32⟩
  | 19 => ⟨S50000, .f32⟩
  | 20 => ⟨S800000x1, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x1, .f32⟩
  | 37 => ⟨S50000x128, .f32⟩
  | 38 => ⟨S50000x128, .f32⟩
  | 39 => ⟨S_, .f32⟩
  | 40 => ⟨S50000x128, .f32⟩
  | 41 => ⟨S50000x128, .i1⟩
  | 42 => ⟨S_, .f32⟩
  | 43 => ⟨S50000x128, .f32⟩
  | 44 => ⟨S50000x128, .f32⟩
  | 45 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_14 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_16 : Ref sig .tc := ⟨.hbm, 124, rfl⟩
abbrev main_v93 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_18 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_19 : Ref sig .tc := ⟨.hbm, 141, rfl⟩
abbrev main_v107 : Ref sig .tc := ⟨.hbm, 142, rfl⟩
abbrev main_v108 : Ref sig .tc := ⟨.hbm, 143, rfl⟩
abbrev main_cst_20 : Ref sig .tc := ⟨.hbm, 144, rfl⟩
abbrev main_call3_v0 : Ref sig .tc := ⟨.hbm, 145, rfl⟩
abbrev main_call3_v1 : Ref sig .tc := ⟨.hbm, 146, rfl⟩
abbrev main_v109 : Ref sig .tc := ⟨.hbm, 147, rfl⟩
abbrev main_v110 : Ref sig .tc := ⟨.hbm, 148, rfl⟩
abbrev main_c_21 : Ref sig .tc := ⟨.hbm, 149, rfl⟩
abbrev main_v111 : Ref sig .tc := ⟨.hbm, 150, rfl⟩
abbrev main_v112 : Ref sig .tc := ⟨.hbm, 151, rfl⟩
abbrev main_c_22 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_23 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_24 : Ref sig .tc := ⟨.hbm, 167, rfl⟩
abbrev main_v126 : Ref sig .tc := ⟨.hbm, 168, rfl⟩
abbrev main_v127 : Ref sig .tc := ⟨.hbm, 169, rfl⟩
abbrev main_cst_25 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  reducesTo_S800000x64_S64_d0 : S800000x64.ReducesTo [0] S64
  h_S_ : 0 < S_.numel
  bcast_S_S64 : S_.BroadcastsInDim S64 (![] : Fin 0 → Fin S64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  reducesTo_S800000x32_S32_d0 : S800000x32.ReducesTo [0] S32
  bcast_S_S32 : S_.BroadcastsInDim S32 (![] : Fin 0 → Fin S32.rank)
  bcast_S_S800000x32 : S_.BroadcastsInDim S800000x32 (![] : Fin 0 → Fin S800000x32.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  dot_S800000x128_S128x64_S800000x64_1_0_0_1_n_n_wf : DotDims.WF S800000x128 S128x64 S800000x64 [1] [0] [0] [1] [] []
  dot_S800000x64_S64x32_S800000x32_1_0_0_1_n_n_wf : DotDims.WF S800000x64 S64x32 S800000x32 [1] [0] [0] [1] [] []
  dot_S800000x32_S32x1_S800000x1_1_0_0_1_n_n_wf : DotDims.WF S800000x32 S32x1 S800000x1 [1] [0] [0] [1] [] []
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.K.Reg0.lean ====
import proofs.«430728_j7627861917709_1_alg».proof.Proof.Gen.Kernel.Launch
import proofs.«430728_j7627861917709_1_alg».proof.Proof.Gen.Kernel.Skeleton
import proofs.«430728_j7627861917709_1_alg».proof.Proof.Gen.Kernel.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offs_zero : (![0, 0] : Fin 2 → Nat) = fun _ => 0 :=
  funext fun a => by revert a; decide

theorem body_triple (c : Dev nD) (E : Set ℕ) (i : grid0.Coords)
    (a : Memref sig .tc .vmem S2000x256 .f32) (ha : a.IsWhole)
    (b : Memref sig .tc .vmem S256x128 .f32) (hb : b.IsWhole)
    (o : Memref sig .tc .vmem S2000x128 .f32) (ho : o.IsWhole)
    (x : Vec F S2000x256 .f32) (y : Vec F S256x128 .f32) (K : PUnit → sProp 𝕄) :
    (iprop(owns c a fullShare x ∗ owns c b fullShare y
        ∗ (∃ d, owns c o fullShare d)
        ∗ (iprop(owns c a fullShare x ∗ owns c b fullShare y
            ∗ owns c o fullShare (k0_pay1 x y)) -∗ K ⟨⟩)) : sProp 𝕄)
      ⊢ wp frame (wpE (defs₀ (F := F)) Variants.none c none) E (cc0__matmul_kernel i a ha b hb o ho) K := by
  simp only [cc0__matmul_kernel_eq_skeleton]; unfold cc0__matmul_kernel_skel
  unfold owns
  iintro ⟨⟨%fa, %hfa, Ha⟩, ⟨%fb, %hfb, Hb⟩, ⟨%d, %fo, -, Ho⟩, Hk⟩
  subst hfa hfb
  sl_exec
  sl_step
  iapply Hk
  isplitl [Ha]; · iexists fa; isplitr; · ipureintro; rfl
                  iexact Ha
  isplitl [Hb]; · iexists fb; isplitr; · ipureintro; rfl
                  iexact Hb
  iexists _; isplitr; swap; · iexact Ho
  ipureintro
  rw [View.read_writes_eq_canon _ _ _
        (fun p => ⟨_, List.mem_singleton_self _, View.mem_set_unit_zero offs_zero inb_S2000x128_S2000x128_0_0 p⟩),
    View.canon_unit_zero offs_zero, View.readAt_eq_ld, View.readAt_eq_ld,
    View.ld_unit_zero offs_zero, View.ld_unit_zero offs_zero]

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay1 (blk V c 0 t) (blk V c 1 t)
  Φ _ := Pipeline.ΦA spec0 c
  q _ := fullShare
  owed _ := 0

theorem dat_A (c : Dev nD) (w : Fin cfg0.W) : (dat V c).A w = V c (Pipeline.arrRef spec0 w) := rfl
theorem dat_q (c : Dev nD) (w : Fin cfg0.W) : (dat V c).q w = fullShare := rfl
theorem dat_owed (c : Dev nD) (t : Fin (cfg0.N + 1)) : (dat V c).owed t = 0 := rfl
theorem Φ_in (c : Dev nD) : (Pipeline.ΦA spec0 c : sProp 𝕄) ⊢ (dat V c).Φ 0 := .rfl
theorem Φ_out (c : Dev nD) : (dat V c).Φ (Fin.last _) ⊢ (Pipeline.ΦA spec0 c : sProp 𝕄) := .rfl

theorem after_rows (c : Dev nD) (t : Fin cfg0.N) : (dat V c).after 0 t = blk V c 0 t := rfl

theorem after_weights (c : Dev nD) (t : Fin cfg0.N) : (dat V c).after 1 t = blk V c 1 t := rfl

theorem after_out (c : Dev nD) (t : Fin cfg0.N) :
    (dat V c).after 2 t = k0_pay1 (blk V c 0 t) (blk V c 1 t) := rfl

theorem held_rows (c : Dev nD) (t : Fin cfg0.N) (d) : (dat V c).before 0 t d = blk V c 0 t :=
  (dat V c).before_fetched 0 t (fetch0_0 t) d

theorem held_weights (c : Dev nD) (t : Fin cfg0.N) (d) : (dat V c).before 1 t d = blk V c 1 t :=
  (dat V c).before_in_eq_fetched 1 rfl (fun _ => rfl) (fun _ _ _ => rfl) (fun _ => rfl) t d

theorem at_point (c : Dev nD) (t : Fin cfg0.N) :
    iprop((dat V c).Φ t.castSucc ∗ (dat V c).owesAt () t.castSucc
        ∗ (∃ d, owns c (st0_0 t) fullShare ((dat V c).before 0 t d))
        ∗ (∃ d, owns c (st0_1 t) fullShare ((dat V c).before 1 t d))
        ∗ (∃ d, owns c (st0_2 t) fullShare ((dat V c).before 2 t d)))
      ⊢ wp frame (wpE (defs₀ (F := F)) Variants.none c none) Set.univ (bodyAt0 t) (fun _ =>
          iprop((dat V c).Φ t.succ ∗ (dat V c).owesAt () t.succ
            ∗ owns c (st0_0 t) fullShare ((dat V c).after 0 t)
            ∗ owns c (st0_1 t) fullShare ((dat V c).after 1 t)
            ∗ owns c (st0_2 t) fullShare ((dat V c).after 2 t))) := by
  unfold bodyAt0
  simp only [held_rows, held_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  iframe H0 H1
  isplitl [H2]; · iexists _; iexact H2
  iintro ⟨H0, H1, H2⟩
  iframe

theorem obligation (c : Dev nD) : BodyObligation (dat (F := F) V c) (defs₀ (F := F)) Variants.none () Set.univ := fun t => by
  rw [bigSep_W0, bigSep_W0]
  exact at_point V c t

end Cert.Kernel.Reg0

end
-- ==== Proof.K.Reg1.lean ====
import proofs.«430728_j7627861917709_1_alg».proof.Proof.Gen.Kernel.Launch
import proofs.«430728_j7627861917709_1_alg».proof.Proof.Gen.Kernel.Skeleton
import proofs.«430728_j7627861917709_1_alg».proof.Proof.Gen.Kernel.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rRow : Rect S1x64 := Rect.unit (s := S1x64) ![0, 0] S1x64.size inb_S1x64_S1x64_0_0

theorem offRow : (![0, 0] : Fin 2 → ℕ) = fun _ => 0 := funext fun a => by fin_cases a <;> rfl

-- A view read after a list of writes whose head covers it whole is the head's value.
theorem read_after_row {sg : RefSig} {κ : Kind} {sp : Space} (v : View sg κ sp S1x64 .f32) (f : v.ty.Contents (Elt F))
    (w : Vec F S1x64 .f32) (L : List (View.Piece (Elt F) S1x64 .f32)) :
    v.read (Elt F) (v.writes (Elt F) f ((⟨rRow, w⟩ : View.Piece (Elt F) S1x64 .f32) :: L)) = w := by
  rw [View.read_writes_eq_canon _ _ _ (fun y => ⟨⟨rRow, w⟩, List.mem_cons.mpr (Or.inl rfl), View.mem_set_unit_zero offRow inb_S1x64_S1x64_0_0 y⟩),
    View.canon_cons_unit_zero offRow]

theorem c1_iff : ∀ t : Fin grid1.N,
    (Scalar.cmpi .ne (Scalar.extui (Scalar.cmpi .eq (BitVec.ofNat 32 ((grid1.coords t) 0).val) 0#32)) 0#32 = 1#1) ↔ t.val = 0 := by
  decide +kernel

theorem c2_iff : ∀ t : Fin grid1.N, (k1_cond2 (grid1.coords t) = 1#1) ↔ t.val = 249 := by
  decide +kernel

theorem idle_of_ne : ∀ t : Fin cfg1.N, t.val ≠ 249 →
    cfg1.idle 3 (cfg1.grid.coords t) = true ∧ cfg1.idle 4 (cfg1.grid.coords t) = true :=
  (by decide +kernel : ∀ t : Fin grid1.N, t.val ≠ 249 → idle1 3 (grid1.coords t) = true ∧ idle1 4 (grid1.coords t) = true)

theorem idle_of_eq : ∀ t : Fin cfg1.N, t.val = 249 →
    cfg1.idle 3 (cfg1.grid.coords t) = false ∧ cfg1.idle 4 (cfg1.grid.coords t) = false :=
  (by decide +kernel : ∀ t : Fin grid1.N, t.val = 249 → idle1 3 (grid1.coords t) = false ∧ idle1 4 (grid1.coords t) = false)

theorem lt250 (t : Fin cfg1.N) : t.val < 250 := lt_of_lt_of_eq t.isLt N_1

theorem flush_of_ne (t : Fin cfg1.N) (h : t.val ≠ 249) : (cfg1.win 3).flush t = false ∧ (cfg1.win 4).flush t = false :=
  ⟨Bool.eq_false_iff.mpr fun hf => by have := (flush1_3 t).mp hf; have := lt250 t; omega,
    Bool.eq_false_iff.mpr fun hf => by have := (flush1_4 t).mp hf; have := lt250 t; omega⟩

section kernel

variable (c : Dev nD) (i : grid1.Coords)
    (arg1 : Memref sig .tc .vmem S3200x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole)
    (x0 : Vec F S3200x128 .f32) (x1 : Vec F S128x64 .f32) (x2 : Vec F S1x64 .f32) (p0 p1 : Vec F S1x64 .f32)

-- A point other than the last adds its block's contribution to `q0 q1`: the initial rows at the first point, the rows carried so far at a later one.
theorem kernel_step (q0 q1 : Vec F S1x64 .f32) (K : PUnit → sProp 𝕄)
    (hf : Scalar.cmpi .ne (Scalar.extui (Scalar.cmpi .eq (BitVec.ofNat 32 (i 0).val) 0#32)) 0#32 = 1#1 → q0 = k1_pay1 ∧ q1 = k1_pay2)
    (hm : ¬ (Scalar.cmpi .ne (Scalar.extui (Scalar.cmpi .eq (BitVec.ofNat 32 (i 0).val) 0#32)) 0#32 = 1#1) → q0 = p0 ∧ q1 = p1) (h2 : ¬ (k1_cond2 i = 1#1)) :
    (iprop(owns c arg1 fullShare x0 ∗ owns c arg2 fullShare x1 ∗ owns c arg3 fullShare x2
        ∗ owns c arg6 fullShare p0 ∗ owns c arg7 fullShare p1
        ∗ (iprop(owns c arg1 fullShare x0 ∗ owns c arg2 fullShare x1 ∗ owns c arg3 fullShare x2
            ∗ owns c arg6 fullShare (k1_pay4 x0 x1 x2 q0) ∗ owns c arg7 fullShare (k1_pay5 x0 x1 x2 q1)) -∗ K ⟨⟩)) : sProp 𝕄)
      ⊢ wp frame (wpE (defs₀ (F := F)) Variants.none c none) Set.univ
          (cc1__stats1_kernel i arg1 harg1 arg2 harg2 arg3 harg3 arg4 harg4 arg5 harg5 arg6 harg6 arg7 harg7) K := by
  simp only [cc1__stats1_kernel_eq_skeleton]; unfold cc1__stats1_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  subst hf1 hf2 hf3 hf6 hf7
  by_cases h1 : Scalar.cmpi .ne (Scalar.extui (Scalar.cmpi .eq (BitVec.ofNat 32 (i 0).val) 0#32)) 0#32 = 1#1
  on_goal 1 => obtain ⟨rfl, rfl⟩ := hf h1
  on_goal 2 => obtain ⟨rfl, rfl⟩ := hm h1
  all_goals
    sl_exec
    sl_step
    iapply Hk
    isplitl [H1]; iexists f1; isplitr; rotate_left; iexact H1
    isplitl [H2]; iexists f2; isplitr; rotate_left; iexact H2
    isplitl [H3]; iexists f3; isplitr; rotate_left; iexact H3
    isplitl [H6]; iexists _; isplitr; rotate_left; iexact H6
    iexists _; isplitr; rotate_left; iexact H7
    all_goals ipureintro
    iterate 3 rfl
    all_goals (sl_unfold_words; rw [read_after_row]; simp only [View.readAt_eq_ld, View.ld_unit_zero (S := S3200x128) offRow, View.ld_unit_zero (S := S128x64) offRow,
    View.ld_unit_zero (S := S1x64) offRow, View.readCov_unit_zero (S := S1x64) _ offRow])

theorem kernel_last (K : PUnit → sProp 𝕄) (h1 : ¬ (Scalar.cmpi .ne (Scalar.extui (Scalar.cmpi .eq (BitVec.ofNat 32 (i 0).val) 0#32)) 0#32 = 1#1)) (h2 : k1_cond2 i = 1#1) :
    (iprop(owns c arg1 fullShare x0 ∗ owns c arg2 fullShare x1 ∗ owns c arg3 fullShare x2
        ∗ (∃ d, owns c arg4 fullShare d) ∗ (∃ d, owns c arg5 fullShare d)
        ∗ owns c arg6 fullShare p0 ∗ owns c arg7 fullShare p1
        ∗ (iprop(owns c arg1 fullShare x0 ∗ owns c arg2 fullShare x1 ∗ owns c arg3 fullShare x2
            ∗ owns c arg4 fullShare (k1_pay4 x0 x1 x2 p0) ∗ owns c arg5 fullShare (k1_pay5 x0 x1 x2 p1)
            ∗ owns c arg6 fullShare (k1_pay4 x0 x1 x2 p0) ∗ owns c arg7 fullShare (k1_pay5 x0 x1 x2 p1)) -∗ K ⟨⟩)) : sProp 𝕄)
      ⊢ wp frame (wpE (defs₀ (F := F)) Variants.none c none) Set.univ
          (cc1__stats1_kernel i arg1 harg1 arg2 harg2 arg3 harg3 arg4 harg4 arg5 harg5 arg6 harg6 arg7 harg7) K := by
  simp only [cc1__stats1_kernel_eq_skeleton]; unfold cc1__stats1_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec
  sl_step
  iapply Hk
  isplitl [H1]; iexists f1; isplitr; rotate_left; iexact H1
  isplitl [H2]; iexists f2; isplitr; rotate_left; iexact H2
  isplitl [H3]; iexists f3; isplitr; rotate_left; iexact H3
  isplitl [H4]; iexists _; isplitr; rotate_left; iexact H4
  isplitl [H5]; iexists _; isplitr; rotate_left; iexact H5
  isplitl [H6]; iexists _; isplitr; rotate_left; iexact H6
  iexists _; isplitr; rotate_left; iexact H7
  all_goals ipureintro
  iterate 3 rfl
  all_goals (sl_unfold_words; rw [read_after_row]; simp only [View.readAt_eq_ld, View.ld_unit_zero (S := S3200x128) offRow, View.ld_unit_zero (S := S128x64) offRow,
    View.ld_unit_zero (S := S1x64) offRow, View.readCov_unit_zero (S := S1x64) _ offRow])

end kernel

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev eblk (c : Dev nD) (t : Fin cfg1.N) : Vec F S3200x128 .f32 := blk V c 0 t
abbrev wblk (c : Dev nD) (t : Fin cfg1.N) : Vec F S128x64 .f32 := blk V c 1 t
abbrev bblk (c : Dev nD) (t : Fin cfg1.N) : Vec F S1x64 .f32 := blk V c 2 t

def accS (c : Dev nD) : ℕ → Vec F S1x64 .f32
  | 0 => k1_pay1
  | n + 1 => if h : n < cfg1.N then k1_pay4 (eblk V c ⟨n, h⟩) (wblk V c ⟨n, h⟩) (bblk V c ⟨n, h⟩) (accS c n) else accS c n

def accQ (c : Dev nD) : ℕ → Vec F S1x64 .f32
  | 0 => k1_pay2
  | n + 1 => if h : n < cfg1.N then k1_pay5 (eblk V c ⟨n, h⟩) (wblk V c ⟨n, h⟩) (bblk V c ⟨n, h⟩) (accQ c n) else accQ c n

theorem accS_zero (c : Dev nD) : accS V c 0 = k1_pay1 := by rw [accS]
theorem accQ_zero (c : Dev nD) : accQ V c 0 = k1_pay2 := by rw [accQ]

theorem accS_succ (c : Dev nD) (t : Fin cfg1.N) :
    accS V c (t.val + 1) = k1_pay4 (eblk V c t) (wblk V c t) (bblk V c t) (accS V c t.val) := by
  rw [accS]; exact dif_pos t.isLt

theorem accQ_succ (c : Dev nD) (t : Fin cfg1.N) :
    accQ V c (t.val + 1) = k1_pay5 (eblk V c t) (wblk V c t) (bblk V c t) (accQ V c t.val) := by
  rw [accQ]; exact dif_pos t.isLt

abbrev scr0 : Memref sig .tc .vmem S1x64 .f32 := Memref.whole cc1_scratch0
abbrev scr1 : Memref sig .tc .vmem S1x64 .f32 := Memref.whole cc1_scratch1

def inv (c : Dev nD) (n : ℕ) : sProp 𝕄 :=
  iprop((∃ X, ⌜0 < n → X = accS V c n⌝ ∗ owns c scr0 fullShare X)
    ∗ (∃ X, ⌜0 < n → X = accQ V c n⌝ ∗ owns c scr1 fullShare X)
    ∗ Pipeline.scopedRestBut (Ix := Unit) (Name := ℕ) (U := UR sig nD τ) (Lvl := ℕ) (Val := Elt F) spec1 c [cc1_scratch0, cc1_scratch1]
    ∗ ∃ r, prngReg c r)

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => accS V c (t.val + 1)
    | ⟨4, _⟩ => accQ V c (t.val + 1)
  Φ t := inv V c t.val
  q _ := fullShare
  owed _ := 0

theorem dat_A (c : Dev nD) (w : Fin cfg1.W) : (dat V c).A w = V c (Pipeline.arrRef spec1 w) := by
  dsimp only [dat]
theorem dat_q (c : Dev nD) (w : Fin cfg1.W) : (dat V c).q w = fullShare := rfl
theorem dat_owed (c : Dev nD) (t : Fin (cfg1.N + 1)) : (dat V c).owed t = 0 := rfl

theorem dat_Φ (c : Dev nD) (t : Fin (cfg1.N + 1)) : (dat V c).Φ t = inv V c t.val := by dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = accS V c (t.val + 1) := by dsimp only [dat]
theorem after_4 (c : Dev nD) (t : Fin cfg1.N) : (dat V c).after 4 t = accQ V c (t.val + 1) := by dsimp only [dat]

theorem before_0 (c : Dev nD) (t : Fin cfg1.N) (d) : (dat V c).before 0 t d = blk V c 0 t :=
  (dat V c).before_fetched 0 t (fetch1_0 t) d
theorem before_1 (c : Dev nD) (t : Fin cfg1.N) (d) : (dat V c).before 1 t d = blk V c 1 t :=
  (dat V c).before_in_eq_fetched 1 rfl (fun _ => rfl) (fun _ _ _ => rfl) (fun _ => rfl) t d
theorem before_2 (c : Dev nD) (t : Fin cfg1.N) (d) : (dat V c).before 2 t d = blk V c 2 t :=
  (dat V c).before_in_eq_fetched 2 rfl (fun _ => rfl) (fun _ _ _ => rfl) (fun _ => rfl) t d

theorem scr0_eq (c : Dev nD) (f : Buf (Elt F) ((c : Thread nD τ).loc cc1_scratch0)) :
    (owns c scr0 fullShare f : sProp 𝕄) = ((c : Thread nD τ).loc cc1_scratch0) ↦{fullShare} f :=
  owns_whole (c : Thread nD τ) cc1_scratch0 fullShare f
theorem scr1_eq (c : Dev nD) (f : Buf (Elt F) ((c : Thread nD τ).loc cc1_scratch1)) :
    (owns c scr1 fullShare f : sProp 𝕄) = ((c : Thread nD τ).loc cc1_scratch1) ↦{fullShare} f :=
  owns_whole (c : Thread nD τ) cc1_scratch1 fullShare f

theorem Φ_in (c : Dev nD) : (Pipeline.ΦA spec1 c : sProp 𝕄) ⊢ (dat V c).Φ 0 := by
  rw [dat_Φ]; unfold Pipeline.ΦA inv
  rw [scopedRest1_split]
  iintro ⟨⟨⟨⟨%f0, H0⟩, ⟨%f1, H1⟩⟩, HR⟩, HP⟩
  isplitl [H0]
  · iexists f0; isplitr; · ipureintro; exact fun h => absurd h (Nat.lt_irrefl 0)
    rw [scr0_eq]; iexact H0
  isplitl [H1]
  · iexists f1; isplitr; · ipureintro; exact fun h => absurd h (Nat.lt_irrefl 0)
    rw [scr1_eq]; iexact H1
  iframe

theorem Φ_out (c : Dev nD) : (dat V c).Φ (Fin.last _) ⊢ (Pipeline.ΦA spec1 c : sProp 𝕄) := by
  rw [dat_Φ]; unfold Pipeline.ΦA inv
  rw [scopedRest1_split]
  iintro ⟨⟨%X0, -, H0⟩, ⟨%X1, -, H1⟩, HR, HP⟩
  iframe HR HP
  isplitl [H0]
  · iexists X0; rw [← scr0_eq]; iexact H0
  · iexists X1; rw [← scr1_eq]; iexact H1

def bodyPre (c : Dev nD) (t : Fin cfg1.N) : sProp 𝕄 :=
  iprop((dat V c).Φ t.castSucc ∗ (dat V c).owesAt () t.castSucc
    ∗ (∃ d, owns c (st1_0 t) fullShare ((dat V c).before 0 t d))
    ∗ (∃ d, owns c (st1_1 t) fullShare ((dat V c).before 1 t d))
    ∗ (∃ d, owns c (st1_2 t) fullShare ((dat V c).before 2 t d))
    ∗ (∃ d, owns c (st1_3 t) fullShare ((dat V c).before 3 t d))
    ∗ (∃ d, owns c (st1_4 t) fullShare ((dat V c).before 4 t d)))

def bodyPost (c : Dev nD) (t : Fin cfg1.N) : sProp 𝕄 :=
  iprop((dat V c).Φ t.succ ∗ (dat V c).owesAt () t.succ
    ∗ owns c (st1_0 t) fullShare ((dat V c).after 0 t)
    ∗ owns c (st1_1 t) fullShare ((dat V c).after 1 t)
    ∗ owns c (st1_2 t) fullShare ((dat V c).after 2 t)
    ∗ (dat V c).leavesExact 3 t
    ∗ (dat V c).leavesExact 4 t)

theorem leaves_live (c : Dev nD) (w : Fin cfg1.W) (t : Fin cfg1.N) (hi : cfg1.idle w (cfg1.grid.coords t) = false) :
    (dat V c).leavesExact w t = owns c ((cfg1.win w).stage (cfg1.slots t w)) fullShare ((dat V c).after w t) := by
  unfold Dat.leavesExact; rw [hi]

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [dat_Φ, dat_Φ, show (dat V c).owesAt () t.succ = (dat V c).owesAt () t.castSucc from rfl,
    after_0, after_1, after_2, Fin.val_succ, Fin.coe_castSucc]
  have hlt := lt250 t
  by_cases hB : t.val = 249
  on_goal 1 =>
    have hpos : 0 < t.val := by omega
    rw [leaves_live V c 3 t (idle_of_eq t hB).1, leaves_live V c 4 t (idle_of_eq t hB).2, after_3, after_4]
    unfold inv
    iintro ⟨⟨⟨%X0, %hX0, HS0⟩, ⟨%X1, %hX1, HS1⟩, HR, HP⟩, Ho, ⟨%d0, H0⟩, ⟨%d1, H1⟩, ⟨%d2, H2⟩, ⟨%d3, H3⟩, ⟨%d4, H4⟩⟩
    have e0 := hX0 hpos; have e1 := hX1 hpos; subst e0 e1
    iapply (kernel_last c (grid1.coords t) _ _ _ _ _ _ _ _ _ _ _ _ _ _ (eblk V c t) (wblk V c t) (bblk V c t)
      (accS V c t.val) (accQ V c t.val) _ (fun h => by have := (c1_iff t).mp h; omega) ((c2_iff t).mpr hB))
    iframe H0 H1 H2
    isplitl [H3]; · iexists _; iexact H3
    isplitl [H4]; · iexists _; iexact H4
    iframe HS0 HS1
    iintro ⟨H0, H1, H2, H3, H4, HS0, HS1⟩
  on_goal 2 =>
    have h2 : ¬ (k1_cond2 (grid1.coords t) = 1#1) := fun h => hB ((c2_iff t).mp h)
    rw [Dat.leavesExact_idle _ 3 t (idle_of_ne t hB).1 (flush_of_ne t hB).1,
      Dat.leavesExact_idle _ 4 t (idle_of_ne t hB).2 (flush_of_ne t hB).2]
    unfold inv
    iintro ⟨⟨⟨%X0, %hX0, HS0⟩, ⟨%X1, %hX1, HS1⟩, HR, HP⟩, Ho, ⟨%d0, H0⟩, ⟨%d1, H1⟩, ⟨%d2, H2⟩, H3, H4⟩
    iapply (kernel_step c (grid1.coords t) _ _ _ _ _ _ _ _ _ _ _ _ _ _ (eblk V c t) (wblk V c t) (bblk V c t) X0 X1
      (accS V c t.val) (accQ V c t.val) _
      (fun h => ⟨by rw [(c1_iff t).mp h, accS_zero], by rw [(c1_iff t).mp h, accQ_zero]⟩)
      (fun h => have hp := Nat.pos_of_ne_zero fun e => h ((c1_iff t).mpr e); ⟨(hX0 hp).symm, (hX1 hp).symm⟩) h2)
    iframe H0 H1 H2 HS0 HS1
    iintro ⟨H0, H1, H2, HS0, HS1⟩
  all_goals
    rw [← accS_succ V c t, ← accQ_succ V c t]
    isplitl [HS0 HS1 HR HP]
    · isplitl [HS0]
      · iexists _; isplitr; swap; · iexact HS0
        ipureintro; exact fun _ => rfl
      isplitl [HS1]
      · iexists _; isplitr; swap; · iexact HS1
        ipureintro; exact fun _ => rfl
      iframe
    iframe

theorem obligation (c : Dev nD) : BodyObligation (dat (F := F) V c) (defs₀ (F := F)) Variants.none () Set.univ := fun t => by
  rw [bigSep_W1, bigSep_W1]
  exact sound_body V c t

end Cert.Kernel.Reg1

end
-- ==== Proof.K.Reg2.lean ====
import proofs.«430728_j7627861917709_1_alg».proof.Proof.Gen.Kernel.Launch
import proofs.«430728_j7627861917709_1_alg».proof.Proof.Gen.Kernel.Skeleton
import proofs.«430728_j7627861917709_1_alg».proof.Proof.Gen.Kernel.Points
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev atFirst (i : grid2.Coords) : Prop :=
  (Scalar.cmpi .ne (Scalar.extui (Scalar.cmpi .eq (BitVec.ofNat 32 (i 0).val) 0#32)) 0#32) = 1#1

abbrev atLast (i : grid2.Coords) : Prop := k2_cond2 i = 1#1

theorem atFirst_iff : ∀ t : Fin cfg2.N, atFirst (grid2.coords t) ↔ t.val = 0 :=
  (by decide +kernel : ∀ t : Fin grid2.N, atFirst (grid2.coords t) ↔ t.val = 0)
theorem atLast_iff : ∀ t : Fin cfg2.N, atLast (grid2.coords t) ↔ t.val = 249 :=
  (by decide +kernel : ∀ t : Fin grid2.N, atLast (grid2.coords t) ↔ t.val = 249)

theorem off00 : (![0, 0] : Fin 2 → ℕ) = fun _ => 0 := funext fun a => by fin_cases a <;> rfl

theorem read_last_store {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons_self .., View.mem_set_unit_zero h inb y⟩),
    View.canon_cons_unit_zero h]

abbrev zOf (x1 : Vec F S3200x128 .f32) (x2 : Vec F S128x64 .f32) (x3 x4 x5 x6 x7 : Vec F S1x64 .f32) : FVec F S3200x64 .f32 :=
  k2_pay6 x1 x2 x3 x5 x4 x6 x7

abbrev zOf16 (x1 : Vec F S3200x128 .f32) (x2 : Vec F S128x64 .f32) (x3 x4 x5 x6 x7 : Vec F S1x64 .f32) : FVec F S3200x64 .bf16 :=
  k2_pay7 x1 x2 x3 x5 x4 x6 x7

abbrev own (c : Dev nD) {S : Shape} {e : EltTy} (a : Memref sig .tc .vmem S e) (x : Vec F S e) : sProp 𝕄 :=
  a.view.loc (c : Thread nD τ) ↦[a.view.set]{fullShare} a.view.rep x

theorem own_eq (c : Dev nD) {S : Shape} {e : EltTy} (a : Memref sig .tc .vmem S e) (x : Vec F S e) :
    owns (c : Thread nD τ) a fullShare x = own c a x := owns_eq_rep ..

-- The body at one grid point adds the block's contribution to the two running sums (started afresh at the first point); at the last point the sums are also written to the outputs.
theorem run (c : Dev nD) (E : Set ℕ) (i : grid2.Coords) (hi : atFirst i → ¬atLast i)
    (a1 : Memref sig .tc .vmem S3200x128 .f32) (a2 : Memref sig .tc .vmem S128x64 .f32) (a3 a4 a5 a6 a7 : Memref sig .tc .vmem S1x64 .f32)
    (a8 : Memref sig .tc .vmem S64x32 .f32) (a9 a11 a12 a13 a14 : Memref sig .tc .vmem S1x32 .f32) (a10 : Memref sig .tc .vmem S3200x64 .bf16)
    (ha1 : a1.IsWhole) (ha2 : a2.IsWhole) (ha3 : a3.IsWhole) (ha4 : a4.IsWhole) (ha5 : a5.IsWhole) (ha6 : a6.IsWhole) (ha7 : a7.IsWhole)
    (ha8 : a8.IsWhole) (ha9 : a9.IsWhole) (ha10 : a10.IsWhole) (ha11 : a11.IsWhole) (ha12 : a12.IsWhole) (ha13 : a13.IsWhole) (ha14 : a14.IsWhole)
    (x1 : Vec F S3200x128 .f32) (x2 : Vec F S128x64 .f32) (x3 x4 x5 x6 x7 : Vec F S1x64 .f32) (x8 : Vec F S64x32 .f32) (x9 : Vec F S1x32 .f32)
    (d10 : Vec F S3200x64 .bf16) (y11 y12 d13 d14 s13 s14 : Vec F S1x32 .f32) (h13 : ¬atFirst i → d13 = s13 ∧ d14 = s14) (z13 : atFirst i → s13 = k2_pay4 ∧ s14 = k2_pay5)
    (K : PUnit → sProp 𝕄) :
    iprop(own c a1 x1 ∗ own c a2 x2 ∗ own c a3 x3 ∗ own c a4 x4 ∗ own c a5 x5 ∗ own c a6 x6 ∗ own c a7 x7 ∗ own c a8 x8 ∗ own c a9 x9
        ∗ own c a10 d10 ∗ own c a11 y11 ∗ own c a12 y12 ∗ own c a13 d13 ∗ own c a14 d14
        ∗ (iprop(own c a1 x1 ∗ own c a2 x2 ∗ own c a3 x3 ∗ own c a4 x4 ∗ own c a5 x5 ∗ own c a6 x6 ∗ own c a7 x7 ∗ own c a8 x8 ∗ own c a9 x9
            ∗ own c a10 (zOf16 x1 x2 x3 x4 x5 x6 x7)
            ∗ own c a11 (if atLast i then k2_pay2 (zOf x1 x2 x3 x4 x5 x6 x7) x8 x9 s13 else y11)
            ∗ own c a12 (if atLast i then k2_pay3 (zOf x1 x2 x3 x4 x5 x6 x7) x8 x9 s14 else y12)
            ∗ own c a13 (k2_pay2 (zOf x1 x2 x3 x4 x5 x6 x7) x8 x9 s13)
            ∗ own c a14 (k2_pay3 (zOf x1 x2 x3 x4 x5 x6 x7) x8 x9 s14)) -∗ K ⟨⟩))
      ⊢ wp frame (wpE (defs₀ (F := F)) Variants.none c none) E
          (cc2__stage2_kernel i a1 ha1 a2 ha2 a3 ha3 a4 ha4 a5 ha5 a6 ha6 a7 ha7 a8 ha8 a9 ha9 a10 ha10 a11 ha11 a12 ha12 a13 ha13 a14 ha14) K := by
  by_cases h0 : atFirst i
  on_goal 1 => obtain ⟨rfl, rfl⟩ := z13 h0
  on_goal 2 => obtain ⟨rfl, rfl⟩ := h13 h0
  all_goals by_cases h1 : atLast i
  · exact absurd h1 (hi h0)
  all_goals
    first | rw [if_pos h1, if_pos h1] | rw [if_neg h1, if_neg h1]
    simp only [cc2__stage2_kernel_eq_skeleton]; unfold cc2__stage2_kernel_skel
    iintro ⟨H1, H2, H3, H4, H5, H6, H7, H8, H9, H10, H11, H12, H13, H14, Hk⟩
    sl_exec (disch := first | exact h0 | exact h1)
    sl_step
    iapply Hk
    iframe H1 H2 H3 H4 H5 H6 H7 H8 H9
    isplitl [H10]; rotate_left; isplitl [H11]; rotate_left; isplitl [H12]; rotate_left; isplitl [H13]; rotate_left
    all_goals
      iapply rep_of_owns; unfold owns; iexists _; isplitr; swap; · iassumption
      ipureintro
      first
      | rw [View.read_rep]
      | (sl_unfold_run_names; rw [read_last_store _ _ off00]
         simp only [View.readAt_eq_ld, View.read_rep, View.ld_unit_zero (S := S3200x128) off00, View.ld_unit_zero (S := S128x64) off00, View.ld_unit_zero (S := S1x64) off00, View.ld_unit_zero (S := S64x32) off00, View.ld_unit_zero (S := S1x32) off00, View.readCov_unit_zero (S := S1x32) _ off00])

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev eB (c : Dev nD) (t : Fin cfg2.N) : Vec F S3200x128 .f32 := blk V c 0 t

abbrev w1B (c : Dev nD) (t : Fin cfg2.N) : Vec F S128x64 .f32 := blk V c 1 t

abbrev b1B (c : Dev nD) (t : Fin cfg2.N) : Vec F S1x64 .f32 := blk V c 2 t

abbrev meanB (c : Dev nD) (t : Fin cfg2.N) : Vec F S1x64 .f32 := blk V c 3 t

abbrev varB (c : Dev nD) (t : Fin cfg2.N) : Vec F S1x64 .f32 := blk V c 4 t

abbrev gainB (c : Dev nD) (t : Fin cfg2.N) : Vec F S1x64 .f32 := blk V c 5 t

abbrev shiftB (c : Dev nD) (t : Fin cfg2.N) : Vec F S1x64 .f32 := blk V c 6 t

abbrev w2B (c : Dev nD) (t : Fin cfg2.N) : Vec F S64x32 .f32 := blk V c 7 t

abbrev b2B (c : Dev nD) (t : Fin cfg2.N) : Vec F S1x32 .f32 := blk V c 8 t

abbrev zB (c : Dev nD) (t : Fin cfg2.N) : FVec F S3200x64 .f32 := zOf (eB V c t) (w1B V c t) (b1B V c t) (meanB V c t) (varB V c t) (gainB V c t) (shiftB V c t)

def accS (c : Dev nD) : ℕ → FVec F S1x32 .f32
  | 0 => k2_pay4
  | n + 1 => if h : n < cfg2.N then k2_pay2 (zB V c ⟨n, h⟩) (w2B V c ⟨n, h⟩) (b2B V c ⟨n, h⟩) (accS c n) else accS c n

def accQ (c : Dev nD) : ℕ → FVec F S1x32 .f32
  | 0 => k2_pay5
  | n + 1 => if h : n < cfg2.N then k2_pay3 (zB V c ⟨n, h⟩) (w2B V c ⟨n, h⟩) (b2B V c ⟨n, h⟩) (accQ c n) else accQ c n

theorem accS_succ (c : Dev nD) (t : Fin cfg2.N) :
    accS V c (t.val + 1) = k2_pay2 (zB V c t) (w2B V c t) (b2B V c t) (accS V c t.val) := by
  rw [accS.eq_2]; exact dif_pos t.isLt
theorem accQ_succ (c : Dev nD) (t : Fin cfg2.N) :
    accQ V c (t.val + 1) = k2_pay3 (zB V c t) (w2B V c t) (b2B V c t) (accQ V c t.val) := by
  rw [accQ.eq_2]; exact dif_pos t.isLt

abbrev scrS : Memref sig .tc .vmem S1x32 .f32 := Memref.whole cc2_scratch0
abbrev scrQ : Memref sig .tc .vmem S1x32 .f32 := Memref.whole cc2_scratch1

-- Before point n the scratch pair holds the sums over the first n blocks (anything when n = 0).
def Inv (c : Dev nD) (n : ℕ) : sProp 𝕄 :=
  iprop(iprop(iprop((∃ s, ⌜n ≠ 0 → s = accS V c n⌝ ∗ owns (c : Thread nD τ) scrS fullShare s) ∗ (∃ q, ⌜n ≠ 0 → q = accQ V c n⌝ ∗ owns (c : Thread nD τ) scrQ fullShare q))
      ∗ Pipeline.scopedRestBut (Ix := Unit) (Name := ℕ) (U := UR sig nD τ) (Lvl := ℕ) (Val := Elt F) spec2 c [cc2_scratch0, cc2_scratch1]) ∗ ∃ r, prngReg c r)

theorem PhiA_open (c : Dev nD) :
    (Pipeline.ΦA spec2 c : sProp 𝕄)
      = iprop(iprop(iprop((∃ d, owns (c : Thread nD τ) scrS fullShare d) ∗ (∃ d, owns (c : Thread nD τ) scrQ fullShare d))
          ∗ Pipeline.scopedRestBut (Ix := Unit) (Name := ℕ) (U := UR sig nD τ) (Lvl := ℕ) (Val := Elt F) spec2 c [cc2_scratch0, cc2_scratch1]) ∗ ∃ r, prngReg c r) := by
  unfold Pipeline.ΦA; rw [scopedRest2_split]; simp only [scrS, scrQ, owns_whole]; rfl

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => zOf16 (eB V c t) (w1B V c t) (b1B V c t) (meanB V c t) (varB V c t) (gainB V c t) (shiftB V c t)
    | ⟨10, _⟩ => accS V c (t.val + 1)
    | ⟨11, _⟩ => accQ V c (t.val + 1)
  Φ t := Inv V c t.val
  q _ := fullShare
  owed _ := 0

theorem dat_A (c : Dev nD) (w : Fin cfg2.W) : (dat V c).A w = V c (Pipeline.arrRef spec2 w) := by
  dsimp only [dat]
theorem dat_q (c : Dev nD) (w : Fin cfg2.W) : (dat V c).q w = fullShare := rfl
theorem dat_owed (c : Dev nD) (t : Fin (cfg2.N + 1)) : (dat V c).owed t = 0 := rfl

theorem after_all (c : Dev nD) (t : Fin cfg2.N) :
    (dat V c).after 0 t = blk V c 0 t ∧ (dat V c).after 1 t = blk V c 1 t ∧ (dat V c).after 2 t = blk V c 2 t ∧ (dat V c).after 3 t = blk V c 3 t ∧ (dat V c).after 4 t = blk V c 4 t ∧ (dat V c).after 5 t = blk V c 5 t ∧ (dat V c).after 6 t = blk V c 6 t ∧ (dat V c).after 7 t = blk V c 7 t ∧ (dat V c).after 8 t = blk V c 8 t := by
  refine ⟨?_, ?_, ?_, ?_, ?_, ?_, ?_, ?_, ?_⟩ <;> dsimp only [dat]
theorem after_9 (c : Dev nD) (t : Fin cfg2.N) :
    (dat V c).after 9 t = zOf16 (eB V c t) (w1B V c t) (b1B V c t) (meanB V c t) (varB V c t) (gainB V c t) (shiftB V c t) := by dsimp only [dat]
theorem after_10 (c : Dev nD) (t : Fin cfg2.N) : (dat V c).after 10 t = accS V c (t.val + 1) := by dsimp only [dat]
theorem after_11 (c : Dev nD) (t : Fin cfg2.N) : (dat V c).after 11 t = accQ V c (t.val + 1) := by dsimp only [dat]

theorem before_all (c : Dev nD) (t : Fin cfg2.N) :
    (∀ d, (dat V c).before 0 t d = blk V c 0 t) ∧ (∀ d, (dat V c).before 1 t d = blk V c 1 t) ∧ (∀ d, (dat V c).before 2 t d = blk V c 2 t) ∧ (∀ d, (dat V c).before 3 t d = blk V c 3 t) ∧ (∀ d, (dat V c).before 4 t d = blk V c 4 t) ∧ (∀ d, (dat V c).before 5 t d = blk V c 5 t) ∧ (∀ d, (dat V c).before 6 t d = blk V c 6 t) ∧ (∀ d, (dat V c).before 7 t d = blk V c 7 t) ∧ (∀ d, (dat V c).before 8 t d = blk V c 8 t) := by
  refine ⟨?_, ?_, ?_, ?_, ?_, ?_, ?_, ?_, ?_⟩ <;>
  exact fun d => ((dat V c).before_in_eq_fetched _ rfl (fun _ => rfl) (fun _ _ _ => rfl)
    (fun t => by simp only [after_all V c t]; unfold Dat.blockOf blk; rw [dat_A]; try rfl) t d).trans (by unfold Dat.fetched Dat.blockOf blk; rw [dat_A]; try rfl)

theorem Φ_in (c : Dev nD) : (Pipeline.ΦA spec2 c : sProp 𝕄) ⊢ (dat V c).Φ 0 := by
  rw [show (dat V c).Φ 0 = Inv V c 0 from rfl, PhiA_open]; unfold Inv
  iintro ⟨⟨⟨⟨%s, HS⟩, ⟨%q, HQ⟩⟩, HR⟩, Hg⟩
  iframe HR Hg
  isplitl [HS]
  · iexists s; iframe HS; ipureintro; exact fun h => absurd rfl h
  · iexists q; iframe HQ; ipureintro; exact fun h => absurd rfl h

theorem Φ_out (c : Dev nD) : (dat V c).Φ (Fin.last _) ⊢ (Pipeline.ΦA spec2 c : sProp 𝕄) := by
  rw [show (dat V c).Φ (Fin.last _) = Inv V c cfg2.N from rfl, PhiA_open]; unfold Inv
  iintro ⟨⟨⟨⟨%s, -, HS⟩, ⟨%q, -, HQ⟩⟩, HR⟩, Hg⟩
  iframe HR Hg
  isplitl [HS]
  · iexists s; iexact HS
  · iexists q; iexact HQ

theorem sched : ∀ t : Fin cfg2.N, (atLast (grid2.coords t) → idle2 10 (grid2.coords t) = false ∧ idle2 11 (grid2.coords t) = false)
    ∧ (¬atLast (grid2.coords t) → idle2 10 (grid2.coords t) = true ∧ idle2 11 (grid2.coords t) = true
      ∧ (win2 10).flush t = false ∧ (win2 11).flush t = false) := by decide +kernel

-- One grid point: the sums over the first t blocks become the sums over the first t + 1.
theorem obligation (c : Dev nD) : BodyObligation (dat (F := F) V c) (defs₀ (F := F)) Variants.none () Set.univ := fun t => by
  rw [bigSep_W2, bigSep_W2]
  sl_whnfR [defs₀, Defs.onTc]
  simp only [before_all V c t, after_all V c t]
  rewrite [show (dat V c).Φ t.castSucc = Inv V c t.val from rfl, show (dat V c).Φ t.succ = Inv V c (t.val + 1) from rfl,
    show (dat V c).owesAt () t.succ = (dat V c).owesAt () t.castSucc from rfl]
  unfold Inv
  rw [after_9, exists_held (Nat.succ_ne_zero _), exists_held (Nat.succ_ne_zero _), accS_succ, accQ_succ]
  have hF := atFirst_iff t
  simp only [own_eq]
  iintro ⟨⟨⟨⟨⟨%s, %hs, HS⟩, ⟨%q, %hq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c Set.univ (grid2.coords t) (fun a b => by have := hF.mp a; have := (atLast_iff t).mp b; omega)
    _ _ _ _ _ _ _ _ _ _ _ _ _ _ _ _ _ _ _ _ _ _ _ _ _ _ _ _ (eB V c t) (w1B V c t) (b1B V c t) (meanB V c t) (varB V c t) (gainB V c t) (shiftB V c t) (w2B V c t) (b2B V c t)
    _ _ _ s q (accS V c t.val) (accQ V c t.val) (fun h => ⟨hs (mt hF.mpr h), hq (mt hF.mpr h)⟩) (fun h => by rw [hF.mp h]; exact ⟨rfl, rfl⟩) _)
  iframe H0 H1 H2 H3 H4 H5 H6 H7 H8 H9 H10 H11 HS HQ
  iintro ⟨H0, H1, H2, H3, H4, H5, H6, H7, H8, H9, H10, H11, HS, HQ⟩
  iframe HS HQ HR Hg Ho H0 H1 H2 H3 H4 H5 H6 H7 H8 H9
  by_cases hL : atLast (grid2.coords t)
  on_goal 1 => obtain ⟨i0, i1⟩ := (sched t).1 hL
  on_goal 2 => obtain ⟨i0, i1, f0, f1⟩ := (sched t).2 hL
  all_goals rw [i0]; try rw [i1]
  on_goal 1 => rw [if_pos hL, if_pos hL, after_10, after_11, accS_succ, accQ_succ]
  on_goal 2 => rw [if_neg hL, if_neg hL, f0]; try rw [f1]
  all_goals
    simp only [own_eq]
    isplitl [H10] <;> first | iassumption | (iexists _; iassumption)

end Cert.Kernel.Reg2

end
-- ==== Proof.K.Reg3.lean ====
import proofs.«430728_j7627861917709_1_alg».proof.Proof.Gen.Kernel.Launch
import proofs.«430728_j7627861917709_1_alg».proof.Proof.Gen.Kernel.Skeleton
import proofs.«430728_j7627861917709_1_alg».proof.Proof.Gen.Kernel.Points
import Idealize.ShloMosaic.Lib.Pipeline.FrameBody
import Idealize.ShloMosaic.Lib.Tactic

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev rZ : Rect S3200x64 := Rect.unit ![0, 0] S3200x64.size inb_S3200x64_S3200x64_0_0
abbrev rH : Rect S3200x128 := Rect.unit ![0, 0] S3200x128.size inb_S3200x128_S3200x128_0_0
abbrev rA : Rect S64x32 := Rect.unit ![0, 0] S64x32.size inb_S64x32_S64x32_0_0
abbrev rRow : Rect S1x32 := Rect.unit ![0, 0] S1x32.size inb_S1x32_S1x32_0_0
abbrev rOne : Rect S1x1 := Rect.unit ![0, 0] S1x1.size inb_S1x1_S1x1_0_0
abbrev rCol : Rect S3200x1 := Rect.unit ![0, 0] S3200x1.size inb_S3200x1_S3200x1_0_0

def scoreRows (x0 : Vec F S3200x64 .bf16) (x2 : Vec F S64x32 .f32) (x3 x4 x5 x6 x7 x8 : Vec F S1x32 .f32) : FVec F S3200 .f32 :=
  k3_pay3 (View.ld x0 rZ) (View.ld x2 rA) (View.ld x3 rRow) (View.ld x5 rRow) (View.ld x4 rRow) (View.ld x6 rRow)
    (View.ld x7 rRow) (View.ld x8 rRow)

def weights (x0 : Vec F S3200x64 .bf16) (x2 : Vec F S64x32 .f32) (x3 x4 x5 x6 x7 x8 : Vec F S1x32 .f32)
    (x9 : Vec F S1x1 .f32) (x10 : Vec F S3200x1 .f32) : Vec F S3200x1 .f32 :=
  View.canon [⟨rCol, k3_pay1 (scoreRows x0 x2 x3 x4 x5 x6 x7 x8) (View.ld x9 rOne) (View.ld x10 rCol)⟩]

def weighted (x0 : Vec F S3200x64 .bf16) (x1 : Vec F S3200x128 .f32) (x2 : Vec F S64x32 .f32) (x3 x4 x5 x6 x7 x8 : Vec F S1x32 .f32)
    (x9 : Vec F S1x1 .f32) (x10 : Vec F S3200x1 .f32) : Vec F S3200x128 .f32 :=
  View.canon [⟨rH, k3_pay2 (scoreRows x0 x2 x3 x4 x5 x6 x7 x8) (View.ld x9 rOne) (View.ld x10 rCol) (View.ld x1 rH)⟩]

set_option maxHeartbeats 1600000 in

theorem sound_kernel {c : Dev nD} {E i} {a0 a1 a2 a3 a4 a5 a6 a7 a8 a9 a10 a11 a12 : Memref sig .tc .vmem _ _}
    {h0 : a0.IsWhole} {h1 : a1.IsWhole} {h2 : a2.IsWhole} {h3 : a3.IsWhole} {h4 : a4.IsWhole} {h5 : a5.IsWhole} {h6 : a6.IsWhole}
    {h7 : a7.IsWhole} {h8 : a8.IsWhole} {h9 : a9.IsWhole} {h10 : a10.IsWhole} {h11 : a11.IsWhole} {h12 : a12.IsWhole}
    (x0 x1 x2 x3 x4 x5 x6 x7 x8 x9 x10 : Vec F _ _) {K : PUnit → sProp 𝕄} :
    iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare x10
        ∗ (∃ d, owns c a11 fullShare d) ∗ (∃ d, owns c a12 fullShare d)
        ∗ (iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare x10
            ∗ owns c a11 fullShare (weights x0 x2 x3 x4 x5 x6 x7 x8 x9 x10)
            ∗ owns c a12 fullShare (weighted x0 x1 x2 x3 x4 x5 x6 x7 x8 x9 x10)) -∗ K ⟨⟩))
      ⊢ wp frame (wpE (defs₀ (F := F)) Variants.none c none) E
          (cc3__stage3_kernel i a0 h0 a1 h1 a2 h2 a3 h3 a4 h4 a5 h5 a6 h6 a7 h7 a8 h8 a9 h9 a10 h10 a11 h11 a12 h12) K := by
  simp only [cc3__stage3_kernel_eq_skeleton]; unfold cc3__stage3_kernel_skel
  simp only [k3_part1_eq_skeleton]; unfold k3_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, Hk⟩
  subst e0 e1 e2 e3 e4 e5 e6 e7 e8 e9 e10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ fun y => View.cover_of_tiled _ S3200x1.size (by rfl) y
  iexists _; isplitr
  swap; · iexact H12
  ipureintro
  exact View.read_writes_eq_canon _ _ _ fun y => View.cover_of_tiled _ S3200x128.size (by rfl) y

variable (V : (c : Dev nD) → (b : Ref sig .tc) → Buf (Elt F) ((c : Thread nD τ).loc b))

def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => weights (blk V c 0 t) (blk V c 2 t) (blk V c 3 t) (blk V c 4 t) (blk V c 5 t) (blk V c 6 t) (blk V c 7 t) (blk V c 8 t) (blk V c 9 t) (blk V c 10 t)
    | ⟨12, _⟩ => weighted (blk V c 0 t) (blk V c 1 t) (blk V c 2 t) (blk V c 3 t) (blk V c 4 t) (blk V c 5 t) (blk V c 6 t) (blk V c 7 t) (blk V c 8 t) (blk V c 9 t) (blk V c 10 t)
  Φ _ := Pipeline.ΦA spec3 c
  q _ := fullShare
  owed _ := 0

theorem dat_A (c : Dev nD) (w : Fin cfg3.W) : (dat V c).A w = V c (Pipeline.arrRef spec3 w) := by
  dsimp only [dat]
theorem dat_q (c : Dev nD) (w : Fin cfg3.W) : (dat V c).q w = fullShare := rfl
theorem dat_owed (c : Dev nD) (t : Fin (cfg3.N + 1)) : (dat V c).owed t = 0 := rfl
theorem Φ_in (c : Dev nD) : (Pipeline.ΦA spec3 c : sProp 𝕄) ⊢ (dat V c).Φ 0 := Entails.refl _
theorem Φ_out (c : Dev nD) : (dat V c).Φ (Fin.last _) ⊢ (Pipeline.ΦA spec3 c : sProp 𝕄) := Entails.refl _

theorem after_in (c t) :
    (dat V c).after 0 t = blk V c 0 t ∧ (dat V c).after 1 t = blk V c 1 t ∧ (dat V c).after 2 t = blk V c 2 t ∧ (dat V c).after 3 t = blk V c 3 t
    ∧ (dat V c).after 4 t = blk V c 4 t ∧ (dat V c).after 5 t = blk V c 5 t ∧ (dat V c).after 6 t = blk V c 6 t ∧ (dat V c).after 7 t = blk V c 7 t
    ∧ (dat V c).after 8 t = blk V c 8 t ∧ (dat V c).after 9 t = blk V c 9 t ∧ (dat V c).after 10 t = blk V c 10 t := by
  refine ⟨?_, ?_, ?_, ?_, ?_, ?_, ?_, ?_, ?_, ?_, ?_⟩ <;> dsimp only [dat]
theorem after_11 (c t) :
    (dat V c).after 11 t = weights (blk V c 0 t) (blk V c 2 t) (blk V c 3 t) (blk V c 4 t) (blk V c 5 t) (blk V c 6 t) (blk V c 7 t) (blk V c 8 t) (blk V c 9 t) (blk V c 10 t) := by dsimp only [dat]
theorem after_12 (c t) :
    (dat V c).after 12 t = weighted (blk V c 0 t) (blk V c 1 t) (blk V c 2 t) (blk V c 3 t) (blk V c 4 t) (blk V c 5 t) (blk V c 6 t) (blk V c 7 t) (blk V c 8 t) (blk V c 9 t) (blk V c 10 t) := by dsimp only [dat]

theorem before_a (c t) :
    (∀ d, (dat V c).before 0 t d = blk V c 0 t) ∧ (∀ d, (dat V c).before 1 t d = blk V c 1 t) ∧ (∀ d, (dat V c).before 2 t d = blk V c 2 t)
    ∧ (∀ d, (dat V c).before 3 t d = blk V c 3 t) ∧ (∀ d, (dat V c).before 4 t d = blk V c 4 t) ∧ (∀ d, (dat V c).before 5 t d = blk V c 5 t) := by
  refine ⟨?_, ?_, ?_, ?_, ?_, ?_⟩ <;>
    exact fun d => ((dat V c).before_in_eq_fetched _ (by rfl) (by exact fun _ => rfl) (by exact fun _ _ _ => rfl)
    (fun t => by simp only [after_in V c t]; unfold Dat.blockOf blk; rw [dat_A]; try rfl) t d).trans
    (by unfold Dat.fetched Dat.blockOf blk; rw [dat_A]; try rfl)
theorem before_b (c t) :
    (∀ d, (dat V c).before 6 t d = blk V c 6 t) ∧ (∀ d, (dat V c).before 7 t d = blk V c 7 t) ∧ (∀ d, (dat V c).before 8 t d = blk V c 8 t)
    ∧ (∀ d, (dat V c).before 9 t d = blk V c 9 t) ∧ (∀ d, (dat V c).before 10 t d = blk V c 10 t) := by
  refine ⟨?_, ?_, ?_, ?_, ?_⟩ <;>
    exact fun d => ((dat V c).before_in_eq_fetched _ (by rfl) (by exact fun _ => rfl) (by exact fun _ _ _ => rfl)
    (fun t => by simp only [after_in V c t]; unfold Dat.blockOf blk; rw [dat_A]; try rfl) t d).trans
    (by unfold Dat.fetched Dat.blockOf blk; rw [dat_A]; try rfl)

theorem obligation (c : Dev nD) : BodyObligation (dat (F := F) V c) (defs₀ (F := F)) Variants.none () Set.univ := fun t => by
  rw [bigSep_W3, bigSep_W3]
  simp only [before_a V c t, before_b V c t, after_in V c t, after_11, after_12]
  rw [show (dat V c).Φ t.succ = (dat V c).Φ t.castSucc from rfl,
    show (dat V c).owesAt () t.succ = (dat V c).owesAt () t.castSucc from rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel (blk V c 0 t) (blk V c 1 t) (blk V c 2 t) (blk V c 3 t) (blk V c 4 t) (blk V c 5 t) (blk V c 6 t) (blk V c 7 t) (blk V c 8 t) (blk V c 9 t) (blk V c 10 t))
  iframe H0 H1 H2 H3 H4 H5 H6 H7 H8 H9 H10
  isplitl [H11]; · iexists _; iexact H11
  isplitl [H12]; · iexists _; iexact H12
  iintro H
  iframe

end Cert.Kernel.Reg3

end
-- ==== Proof.K.Reg4.lean ====
import proofs.«430728_j7627861917709_1_alg».proof.Proof.Gen.Kernel.Launch
import proofs.«430728_j7627861917709_1_alg».proof.Proof.Gen.Kernel.Skeleton
import proofs.«430728_j7627861917709_1_alg».proof.Proof.Gen.Kernel.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem origin2 : (![0, 0] : Fin 2 → ℕ) = fun _ => 0 :=
  funext fun a => by match a with | ⟨0, _⟩ => rfl | ⟨1, _⟩ => rfl

theorem finalize_triple (c : Dev nD) (E : Set ℕ) (i : grid4.Coords)
    (feats : Memref sig .tc .vmem S2000x128 .f32) (hfeats : feats.IsWhole)
    (sums : Memref sig .tc .vmem S2000x1 .f32) (hsums : sums.IsWhole)
    (res : Memref sig .tc .vmem S2000x128 .f32) (hres : res.IsWhole)
    (a : Vec F S2000x128 .f32) (s : Vec F S2000x1 .f32) (K : PUnit → sProp 𝕄) :
    (iprop(owns c feats fullShare a ∗ owns c sums fullShare s
        ∗ (∃ d, owns c res fullShare d)
        ∗ (iprop(owns c feats fullShare a ∗ owns c sums fullShare s
            ∗ owns c res fullShare (k4_pay1 s a)) -∗ K ⟨⟩)) : sProp 𝕄)
      ⊢ wp frame (wpE (defs₀ (F := F)) Variants.none c none) E (cc4__finalize_kernel i feats hfeats sums hsums res hres) K := by
  simp only [cc4__finalize_kernel_eq_skeleton]; unfold cc4__finalize_kernel_skel
  unfold owns
  iintro ⟨⟨%fa, %hfa, Ha⟩, ⟨%fs, %hfs, Hs⟩, ⟨%d, %fd, -, Hd⟩, Hk⟩
  subst hfa hfs
  sl_exec
  sl_step
  iapply Hk
  isplitl [Ha]; · iexists fa; isplitr; · ipureintro; rfl
                  iexact Ha
  isplitl [Hs]; · iexists fs; isplitr; · ipureintro; rfl
                  iexact Hs
  iexists _; isplitr; swap; · iexact Hd
  ipureintro
  rw [View.read_writes_eq_canon _ _ _
      (fun y => ⟨_, List.mem_singleton_self _, View.mem_set_unit_zero origin2 inb_S2000x128_S2000x128_0_0 y⟩),
    View.canon_unit_zero origin2, View.readAt_eq_ld, View.readAt_eq_ld,
    View.ld_unit_zero origin2, View.ld_unit_zero origin2]

def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => k4_pay1 (blk V c 1 t) (blk V c 0 t)
  Φ _ := Pipeline.ΦA spec4 c
  q _ := fullShare
  owed _ := 0

theorem dat_A (c : Dev nD) (w : Fin cfg4.W) : (dat V c).A w = V c (Pipeline.arrRef spec4 w) := rfl
theorem dat_q (c : Dev nD) (w : Fin cfg4.W) : (dat V c).q w = fullShare := rfl
theorem dat_owed (c : Dev nD) (t : Fin (cfg4.N + 1)) : (dat V c).owed t = 0 := rfl

theorem Φ_in (c : Dev nD) : (Pipeline.ΦA spec4 c : sProp 𝕄) ⊢ (dat V c).Φ 0 := .rfl
theorem Φ_out (c : Dev nD) : (dat V c).Φ (Fin.last _) ⊢ (Pipeline.ΦA spec4 c : sProp 𝕄) := .rfl

theorem after_feats (c : Dev nD) (t : Fin cfg4.N) : (dat V c).after 0 t = blk V c 0 t := rfl
theorem after_sums (c : Dev nD) (t : Fin cfg4.N) : (dat V c).after 1 t = blk V c 1 t := rfl
theorem after_res (c : Dev nD) (t : Fin cfg4.N) :
    (dat V c).after 2 t = k4_pay1 (blk V c 1 t) (blk V c 0 t) := rfl

theorem found_feats (c : Dev nD) (t : Fin cfg4.N) (d) : (dat V c).before 0 t d = blk V c 0 t :=
  (dat V c).before_in_eq_fetched 0 rfl (fun _ => rfl) (fun _ _ _ => rfl) (fun _ => rfl) t d

theorem found_sums (c : Dev nD) (t : Fin cfg4.N) (d) : (dat V c).before 1 t d = blk V c 1 t :=
  (dat V c).before_in_eq_fetched 1 rfl (fun _ => rfl) (fun _ _ _ => rfl) (fun _ => rfl) t d

theorem at_point (c : Dev nD) (t : Fin cfg4.N) :
    iprop((dat V c).Φ t.castSucc ∗ (dat V c).owesAt () t.castSucc
        ∗ (∃ d, owns c (st4_0 t) fullShare ((dat V c).before 0 t d))
        ∗ (∃ d, owns c (st4_1 t) fullShare ((dat V c).before 1 t d))
        ∗ (∃ d, owns c (st4_2 t) fullShare ((dat V c).before 2 t d)))
      ⊢ wp frame (wpE (defs₀ (F := F)) Variants.none c none) Set.univ (bodyAt4 t) (fun _ =>
          iprop((dat V c).Φ t.succ ∗ (dat V c).owesAt () t.succ
            ∗ owns c (st4_0 t) fullShare ((dat V c).after 0 t)
            ∗ owns c (st4_1 t) fullShare ((dat V c).after 1 t)
            ∗ owns c (st4_2 t) fullShare ((dat V c).after 2 t))) := by
  unfold bodyAt4
  simp only [found_feats, found_sums]
  rw [show (dat V c).Φ t.succ = (dat V c).Φ t.castSucc from rfl,
    show (dat V c).owesAt () t.succ = (dat V c).owesAt () t.castSucc from rfl,
    after_feats, after_sums, after_res]
  iintro ⟨HΦ, Ho, ⟨%d0, H0⟩, ⟨%d1, H1⟩, ⟨%d2, H2⟩⟩
  iapply (finalize_triple c Set.univ _ _ _ _ _ _ _ (blk V c 0 t) (blk V c 1 t) _)
  iframe H0 H1
  isplitl [H2]; · iexists _; iexact H2
  iintro ⟨H0, H1, H2⟩
  iframe

theorem obligation (c : Dev nD) : BodyObligation (dat (F := F) V c) (defs₀ (F := F)) Variants.none () Set.univ := fun t => by
  rw [bigSep_W4, bigSep_W4]
  exact at_point V c t

end Cert.Kernel.Reg4

end
-- ==== Proof.K.Vals.lean ====
import proofs.«430728_j7627861917709_1_alg».proof.Proof.K.Reg0
import proofs.«430728_j7627861917709_1_alg».proof.Proof.K.Reg1
import proofs.«430728_j7627861917709_1_alg».proof.Proof.K.Reg2
import proofs.«430728_j7627861917709_1_alg».proof.Proof.K.Reg3
import proofs.«430728_j7627861917709_1_alg».proof.Proof.K.Reg4

noncomputable section

namespace Cert.Kernel.Vals

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (Reg0.dat (V1 m) c).arrAt w cfg0.N

abbrev W3 : Dev nD → Valuation τ sig (Elt F) := fun c => StableHlo.after hostOps1 (W2 m c)

abbrev W4 : Dev nD → Valuation τ sig (Elt F) := fun c => StableHlo.after hostOps1_1 (W3 m c)

abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

def W6 (c : Dev nD) : Valuation τ sig (Elt F) :=
  Pipeline.withArrays spec1 c (W5 m c) fun w => (Reg1.dat (V5 m) c).arrAt w cfg1.N

abbrev W7 : Dev nD → Valuation τ sig (Elt F) := fun c => StableHlo.after hostOps2 (W6 m c)
abbrev V7 : (c : Dev nD) → (b : Ref sig .tc) → Buf (Elt F) ((c : Thread nD τ).loc b) := fun c b => W7 m c b

def W8 (c : Dev nD) : Valuation τ sig (Elt F) :=
  Pipeline.withArrays spec2 c (W7 m c) fun w => (Reg2.dat (V7 m) c).arrAt w cfg2.N

abbrev W9 : Dev nD → Valuation τ sig (Elt F) := fun c => StableHlo.after hostOps3 (W8 m c)
abbrev V9 : (c : Dev nD) → (b : Ref sig .tc) → Buf (Elt F) ((c : Thread nD τ).loc b) := fun c b => W9 m c b

def W10 (c : Dev nD) : Valuation τ sig (Elt F) :=
  Pipeline.withArrays spec3 c (W9 m c) fun w => (Reg3.dat (V9 m) c).arrAt w cfg3.N

abbrev W11 : Dev nD → Valuation τ sig (Elt F) := fun c => StableHlo.after hostOps4 (W10 m c)
abbrev V11 : (c : Dev nD) → (b : Ref sig .tc) → Buf (Elt F) ((c : Thread nD τ).loc b) := fun c b => W11 m c b

def W12 (c : Dev nD) : Valuation τ sig (Elt F) :=
  Pipeline.withArrays spec4 c (W11 m c) fun w => (Reg4.dat (V11 m) c).arrAt w cfg4.N

end Cert.Kernel.Vals

end
-- ==== Proof.KI.LibRegionHeld.lean ====
import Idealize.ShloMosaic.Lib.Pipeline.Kit
import Idealize.ShloMosaic.Lib.Pipeline.Frame
import Idealize.ShloMosaic.Lib.Pipeline.FrameSuffix
import Idealize.ShloMosaic.Lib.Pipeline.Regions
import Idealize.ShloMosaic.Lib.Pipeline.RegionsLoop

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open PCS
open Idealize.ShloMosaic.Rounds

variable {nD : Nat} {τ : Topo} {sig : RefSig} {Val : EltTy → Type} {Λ₀ : SL.Sem.Labels}

section Owing

variable {Ix : Type} [DecidableEq Ix] {Name : Type} [DecidableEq Name] {U : Type} [URA U] {Lvl : Type}
variable {cfg : Cfg sig Λ₀} {c : Dev nD} (dat : Dat τ Val Ix Name U Lvl cfg c)

local notation "𝕄" => MT nD τ sig Ix Val Name U Lvl

theorem Dat.owesAt_of_owes_nothing (ι : Ix) (t : Fin (cfg.N + 1)) (h0 : dat.owed t = 0) (hrec : dat.recorded t = Set.univ) :
    (iprop(∃ S, owes (c : Thread nD τ) (0 : CellTallies nD τ sig Ix) S) : sProp 𝕄) ⊢ dat.owesAt ι t := by
  unfold Dat.owesAt owesWithin
  rw [h0]
  iintro ⟨%S, Howe⟩
  iexists S
  isplitr
  · ipureintro
    intro x _
    exact Or.inl (by rw [hrec]; exact Set.mem_univ x)
  iexact Howe

theorem Dat.owes_nothing_of_owesAt (ι : Ix) (t : Fin (cfg.N + 1)) (h0 : dat.owed t = 0) :
    dat.owesAt ι t ⊢ (iprop(∃ S, owes (c : Thread nD τ) (0 : CellTallies nD τ sig Ix) S) : sProp 𝕄) := by
  unfold Dat.owesAt owesWithin
  rw [h0]
  iintro ⟨%S, -, Howe⟩
  iexists S
  iexact Howe

theorem emp_prefHeld_of_no_table (pre : Prefetch sig) (hK : pre.K = 0) (c : Dev nD) (q : Fin pre.K → PosShare TreeShare)
    (V : pre.Contents Val) : (BI.emp : sProp 𝕄) ⊢ prefHeld pre c q V := by
  haveI : IsEmpty (Fin pre.K) := ⟨fun k => absurd k.isLt (by omega)⟩
  unfold prefHeld
  rw [Finset.univ_eq_empty, BI.bigSep_empty]

end Owing

section Exit

variable {gr : Nat} {Wn : Nat} (win : Fin Wn → WinSpec sig gr) (c : Dev nD) (V : Valuation τ sig Val)
  (A : (w : Fin Wn) → Buf Val ((win w).arr.view.loc (c : Thread nD τ)))

theorem withArrays_hF (hinj : Function.Injective (arrRef win)) (w : Fin Wn) :
    A w = withArrays win c V A (Proc.devRef .tc (arrRef win w)) :=
  (withArrays_arr win hinj c V A w).symm

theorem withArrays_hrest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ w, e⟩)

end Exit

section Held

variable {U : Type} [URA U] {P : Type} [Fintype P]

local notation "𝕄" => MT nD τ sig Unit Val ℕ U ℕ

abbrev idleRest (c : Dev nD) : sProp 𝕄 :=
  iprop((∃ r, prngReg c r) ∗ ∃ S, owes (c : Thread nD τ) (0 : CellTallies nD τ sig Unit) S)

abbrev heldIdle (W : Dev nD → Valuation τ sig Val) (c : Dev nD) : sProp 𝕄 :=
  iprop(StableHlo.held (c : Thread nD τ) (ucRefs τ sig) (W c) ∗ idleRest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

set_option backward.isDefEq.respectTransparency.types false in

def RegionSeg.ofHeld (p : P)
    (hw : WinFacts (pin pcs a p).spec)
    (hpos : ∀ w : Fin (pin pcs a p).W, 0 < ((pin pcs a p).spec w).block.numel)
    (harr : ∀ w : Fin (pin pcs a p).W, ((pin pcs a p).spec w).arr.IsWhole)
    (hstage : ∀ (w : Fin (pin pcs a p).W) (s : Fin ((pin pcs a p).spec w).nbuf), (((pin pcs a p).spec w).stage s).IsWhole)
    (hpre : ∀ c : Dev nD, (BI.emp : sProp 𝕄) ⊢ prefHeld (pcs p).pre c (fun _ => fullShare) (a p).1)
    (hbody : ∀ c : Dev nD, BodyObligation (pdats p c) defs₀ 𝒱₀ () Set.univ)
    (hq : ∀ (c : Dev nD) (w : Fin (pin pcs a p).W), (pdats p c).q w = fullShare)
    (howed : ∀ (c : Dev nD) (t : Fin ((pin pcs a p).N + 1)), (pdats p c).owed t = 0)
    (hrec : ∀ c : Dev nD, (pdats p c).recorded 0 = Set.univ)
    (W : Dev nD → Valuation τ sig Val)
    (hA : ∀ (c : Dev nD) (w : Fin (pin pcs a p).W), (pdats p c).A w = W c (Proc.devRef .tc (arrRef (pin pcs a p).spec w)))
    (hΦin : ∀ c : Dev nD, (ΦA (pin pcs a p).spec c : sProp 𝕄) ⊢ (pdats p c).Φ 0)
    (hΦout : ∀ c : Dev nD, (pdats p c).Φ (Fin.last (pin pcs a p).N) ⊢ (ΦA (pin pcs a p).spec c : sProp 𝕄)) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre := heldIdle W
  post := heldIdle fun c => withArrays (pin pcs a p).spec c (W c) ((pdats p c).arrAt · (pin pcs a p).N)

  X c := iprop(∃ r, prngReg c r)
  Y c := iprop(∃ r, prngReg c r)

  Z c := unscopedRest (Ix := Unit) (Name := ℕ) (U := U) (Lvl := ℕ) (pin pcs a p).spec c (fun b => W c (Proc.devRef .tc b))
  hentry c := by
    have hcut : (StableHlo.held (c : Thread nD τ) (ucRefs τ sig) (W c) : sProp 𝕄)
        ⊢ iprop((pdats p c).arrays ((pdats p c).arrAt · 0)
            ∗ unscopedRest (pin pcs a p).spec c (fun b => W c (Proc.devRef .tc b))) := by
      rw [← unscopedBufs_held]
      exact arrays_of_unscopedBufs pcs a pdats hw harr c ((pdats p c).share_full (hq c))
        (fun b => W c (Proc.devRef .tc b)) (hA c)
    iintro ⟨⟨Hbufs, Hgen, Howe⟩, -, -⟩
    ihave Hsplit := hcut $$ Hbufs
    icases Hsplit with ⟨Harr, Hby⟩
    imodintro
    isplitl [Harr]; · iexact Harr
    isplitr
    · iapply (hpre c); iempintro
    isplitl [Howe]
    · iapply ((pdats p c).owesAt_of_owes_nothing () 0 (howed c 0) (hrec c)); iexact Howe
    isplitl [Hgen]; · iexact Hgen
    iexact Hby
  hin c := by
    refine Entails.trans ?_ (hΦin c)
    unfold ΦA
    iintro ⟨Hgen, -, Hsc⟩
    isplitl [Hsc]; · iexact Hsc
    iexact Hgen
  hout c := by
    refine (hΦout c).trans ?_
    rw [ownSems0_none]
    unfold ΦA
    iintro ⟨Hsc, Hgen⟩
    isplitl [Hgen]; · iexact Hgen
    isplitr; · iempintro
    iexact Hsc
  hexit c := by
    have hglue : iprop((pdats p c).arrays ((pdats p c).arrAt · (pin pcs a p).N)
            ∗ unscopedRest (pin pcs a p).spec c (fun b => W c (Proc.devRef .tc b)))
        ⊢ (StableHlo.held (c : Thread nD τ) (ucRefs τ sig)
            (withArrays (pin pcs a p).spec c (W c) ((pdats p c).arrAt · (pin pcs a p).N)) : sProp 𝕄) := by
      rw [← unscopedBufs_held]
      exact unscopedBufs_of_arrays pcs a hw harr c pdats ((pdats p c).share_full (hq c))
        (fun b => W c (Proc.devRef .tc b)) _ ((pdats p c).arrAt · (pin pcs a p).N)
        (withArrays_hF _ c _ _ hw.arr_inj) (withArrays_hrest _ c _ _)
    iintro ⟨Harr, Howe, Hgen, Hby⟩
    imodintro
    isplitl [Harr Hby]
    · iapply hglue; isplitl [Harr] <;> iassumption
    isplitl [Hgen]; · iexact Hgen
    iapply ((pdats p c).owes_nothing_of_owesAt () _ (howed c _)); iexact Howe

end Held

end Pipeline

end Idealize.ShloMosaic

end
-- ==== Proof.K.Launch.lean ====
import proofs.«430728_j7627861917709_1_alg».proof.Proof.K.Vals
import proofs.«430728_j7627861917709_1_alg».proof.Proof.KI.LibRegionHeld
import proofs.«430728_j7627861917709_1_alg».proof.Proof.Gen.Kernel.Regions

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- `withArrays` changes a valuation only at the arrays of output windows. -/
theorem withArrays_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w)))
    (r : Ref sig .tc) (hr : ∀ w, (cfg.win w).isOut = true → Pipeline.arrRef cfg.spec w ≠ r) :
    Pipeline.withArrays cfg.spec c V (fun w => dat.arrAt w cfg.N) (Proc.devRef .tc r) = V (Proc.devRef .tc r) := by
  by_cases hw : ∃ w, Pipeline.arrRef cfg.spec w = r
  · obtain ⟨w, rfl⟩ := hw
    have hin : (cfg.win w).isOut = false := by
      cases hio : (cfg.win w).isOut
      · rfl
      · exact absurd rfl (hr w hio)
    exact (Pipeline.withArrays_arr cfg.spec hinj c V _ w).trans ((dat.arrAt_in w hin cfg.N).trans (hA w))
  · exact Pipeline.withArrays_of_ne cfg.spec c V _ r fun w e => hw ⟨w, e⟩

variable (m : (ℓ : Loc nD τ sig) → Buf (Elt F) ℓ) (ρ : Dev nD → PrngReg)

/-- No host operation writes `r`, `r` is no output window's array, and `r` is unscoped. -/
def Quiet (r : Ref sig .tc) : Prop :=
  (r ∉ hostOps0_W ∧ r ∉ hostOps1_W ∧ r ∉ hostOps1_1_W ∧ r ∉ hostOps1_2_W ∧ r ∉ hostOps2_W ∧ r ∉ hostOps3_W
      ∧ r ∉ hostOps4_W)
    ∧ ((∀ w, (cfg0.win w).isOut = true → Pipeline.arrRef spec0 w ≠ r)
      ∧ (∀ w, (cfg1.win w).isOut = true → Pipeline.arrRef spec1 w ≠ r)
      ∧ (∀ w, (cfg2.win w).isOut = true → Pipeline.arrRef spec2 w ≠ r)
      ∧ (∀ w, (cfg3.win w).isOut = true → Pipeline.arrRef spec3 w ≠ r)
      ∧ (∀ w, (cfg4.win w).isOut = true → Pipeline.arrRef spec4 w ≠ r))
    ∧ ¬ (Proc.devRef .tc r : DevRef τ sig).isScoped

instance (r : Ref sig .tc) : Decidable (Quiet r) := by unfold Quiet; infer_instance

/-- A quiet reference has at the end the value it had at launch: the twelve items walked back one by one. -/
theorem W12_launch (c : Dev nD) (r : Ref sig .tc) (h : Quiet r) :
    Vals.W12 m c (Proc.devRef .tc r) = m ((c : Thread nD τ).loc r) := by
  obtain ⟨⟨s0, s1, s2, s3, s4, s5, s6⟩, ⟨k0, k1, k2, k3, k4⟩, -⟩ := h
  calc Vals.W12 m c (Proc.devRef .tc r)
    _ = Vals.W11 m c (Proc.devRef .tc r) :=
      withArrays_keep (cfg := cfg4) _ launch4.win.arr_inj _ (Reg4.dat_A (Vals.V11 m) c) r k4
    _ = Vals.W10 m c (Proc.devRef .tc r) := StableHlo.after_of_writes_sub hostOps4 _ hostOps4_writes s6
    _ = Vals.W9 m c (Proc.devRef .tc r) :=
      withArrays_keep (cfg := cfg3) _ launch3.win.arr_inj _ (Reg3.dat_A (Vals.V9 m) c) r k3
    _ = Vals.W8 m c (Proc.devRef .tc r) := StableHlo.after_of_writes_sub hostOps3 _ hostOps3_writes s5
    _ = Vals.W7 m c (Proc.devRef .tc r) :=
      withArrays_keep (cfg := cfg2) _ launch2.win.arr_inj _ (Reg2.dat_A (Vals.V7 m) c) r k2
    _ = Vals.W6 m c (Proc.devRef .tc r) := StableHlo.after_of_writes_sub hostOps2 _ hostOps2_writes s4
    _ = Vals.W5 m c (Proc.devRef .tc r) :=
      withArrays_keep (cfg := cfg1) _ launch1.win.arr_inj _ (Reg1.dat_A (Vals.V5 m) c) r k1
    _ = Vals.W4 m c (Proc.devRef .tc r) := StableHlo.after_of_writes_sub hostOps1_2 _ hostOps1_2_writes s3
    _ = Vals.W3 m c (Proc.devRef .tc r) := StableHlo.after_of_writes_sub hostOps1_1 _ hostOps1_1_writes s2
    _ = Vals.W2 m c (Proc.devRef .tc r) := StableHlo.after_of_writes_sub hostOps1 _ hostOps1_writes s1
    _ = Vals.W1 m c (Proc.devRef .tc r) :=
      withArrays_keep (cfg := cfg0) _ launch0.win.arr_inj _ (Reg0.dat_A (Vals.V1 m) c) r k0
    _ = m ((c : Thread nD τ).loc r) := StableHlo.after_of_writes_sub hostOps0 _ hostOps0_writes s0

def pdats : (p : Fin 5) → (c : Dev nD) → Dat τ (Elt F) Unit ℕ (UR sig nD τ) ℕ (Pipeline.pin (pcfgs (F := F)) adm p) c
  | ⟨0, _⟩ => fun c => Reg0.dat (Vals.V1 m) c
  | ⟨1, _⟩ => fun c => Reg1.dat (Vals.V5 m) c
  | ⟨2, _⟩ => fun c => Reg2.dat (Vals.V7 m) c
  | ⟨3, _⟩ => fun c => Reg3.dat (Vals.V9 m) c
  | ⟨4, _⟩ => fun c => Reg4.dat (Vals.V11 m) c

abbrev 𝒱₀ : Variants := Variants.none
abbrev L : GSem nD τ sig → Finset Unit := fun _ => ∅
abbrev lv : GSem nD τ sig → Unit → ℕ := fun _ _ => 0

/-- A list of host operations as an item: it takes the valuation `W` to the operations' fold over `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W (fun c => Pipeline.idleRest c)

set_option backward.isDefEq.respectTransparency.types false

/-- Region `p` as an item, entered at the valuation `W`. -/
abbrev region (p : Fin 5) := Pipeline.RegionSeg.ofHeld (pcfgs (F := F)) adm (pdats m) defs₀ 𝒱₀ L lv p

def reg0 : Pipeline.RegionSeg (pcfgs (F := F)) adm (pdats m) () defs₀ 𝒱₀ L lv 0 :=
  region m 0 launch0.win launch0.block_pos launch0.arr_whole launch0.stage_whole
    (fun c => Pipeline.emp_prefHeld_of_no_table _ rfl c _ _) (Reg0.obligation (Vals.V1 m)) (Reg0.dat_q (Vals.V1 m))
    (Reg0.dat_owed (Vals.V1 m)) (fun c => rfl) (Vals.W1 m) (Reg0.dat_A (Vals.V1 m)) (Reg0.Φ_in (Vals.V1 m))
    (Reg0.Φ_out (Vals.V1 m))

def reg1 : Pipeline.RegionSeg (pcfgs (F := F)) adm (pdats m) () defs₀ 𝒱₀ L lv 1 :=
  region m 1 launch1.win launch1.block_pos launch1.arr_whole launch1.stage_whole
    (fun c => Pipeline.emp_prefHeld_of_no_table _ rfl c _ _) (Reg1.obligation (Vals.V5 m)) (Reg1.dat_q (Vals.V5 m))
    (Reg1.dat_owed (Vals.V5 m)) (fun c => rfl) (Vals.W5 m) (Reg1.dat_A (Vals.V5 m)) (Reg1.Φ_in (Vals.V5 m))
    (Reg1.Φ_out (Vals.V5 m))

def reg2 : Pipeline.RegionSeg (pcfgs (F := F)) adm (pdats m) () defs₀ 𝒱₀ L lv 2 :=
  region m 2 launch2.win launch2.block_pos launch2.arr_whole launch2.stage_whole
    (fun c => Pipeline.emp_prefHeld_of_no_table _ rfl c _ _) (Reg2.obligation (Vals.V7 m)) (Reg2.dat_q (Vals.V7 m))
    (Reg2.dat_owed (Vals.V7 m)) (fun c => rfl) (Vals.W7 m) (Reg2.dat_A (Vals.V7 m)) (Reg2.Φ_in (Vals.V7 m))
    (Reg2.Φ_out (Vals.V7 m))

def reg3 : Pipeline.RegionSeg (pcfgs (F := F)) adm (pdats m) () defs₀ 𝒱₀ L lv 3 :=
  region m 3 launch3.win launch3.block_pos launch3.arr_whole launch3.stage_whole
    (fun c => Pipeline.emp_prefHeld_of_no_table _ rfl c _ _) (Reg3.obligation (Vals.V9 m)) (Reg3.dat_q (Vals.V9 m))
    (Reg3.dat_owed (Vals.V9 m)) (fun c => rfl) (Vals.W9 m) (Reg3.dat_A (Vals.V9 m)) (Reg3.Φ_in (Vals.V9 m))
    (Reg3.Φ_out (Vals.V9 m))

def reg4 : Pipeline.RegionSeg (pcfgs (F := F)) adm (pdats m) () defs₀ 𝒱₀ L lv 4 :=
  region m 4 launch4.win launch4.block_pos launch4.arr_whole launch4.stage_whole
    (fun c => Pipeline.emp_prefHeld_of_no_table _ rfl c _ _) (Reg4.obligation (Vals.V11 m)) (Reg4.dat_q (Vals.V11 m))
    (Reg4.dat_owed (Vals.V11 m)) (fun c => rfl) (Vals.W11 m) (Reg4.dat_A (Vals.V11 m)) (Reg4.Φ_in (Vals.V11 m))
    (Reg4.Φ_out (Vals.V11 m))

/-- The main function's items in order, each starting from the valuation the item before it ends at. -/
abbrev items : List (Pipeline.Seg (pcfgs (F := F)) adm (pdats m) () defs₀ 𝒱₀ L lv) :=
  [ .host (stretch hostOps0 hostOps0_sub hostOps0_fresh (Vals.W0 m)),
    .region (reg0 m),
    .host (stretch hostOps1 hostOps1_sub hostOps1_fresh (Vals.W2 m)),
    .host (stretch hostOps1_1 hostOps1_1_sub hostOps1_1_fresh (Vals.W3 m)),
    .host (stretch hostOps1_2 hostOps1_2_sub hostOps1_2_fresh (Vals.W4 m)),
    .region (reg1 m),
    .host (stretch hostOps2 hostOps2_sub hostOps2_fresh (Vals.W6 m)),
    .region (reg2 m),
    .host (stretch hostOps3 hostOps3_sub hostOps3_fresh (Vals.W8 m)),
    .region (reg3 m),
    .host (stretch hostOps4 hostOps4_sub hostOps4_fresh (Vals.W10 m)),
    .region (reg4 m) ]

theorem main_items (c : Dev nD) : main (F := F) c = Pipeline.Seg.run (items m) := by
  rw [Pipeline.Seg.run_eq_chain]
  exact main_chain c

abbrev atEnd (c : Dev nD) : sProp 𝕄 :=
  iprop(StableHlo.held (c : Thread nD τ) (Pipeline.ucRefs τ sig) (Vals.W12 m c) ∗ ∃ g, prngReg c g)

theorem heldIdle_atEnd (c : Dev nD) :
    (Pipeline.heldIdle (Vals.W12 m) c : sProp 𝕄)
      ⊢ iprop(atEnd m c ∗ ∃ S, owes (c : Thread nD τ) (0 : CellTallies nD τ sig Unit) S) := by
  iintro ⟨Hbufs, Hgen, Howes⟩
  isplitr [Howes]
  · isplitl [Hbufs] <;> iassumption
  iexact Howes

/-- From any memory with every semaphore at zero the main function terminates on every core, and its final memory agrees
    with `Vals.W12` at every unscoped reference. -/
theorem run_all : θ_run defs (onTc (τ := τ) (main (F := F))) ⟨m, fun _ => 0, ρ⟩
    (fun r => ∀ c : Dev nD, ∀ b ∈ Pipeline.ucRefs τ sig, r.2.mem ((c : Thread nD τ).1, b) = Vals.W12 m c b) :=
  Pipeline.θ_run_regions_kit (pcfgs (F := F)) adm (pdats m) () cellOf_inj emb₁ defs₀ 𝒱₀ L lv m ρ main (items m)
    (fun c Q => by rw [main_items m c])
    (by show ([0, 1, 2, 3, 4] : List (Fin 5)).Nodup; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      iapply hnone
      iempintro)
    (T₀ := Pipeline.heldIdle (Vals.W0 m)) (Tₙ := atEnd m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => heldIdle_atEnd m c⟩)
    (hinit := by
      refine Pipeline.initEach L lv fun c => ?_
      rw [show unscopedBufs c (fun b => m ((c : Thread nD τ).loc b))
          = StableHlo.held (c : Thread nD τ) (Pipeline.ucRefs τ sig) (Vals.W0 m c) from Pipeline.unscopedBufs_held c (Vals.W0 m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem ((c : Thread nD τ).1, b) = Vals.W12 m c b)
    (hfin := fun c s' => by
      iintro ⟨⟨Hbufs, -⟩, HSI⟩
      unfold StableHlo.held
      imodintro
      iapply (pointsTo_read_all (Pipeline.ucRefs τ sig) (fun b => ((c : Thread nD τ).1, b)) (Vals.W12 m c) s')
      isplitl [Hbufs] <;> iassumption)
    (hQ := fun s h => h)

/-- A final memory that agrees with `Vals.W12` has every quiet reference at its launch contents. -/
theorem arg_kept {s : MemSt nD τ sig (Elt F)} {c : Dev nD}
    (h : ∀ b ∈ Pipeline.ucRefs τ sig, s.mem ((c : Thread nD τ).1, b) = Vals.W12 m c b) (r : Ref sig .tc) (hr : Quiet r) :
    s.mem ((c.tc : Thread nD τ).loc r) = m ((c.tc : Thread nD τ).loc r) :=
  (h _ (Finset.mem_filter.mpr ⟨StableHlo.devRef_mem_tcRefs r, hr.2.2⟩)).trans (W12_launch m c r hr)

/-- The thirteen arguments hold in `s` what they hold in `m`. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)

theorem args_kept {s : MemSt nD τ sig (Elt F)} {c : Dev nD}
    (h : ∀ b ∈ Pipeline.ucRefs τ sig, s.mem ((c : Thread nD τ).1, b) = Vals.W12 m c b) : ArgsKept m s c :=
  ⟨arg_kept m h _ (by decide), arg_kept m h _ (by decide), arg_kept m h _ (by decide), arg_kept m h _ (by decide),
    arg_kept m h _ (by decide), arg_kept m h _ (by decide), arg_kept m h _ (by decide), arg_kept m h _ (by decide),
    arg_kept m h _ (by decide), arg_kept m h _ (by decide), arg_kept m h _ (by decide), arg_kept m h _ (by decide),
    arg_kept m h _ (by decide)⟩

/-- The run terminates and every argument array ends holding its launch contents. -/
theorem frame : θ_run defs (onTc (τ := τ) (main (F := F))) ⟨m, fun _ => 0, ρ⟩ (fun r => ∀ c : Dev nD, ArgsKept m r.2 c) :=
  (θ_run defs _ _).mono (fun r h c => args_kept m (h c)) (run_all m ρ)

/-- The same run with the result named: it ends at `Vals.W12`'s value there. -/
theorem run_value : θ_run defs (onTc (τ := τ) (main (F := F))) ⟨m, fun _ => 0, ρ⟩ (fun r => ∀ c : Dev nD,
      r.2.mem ((c.tc : Thread nD τ).loc main_v43) = Vals.W12 m c (Proc.devRef .tc main_v43) ∧ ArgsKept m r.2 c) :=
  (θ_run defs _ _).mono (fun r h c =>
    ⟨h c _ (Finset.mem_filter.mpr ⟨StableHlo.devRef_mem_tcRefs main_v43,
      (by decide : ¬ (Proc.devRef .tc main_v43 : DevRef τ sig).isScoped)⟩), args_kept m (h c)⟩) (run_all m ρ)

end Cert.Kernel.Launch

end
-- ==== Proof.KI.Reg0.lean ====
import proofs.«430728_j7627861917709_1_alg».proof.Proof.Gen.KernelIdeal.Launch
import proofs.«430728_j7627861917709_1_alg».proof.Proof.Gen.KernelIdeal.Skeleton
import proofs.«430728_j7627861917709_1_alg».proof.Proof.Gen.KernelIdeal.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offs_zero : (![0, 0] : Fin 2 → Nat) = fun _ => 0 :=
  funext fun a => by revert a; decide

theorem body_triple (c : Dev nD) (E : Set ℕ) (i : grid0.Coords)
    (a : Memref sig .tc .vmem S2000x256 .f32) (ha : a.IsWhole)
    (b : Memref sig .tc .vmem S256x128 .f32) (hb : b.IsWhole)
    (o : Memref sig .tc .vmem S2000x128 .f32) (ho : o.IsWhole)
    (x : Vec F S2000x256 .f32) (y : Vec F S256x128 .f32) (K : PUnit → sProp 𝕄) :
    (iprop(owns c a fullShare x ∗ owns c b fullShare y
        ∗ (∃ d, owns c o fullShare d)
        ∗ (iprop(owns c a fullShare x ∗ owns c b fullShare y
            ∗ owns c o fullShare (k0_pay1 x y)) -∗ K ⟨⟩)) : sProp 𝕄)
      ⊢ wp frame (wpE (defs₀ (F := F)) Variants.none c none) E (cc0__matmul_kernel i a ha b hb o ho) K := by
  simp only [cc0__matmul_kernel_eq_skeleton]; unfold cc0__matmul_kernel_skel
  unfold owns
  iintro ⟨⟨%fa, %hfa, Ha⟩, ⟨%fb, %hfb, Hb⟩, ⟨%d, %fo, -, Ho⟩, Hk⟩
  subst hfa hfb
  sl_exec
  sl_step
  iapply Hk
  isplitl [Ha]; · iexists fa; isplitr; · ipureintro; rfl
                  iexact Ha
  isplitl [Hb]; · iexists fb; isplitr; · ipureintro; rfl
                  iexact Hb
  iexists _; isplitr; swap; · iexact Ho
  ipureintro
  rw [View.read_writes_eq_canon _ _ _
        (fun p => ⟨_, List.mem_singleton_self _, View.mem_set_unit_zero offs_zero inb_S2000x128_S2000x128_0_0 p⟩),
    View.canon_unit_zero offs_zero, View.readAt_eq_ld, View.readAt_eq_ld,
    View.ld_unit_zero offs_zero, View.ld_unit_zero offs_zero]

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay1 (blk V c 0 t) (blk V c 1 t)
  Φ _ := Pipeline.ΦA spec0 c
  q _ := fullShare
  owed _ := 0

theorem dat_A (c : Dev nD) (w : Fin cfg0.W) : (dat V c).A w = V c (Pipeline.arrRef spec0 w) := rfl
theorem dat_q (c : Dev nD) (w : Fin cfg0.W) : (dat V c).q w = fullShare := rfl
theorem dat_owed (c : Dev nD) (t : Fin (cfg0.N + 1)) : (dat V c).owed t = 0 := rfl
theorem Φ_in (c : Dev nD) : (Pipeline.ΦA spec0 c : sProp 𝕄) ⊢ (dat V c).Φ 0 := .rfl
theorem Φ_out (c : Dev nD) : (dat V c).Φ (Fin.last _) ⊢ (Pipeline.ΦA spec0 c : sProp 𝕄) := .rfl

theorem after_rows (c : Dev nD) (t : Fin cfg0.N) : (dat V c).after 0 t = blk V c 0 t := rfl

theorem after_weights (c : Dev nD) (t : Fin cfg0.N) : (dat V c).after 1 t = blk V c 1 t := rfl

theorem after_out (c : Dev nD) (t : Fin cfg0.N) :
    (dat V c).after 2 t = k0_pay1 (blk V c 0 t) (blk V c 1 t) := rfl

theorem held_rows (c : Dev nD) (t : Fin cfg0.N) (d) : (dat V c).before 0 t d = blk V c 0 t :=
  (dat V c).before_fetched 0 t (fetch0_0 t) d

theorem held_weights (c : Dev nD) (t : Fin cfg0.N) (d) : (dat V c).before 1 t d = blk V c 1 t :=
  (dat V c).before_in_eq_fetched 1 rfl (fun _ => rfl) (fun _ _ _ => rfl) (fun _ => rfl) t d

theorem at_point (c : Dev nD) (t : Fin cfg0.N) :
    iprop((dat V c).Φ t.castSucc ∗ (dat V c).owesAt () t.castSucc
        ∗ (∃ d, owns c (st0_0 t) fullShare ((dat V c).before 0 t d))
        ∗ (∃ d, owns c (st0_1 t) fullShare ((dat V c).before 1 t d))
        ∗ (∃ d, owns c (st0_2 t) fullShare ((dat V c).before 2 t d)))
      ⊢ wp frame (wpE (defs₀ (F := F)) Variants.none c none) Set.univ (bodyAt0 t) (fun _ =>
          iprop((dat V c).Φ t.succ ∗ (dat V c).owesAt () t.succ
            ∗ owns c (st0_0 t) fullShare ((dat V c).after 0 t)
            ∗ owns c (st0_1 t) fullShare ((dat V c).after 1 t)
            ∗ owns c (st0_2 t) fullShare ((dat V c).after 2 t))) := by
  unfold bodyAt0
  simp only [held_rows, held_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  iframe H0 H1
  isplitl [H2]; · iexists _; iexact H2
  iintro ⟨H0, H1, H2⟩
  iframe

theorem obligation (c : Dev nD) : BodyObligation (dat (F := F) V c) (defs₀ (F := F)) Variants.none () Set.univ := fun t => by
  rw [bigSep_W0, bigSep_W0]
  exact at_point V c t

end Cert.KernelIdeal.Reg0

end
-- ==== Proof.KI.Reg1.lean ====
import proofs.«430728_j7627861917709_1_alg».proof.Proof.Gen.KernelIdeal.Launch
import proofs.«430728_j7627861917709_1_alg».proof.Proof.Gen.KernelIdeal.Skeleton
import proofs.«430728_j7627861917709_1_alg».proof.Proof.Gen.KernelIdeal.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rRow : Rect S1x64 := Rect.unit (s := S1x64) ![0, 0] S1x64.size inb_S1x64_S1x64_0_0

theorem offRow : (![0, 0] : Fin 2 → ℕ) = fun _ => 0 := funext fun a => by fin_cases a <;> rfl

-- A view read after a list of writes whose head covers it whole is the head's value.
theorem read_after_row {sg : RefSig} {κ : Kind} {sp : Space} (v : View sg κ sp S1x64 .f32) (f : v.ty.Contents (Elt F))
    (w : Vec F S1x64 .f32) (L : List (View.Piece (Elt F) S1x64 .f32)) :
    v.read (Elt F) (v.writes (Elt F) f ((⟨rRow, w⟩ : View.Piece (Elt F) S1x64 .f32) :: L)) = w := by
  rw [View.read_writes_eq_canon _ _ _ (fun y => ⟨⟨rRow, w⟩, List.mem_cons.mpr (Or.inl rfl), View.mem_set_unit_zero offRow inb_S1x64_S1x64_0_0 y⟩),
    View.canon_cons_unit_zero offRow]

theorem c1_iff : ∀ t : Fin grid1.N,
    (Scalar.cmpi .ne (Scalar.extui (Scalar.cmpi .eq (BitVec.ofNat 32 ((grid1.coords t) 0).val) 0#32)) 0#32 = 1#1) ↔ t.val = 0 := by
  decide +kernel

theorem c2_iff : ∀ t : Fin grid1.N, (k1_cond2 (grid1.coords t) = 1#1) ↔ t.val = 249 := by
  decide +kernel

theorem idle_of_ne : ∀ t : Fin cfg1.N, t.val ≠ 249 →
    cfg1.idle 3 (cfg1.grid.coords t) = true ∧ cfg1.idle 4 (cfg1.grid.coords t) = true :=
  (by decide +kernel : ∀ t : Fin grid1.N, t.val ≠ 249 → idle1 3 (grid1.coords t) = true ∧ idle1 4 (grid1.coords t) = true)

theorem idle_of_eq : ∀ t : Fin cfg1.N, t.val = 249 →
    cfg1.idle 3 (cfg1.grid.coords t) = false ∧ cfg1.idle 4 (cfg1.grid.coords t) = false :=
  (by decide +kernel : ∀ t : Fin grid1.N, t.val = 249 → idle1 3 (grid1.coords t) = false ∧ idle1 4 (grid1.coords t) = false)

theorem lt250 (t : Fin cfg1.N) : t.val < 250 := lt_of_lt_of_eq t.isLt N_1

theorem flush_of_ne (t : Fin cfg1.N) (h : t.val ≠ 249) : (cfg1.win 3).flush t = false ∧ (cfg1.win 4).flush t = false :=
  ⟨Bool.eq_false_iff.mpr fun hf => by have := (flush1_3 t).mp hf; have := lt250 t; omega,
    Bool.eq_false_iff.mpr fun hf => by have := (flush1_4 t).mp hf; have := lt250 t; omega⟩

section kernel

variable (c : Dev nD) (i : grid1.Coords)
    (arg1 : Memref sig .tc .vmem S3200x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole)
    (x0 : Vec F S3200x128 .f32) (x1 : Vec F S128x64 .f32) (x2 : Vec F S1x64 .f32) (p0 p1 : Vec F S1x64 .f32)

-- A point other than the last adds its block's contribution to `q0 q1`: the initial rows at the first point, the rows carried so far at a later one.
theorem kernel_step (q0 q1 : Vec F S1x64 .f32) (K : PUnit → sProp 𝕄)
    (hf : Scalar.cmpi .ne (Scalar.extui (Scalar.cmpi .eq (BitVec.ofNat 32 (i 0).val) 0#32)) 0#32 = 1#1 → q0 = k1_pay1 ∧ q1 = k1_pay2)
    (hm : ¬ (Scalar.cmpi .ne (Scalar.extui (Scalar.cmpi .eq (BitVec.ofNat 32 (i 0).val) 0#32)) 0#32 = 1#1) → q0 = p0 ∧ q1 = p1) (h2 : ¬ (k1_cond2 i = 1#1)) :
    (iprop(owns c arg1 fullShare x0 ∗ owns c arg2 fullShare x1 ∗ owns c arg3 fullShare x2
        ∗ owns c arg6 fullShare p0 ∗ owns c arg7 fullShare p1
        ∗ (iprop(owns c arg1 fullShare x0 ∗ owns c arg2 fullShare x1 ∗ owns c arg3 fullShare x2
            ∗ owns c arg6 fullShare (k1_pay4 x0 x1 x2 q0) ∗ owns c arg7 fullShare (k1_pay5 x0 x1 x2 q1)) -∗ K ⟨⟩)) : sProp 𝕄)
      ⊢ wp frame (wpE (defs₀ (F := F)) Variants.none c none) Set.univ
          (cc1__stats1_kernel i arg1 harg1 arg2 harg2 arg3 harg3 arg4 harg4 arg5 harg5 arg6 harg6 arg7 harg7) K := by
  simp only [cc1__stats1_kernel_eq_skeleton]; unfold cc1__stats1_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  subst hf1 hf2 hf3 hf6 hf7
  by_cases h1 : Scalar.cmpi .ne (Scalar.extui (Scalar.cmpi .eq (BitVec.ofNat 32 (i 0).val) 0#32)) 0#32 = 1#1
  on_goal 1 => obtain ⟨rfl, rfl⟩ := hf h1
  on_goal 2 => obtain ⟨rfl, rfl⟩ := hm h1
  all_goals
    sl_exec
    sl_step
    iapply Hk
    isplitl [H1]; iexists f1; isplitr; rotate_left; iexact H1
    isplitl [H2]; iexists f2; isplitr; rotate_left; iexact H2
    isplitl [H3]; iexists f3; isplitr; rotate_left; iexact H3
    isplitl [H6]; iexists _; isplitr; rotate_left; iexact H6
    iexists _; isplitr; rotate_left; iexact H7
    all_goals ipureintro
    iterate 3 rfl
    all_goals (sl_unfold_words; rw [read_after_row]; simp only [View.readAt_eq_ld, View.ld_unit_zero (S := S3200x128) offRow, View.ld_unit_zero (S := S128x64) offRow,
    View.ld_unit_zero (S := S1x64) offRow, View.readCov_unit_zero (S := S1x64) _ offRow])

theorem kernel_last (K : PUnit → sProp 𝕄) (h1 : ¬ (Scalar.cmpi .ne (Scalar.extui (Scalar.cmpi .eq (BitVec.ofNat 32 (i 0).val) 0#32)) 0#32 = 1#1)) (h2 : k1_cond2 i = 1#1) :
    (iprop(owns c arg1 fullShare x0 ∗ owns c arg2 fullShare x1 ∗ owns c arg3 fullShare x2
        ∗ (∃ d, owns c arg4 fullShare d) ∗ (∃ d, owns c arg5 fullShare d)
        ∗ owns c arg6 fullShare p0 ∗ owns c arg7 fullShare p1
        ∗ (iprop(owns c arg1 fullShare x0 ∗ owns c arg2 fullShare x1 ∗ owns c arg3 fullShare x2
            ∗ owns c arg4 fullShare (k1_pay4 x0 x1 x2 p0) ∗ owns c arg5 fullShare (k1_pay5 x0 x1 x2 p1)
            ∗ owns c arg6 fullShare (k1_pay4 x0 x1 x2 p0) ∗ owns c arg7 fullShare (k1_pay5 x0 x1 x2 p1)) -∗ K ⟨⟩)) : sProp 𝕄)
      ⊢ wp frame (wpE (defs₀ (F := F)) Variants.none c none) Set.univ
          (cc1__stats1_kernel i arg1 harg1 arg2 harg2 arg3 harg3 arg4 harg4 arg5 harg5 arg6 harg6 arg7 harg7) K := by
  simp only [cc1__stats1_kernel_eq_skeleton]; unfold cc1__stats1_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec
  sl_step
  iapply Hk
  isplitl [H1]; iexists f1; isplitr; rotate_left; iexact H1
  isplitl [H2]; iexists f2; isplitr; rotate_left; iexact H2
  isplitl [H3]; iexists f3; isplitr; rotate_left; iexact H3
  isplitl [H4]; iexists _; isplitr; rotate_left; iexact H4
  isplitl [H5]; iexists _; isplitr; rotate_left; iexact H5
  isplitl [H6]; iexists _; isplitr; rotate_left; iexact H6
  iexists _; isplitr; rotate_left; iexact H7
  all_goals ipureintro
  iterate 3 rfl
  all_goals (sl_unfold_words; rw [read_after_row]; simp only [View.readAt_eq_ld, View.ld_unit_zero (S := S3200x128) offRow, View.ld_unit_zero (S := S128x64) offRow,
    View.ld_unit_zero (S := S1x64) offRow, View.readCov_unit_zero (S := S1x64) _ offRow])

end kernel

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev eblk (c : Dev nD) (t : Fin cfg1.N) : Vec F S3200x128 .f32 := blk V c 0 t
abbrev wblk (c : Dev nD) (t : Fin cfg1.N) : Vec F S128x64 .f32 := blk V c 1 t
abbrev bblk (c : Dev nD) (t : Fin cfg1.N) : Vec F S1x64 .f32 := blk V c 2 t

def accS (c : Dev nD) : ℕ → Vec F S1x64 .f32
  | 0 => k1_pay1
  | n + 1 => if h : n < cfg1.N then k1_pay4 (eblk V c ⟨n, h⟩) (wblk V c ⟨n, h⟩) (bblk V c ⟨n, h⟩) (accS c n) else accS c n

def accQ (c : Dev nD) : ℕ → Vec F S1x64 .f32
  | 0 => k1_pay2
  | n + 1 => if h : n < cfg1.N then k1_pay5 (eblk V c ⟨n, h⟩) (wblk V c ⟨n, h⟩) (bblk V c ⟨n, h⟩) (accQ c n) else accQ c n

theorem accS_zero (c : Dev nD) : accS V c 0 = k1_pay1 := by rw [accS]
theorem accQ_zero (c : Dev nD) : accQ V c 0 = k1_pay2 := by rw [accQ]

theorem accS_succ (c : Dev nD) (t : Fin cfg1.N) :
    accS V c (t.val + 1) = k1_pay4 (eblk V c t) (wblk V c t) (bblk V c t) (accS V c t.val) := by
  rw [accS]; exact dif_pos t.isLt

theorem accQ_succ (c : Dev nD) (t : Fin cfg1.N) :
    accQ V c (t.val + 1) = k1_pay5 (eblk V c t) (wblk V c t) (bblk V c t) (accQ V c t.val) := by
  rw [accQ]; exact dif_pos t.isLt

abbrev scr0 : Memref sig .tc .vmem S1x64 .f32 := Memref.whole cc1_scratch0
abbrev scr1 : Memref sig .tc .vmem S1x64 .f32 := Memref.whole cc1_scratch1

def inv (c : Dev nD) (n : ℕ) : sProp 𝕄 :=
  iprop((∃ X, ⌜0 < n → X = accS V c n⌝ ∗ owns c scr0 fullShare X)
    ∗ (∃ X, ⌜0 < n → X = accQ V c n⌝ ∗ owns c scr1 fullShare X)
    ∗ Pipeline.scopedRestBut (Ix := Unit) (Name := ℕ) (U := UR sig nD τ) (Lvl := ℕ) (Val := Elt F) spec1 c [cc1_scratch0, cc1_scratch1]
    ∗ ∃ r, prngReg c r)

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => accS V c (t.val + 1)
    | ⟨4, _⟩ => accQ V c (t.val + 1)
  Φ t := inv V c t.val
  q _ := fullShare
  owed _ := 0

theorem dat_A (c : Dev nD) (w : Fin cfg1.W) : (dat V c).A w = V c (Pipeline.arrRef spec1 w) := by
  dsimp only [dat]
theorem dat_q (c : Dev nD) (w : Fin cfg1.W) : (dat V c).q w = fullShare := rfl
theorem dat_owed (c : Dev nD) (t : Fin (cfg1.N + 1)) : (dat V c).owed t = 0 := rfl

theorem dat_Φ (c : Dev nD) (t : Fin (cfg1.N + 1)) : (dat V c).Φ t = inv V c t.val := by dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = accS V c (t.val + 1) := by dsimp only [dat]
theorem after_4 (c : Dev nD) (t : Fin cfg1.N) : (dat V c).after 4 t = accQ V c (t.val + 1) := by dsimp only [dat]

theorem before_0 (c : Dev nD) (t : Fin cfg1.N) (d) : (dat V c).before 0 t d = blk V c 0 t :=
  (dat V c).before_fetched 0 t (fetch1_0 t) d
theorem before_1 (c : Dev nD) (t : Fin cfg1.N) (d) : (dat V c).before 1 t d = blk V c 1 t :=
  (dat V c).before_in_eq_fetched 1 rfl (fun _ => rfl) (fun _ _ _ => rfl) (fun _ => rfl) t d
theorem before_2 (c : Dev nD) (t : Fin cfg1.N) (d) : (dat V c).before 2 t d = blk V c 2 t :=
  (dat V c).before_in_eq_fetched 2 rfl (fun _ => rfl) (fun _ _ _ => rfl) (fun _ => rfl) t d

theorem scr0_eq (c : Dev nD) (f : Buf (Elt F) ((c : Thread nD τ).loc cc1_scratch0)) :
    (owns c scr0 fullShare f : sProp 𝕄) = ((c : Thread nD τ).loc cc1_scratch0) ↦{fullShare} f :=
  owns_whole (c : Thread nD τ) cc1_scratch0 fullShare f
theorem scr1_eq (c : Dev nD) (f : Buf (Elt F) ((c : Thread nD τ).loc cc1_scratch1)) :
    (owns c scr1 fullShare f : sProp 𝕄) = ((c : Thread nD τ).loc cc1_scratch1) ↦{fullShare} f :=
  owns_whole (c : Thread nD τ) cc1_scratch1 fullShare f

theorem Φ_in (c : Dev nD) : (Pipeline.ΦA spec1 c : sProp 𝕄) ⊢ (dat V c).Φ 0 := by
  rw [dat_Φ]; unfold Pipeline.ΦA inv
  rw [scopedRest1_split]
  iintro ⟨⟨⟨⟨%f0, H0⟩, ⟨%f1, H1⟩⟩, HR⟩, HP⟩
  isplitl [H0]
  · iexists f0; isplitr; · ipureintro; exact fun h => absurd h (Nat.lt_irrefl 0)
    rw [scr0_eq]; iexact H0
  isplitl [H1]
  · iexists f1; isplitr; · ipureintro; exact fun h => absurd h (Nat.lt_irrefl 0)
    rw [scr1_eq]; iexact H1
  iframe

theorem Φ_out (c : Dev nD) : (dat V c).Φ (Fin.last _) ⊢ (Pipeline.ΦA spec1 c : sProp 𝕄) := by
  rw [dat_Φ]; unfold Pipeline.ΦA inv
  rw [scopedRest1_split]
  iintro ⟨⟨%X0, -, H0⟩, ⟨%X1, -, H1⟩, HR, HP⟩
  iframe HR HP
  isplitl [H0]
  · iexists X0; rw [← scr0_eq]; iexact H0
  · iexists X1; rw [← scr1_eq]; iexact H1

def bodyPre (c : Dev nD) (t : Fin cfg1.N) : sProp 𝕄 :=
  iprop((dat V c).Φ t.castSucc ∗ (dat V c).owesAt () t.castSucc
    ∗ (∃ d, owns c (st1_0 t) fullShare ((dat V c).before 0 t d))
    ∗ (∃ d, owns c (st1_1 t) fullShare ((dat V c).before 1 t d))
    ∗ (∃ d, owns c (st1_2 t) fullShare ((dat V c).before 2 t d))
    ∗ (∃ d, owns c (st1_3 t) fullShare ((dat V c).before 3 t d))
    ∗ (∃ d, owns c (st1_4 t) fullShare ((dat V c).before 4 t d)))

def bodyPost (c : Dev nD) (t : Fin cfg1.N) : sProp 𝕄 :=
  iprop((dat V c).Φ t.succ ∗ (dat V c).owesAt () t.succ
    ∗ owns c (st1_0 t) fullShare ((dat V c).after 0 t)
    ∗ owns c (st1_1 t) fullShare ((dat V c).after 1 t)
    ∗ owns c (st1_2 t) fullShare ((dat V c).after 2 t)
    ∗ (dat V c).leavesExact 3 t
    ∗ (dat V c).leavesExact 4 t)

theorem leaves_live (c : Dev nD) (w : Fin cfg1.W) (t : Fin cfg1.N) (hi : cfg1.idle w (cfg1.grid.coords t) = false) :
    (dat V c).leavesExact w t = owns c ((cfg1.win w).stage (cfg1.slots t w)) fullShare ((dat V c).after w t) := by
  unfold Dat.leavesExact; rw [hi]

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [dat_Φ, dat_Φ, show (dat V c).owesAt () t.succ = (dat V c).owesAt () t.castSucc from rfl,
    after_0, after_1, after_2, Fin.val_succ, Fin.coe_castSucc]
  have hlt := lt250 t
  by_cases hB : t.val = 249
  on_goal 1 =>
    have hpos : 0 < t.val := by omega
    rw [leaves_live V c 3 t (idle_of_eq t hB).1, leaves_live V c 4 t (idle_of_eq t hB).2, after_3, after_4]
    unfold inv
    iintro ⟨⟨⟨%X0, %hX0, HS0⟩, ⟨%X1, %hX1, HS1⟩, HR, HP⟩, Ho, ⟨%d0, H0⟩, ⟨%d1, H1⟩, ⟨%d2, H2⟩, ⟨%d3, H3⟩, ⟨%d4, H4⟩⟩
    have e0 := hX0 hpos; have e1 := hX1 hpos; subst e0 e1
    iapply (kernel_last c (grid1.coords t) _ _ _ _ _ _ _ _ _ _ _ _ _ _ (eblk V c t) (wblk V c t) (bblk V c t)
      (accS V c t.val) (accQ V c t.val) _ (fun h => by have := (c1_iff t).mp h; omega) ((c2_iff t).mpr hB))
    iframe H0 H1 H2
    isplitl [H3]; · iexists _; iexact H3
    isplitl [H4]; · iexists _; iexact H4
    iframe HS0 HS1
    iintro ⟨H0, H1, H2, H3, H4, HS0, HS1⟩
  on_goal 2 =>
    have h2 : ¬ (k1_cond2 (grid1.coords t) = 1#1) := fun h => hB ((c2_iff t).mp h)
    rw [Dat.leavesExact_idle _ 3 t (idle_of_ne t hB).1 (flush_of_ne t hB).1,
      Dat.leavesExact_idle _ 4 t (idle_of_ne t hB).2 (flush_of_ne t hB).2]
    unfold inv
    iintro ⟨⟨⟨%X0, %hX0, HS0⟩, ⟨%X1, %hX1, HS1⟩, HR, HP⟩, Ho, ⟨%d0, H0⟩, ⟨%d1, H1⟩, ⟨%d2, H2⟩, H3, H4⟩
    iapply (kernel_step c (grid1.coords t) _ _ _ _ _ _ _ _ _ _ _ _ _ _ (eblk V c t) (wblk V c t) (bblk V c t) X0 X1
      (accS V c t.val) (accQ V c t.val) _
      (fun h => ⟨by rw [(c1_iff t).mp h, accS_zero], by rw [(c1_iff t).mp h, accQ_zero]⟩)
      (fun h => have hp := Nat.pos_of_ne_zero fun e => h ((c1_iff t).mpr e); ⟨(hX0 hp).symm, (hX1 hp).symm⟩) h2)
    iframe H0 H1 H2 HS0 HS1
    iintro ⟨H0, H1, H2, HS0, HS1⟩
  all_goals
    rw [← accS_succ V c t, ← accQ_succ V c t]
    isplitl [HS0 HS1 HR HP]
    · isplitl [HS0]
      · iexists _; isplitr; swap; · iexact HS0
        ipureintro; exact fun _ => rfl
      isplitl [HS1]
      · iexists _; isplitr; swap; · iexact HS1
        ipureintro; exact fun _ => rfl
      iframe
    iframe

theorem obligation (c : Dev nD) : BodyObligation (dat (F := F) V c) (defs₀ (F := F)) Variants.none () Set.univ := fun t => by
  rw [bigSep_W1, bigSep_W1]
  exact sound_body V c t

end Cert.KernelIdeal.Reg1

end
-- ==== Proof.KI.Reg2.lean ====
import proofs.«430728_j7627861917709_1_alg».proof.Proof.Gen.KernelIdeal.Launch
import proofs.«430728_j7627861917709_1_alg».proof.Proof.Gen.KernelIdeal.Skeleton
import proofs.«430728_j7627861917709_1_alg».proof.Proof.Gen.KernelIdeal.Points
import Idealize.ShloMosaic.Lib.Pipeline.RegionsLoop
import Idealize.ShloMosaic.Lib.Pipeline.FrameSuffix
import Idealize.ShloMosaic.Lib.Pipeline.Value
import Idealize.ShloMosaic.Lib.Pipeline.TableIdle
import Idealize.ShloMosaic.Lib.Ring

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev atFirst (i : grid2.Coords) : Prop :=
  (Scalar.cmpi .ne (Scalar.extui (Scalar.cmpi .eq (BitVec.ofNat 32 (i 0).val) 0#32)) 0#32) = 1#1

abbrev atLast (i : grid2.Coords) : Prop := k2_cond2 i = 1#1

theorem atFirst_iff : ∀ t : Fin cfg2.N, atFirst (grid2.coords t) ↔ t.val = 0 :=
  (by decide +kernel : ∀ t : Fin grid2.N, atFirst (grid2.coords t) ↔ t.val = 0)
theorem atLast_iff : ∀ t : Fin cfg2.N, atLast (grid2.coords t) ↔ t.val = 249 :=
  (by decide +kernel : ∀ t : Fin grid2.N, atLast (grid2.coords t) ↔ t.val = 249)

theorem off00 : (![0, 0] : Fin 2 → ℕ) = fun _ => 0 := funext fun a => by fin_cases a <;> rfl

theorem read_last_store {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons_self .., View.mem_set_unit_zero h inb y⟩),
    View.canon_cons_unit_zero h]

abbrev zOf (x1 : Vec F S3200x128 .f32) (x2 : Vec F S128x64 .f32) (x3 x4 x5 x6 x7 : Vec F S1x64 .f32) : FVec F S3200x64 .f32 :=
  k2_pay6 x1 x2 x3 x5 x4 x6 x7

abbrev zOf16 (x1 : Vec F S3200x128 .f32) (x2 : Vec F S128x64 .f32) (x3 x4 x5 x6 x7 : Vec F S1x64 .f32) : FVec F S3200x64 .bf16 :=
  k2_pay7 x1 x2 x3 x5 x4 x6 x7

abbrev own (c : Dev nD) {S : Shape} {e : EltTy} (a : Memref sig .tc .vmem S e) (x : Vec F S e) : sProp 𝕄 :=
  a.view.loc (c : Thread nD τ) ↦[a.view.set]{fullShare} a.view.rep x

theorem own_eq (c : Dev nD) {S : Shape} {e : EltTy} (a : Memref sig .tc .vmem S e) (x : Vec F S e) :
    owns (c : Thread nD τ) a fullShare x = own c a x := owns_eq_rep ..

-- The body at one grid point adds the block's contribution to the two running sums (started afresh at the first point); at the last point the sums are also written to the outputs.
theorem run (c : Dev nD) (E : Set ℕ) (i : grid2.Coords) (hi : atFirst i → ¬atLast i)
    (a1 : Memref sig .tc .vmem S3200x128 .f32) (a2 : Memref sig .tc .vmem S128x64 .f32) (a3 a4 a5 a6 a7 : Memref sig .tc .vmem S1x64 .f32)
    (a8 : Memref sig .tc .vmem S64x32 .f32) (a9 a11 a12 a13 a14 : Memref sig .tc .vmem S1x32 .f32) (a10 : Memref sig .tc .vmem S3200x64 .bf16)
    (ha1 : a1.IsWhole) (ha2 : a2.IsWhole) (ha3 : a3.IsWhole) (ha4 : a4.IsWhole) (ha5 : a5.IsWhole) (ha6 : a6.IsWhole) (ha7 : a7.IsWhole)
    (ha8 : a8.IsWhole) (ha9 : a9.IsWhole) (ha10 : a10.IsWhole) (ha11 : a11.IsWhole) (ha12 : a12.IsWhole) (ha13 : a13.IsWhole) (ha14 : a14.IsWhole)
    (x1 : Vec F S3200x128 .f32) (x2 : Vec F S128x64 .f32) (x3 x4 x5 x6 x7 : Vec F S1x64 .f32) (x8 : Vec F S64x32 .f32) (x9 : Vec F S1x32 .f32)
    (d10 : Vec F S3200x64 .bf16) (y11 y12 d13 d14 s13 s14 : Vec F S1x32 .f32) (h13 : ¬atFirst i → d13 = s13 ∧ d14 = s14) (z13 : atFirst i → s13 = k2_pay4 ∧ s14 = k2_pay5)
    (K : PUnit → sProp 𝕄) :
    iprop(own c a1 x1 ∗ own c a2 x2 ∗ own c a3 x3 ∗ own c a4 x4 ∗ own c a5 x5 ∗ own c a6 x6 ∗ own c a7 x7 ∗ own c a8 x8 ∗ own c a9 x9
        ∗ own c a10 d10 ∗ own c a11 y11 ∗ own c a12 y12 ∗ own c a13 d13 ∗ own c a14 d14
        ∗ (iprop(own c a1 x1 ∗ own c a2 x2 ∗ own c a3 x3 ∗ own c a4 x4 ∗ own c a5 x5 ∗ own c a6 x6 ∗ own c a7 x7 ∗ own c a8 x8 ∗ own c a9 x9
            ∗ own c a10 (zOf16 x1 x2 x3 x4 x5 x6 x7)
            ∗ own c a11 (if atLast i then k2_pay2 (zOf x1 x2 x3 x4 x5 x6 x7) x8 x9 s13 else y11)
            ∗ own c a12 (if atLast i then k2_pay3 (zOf x1 x2 x3 x4 x5 x6 x7) x8 x9 s14 else y12)
            ∗ own c a13 (k2_pay2 (zOf x1 x2 x3 x4 x5 x6 x7) x8 x9 s13)
            ∗ own c a14 (k2_pay3 (zOf x1 x2 x3 x4 x5 x6 x7) x8 x9 s14)) -∗ K ⟨⟩))
      ⊢ wp frame (wpE (defs₀ (F := F)) Variants.none c none) E
          (cc2__stage2_kernel i a1 ha1 a2 ha2 a3 ha3 a4 ha4 a5 ha5 a6 ha6 a7 ha7 a8 ha8 a9 ha9 a10 ha10 a11 ha11 a12 ha12 a13 ha13 a14 ha14) K := by
  by_cases h0 : atFirst i
  on_goal 1 => obtain ⟨rfl, rfl⟩ := z13 h0
  on_goal 2 => obtain ⟨rfl, rfl⟩ := h13 h0
  all_goals by_cases h1 : atLast i
  · exact absurd h1 (hi h0)
  all_goals
    first | rw [if_pos h1, if_pos h1] | rw [if_neg h1, if_neg h1]
    simp only [cc2__stage2_kernel_eq_skeleton]; unfold cc2__stage2_kernel_skel
    iintro ⟨H1, H2, H3, H4, H5, H6, H7, H8, H9, H10, H11, H12, H13, H14, Hk⟩
    sl_exec (disch := first | exact h0 | exact h1)
    sl_step
    iapply Hk
    iframe H1 H2 H3 H4 H5 H6 H7 H8 H9
    isplitl [H10]; rotate_left; isplitl [H11]; rotate_left; isplitl [H12]; rotate_left; isplitl [H13]; rotate_left
    all_goals
      iapply rep_of_owns; unfold owns; iexists _; isplitr; swap; · iassumption
      ipureintro
      first
      | rw [View.read_rep]
      | (sl_unfold_run_names; rw [read_last_store _ _ off00]
         simp only [View.readAt_eq_ld, View.read_rep, View.ld_unit_zero (S := S3200x128) off00, View.ld_unit_zero (S := S128x64) off00, View.ld_unit_zero (S := S1x64) off00, View.ld_unit_zero (S := S64x32) off00, View.ld_unit_zero (S := S1x32) off00, View.readCov_unit_zero (S := S1x32) _ off00])

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev eB (c : Dev nD) (t : Fin cfg2.N) : Vec F S3200x128 .f32 := blk V c 0 t

abbrev w1B (c : Dev nD) (t : Fin cfg2.N) : Vec F S128x64 .f32 := blk V c 1 t

abbrev b1B (c : Dev nD) (t : Fin cfg2.N) : Vec F S1x64 .f32 := blk V c 2 t

abbrev meanB (c : Dev nD) (t : Fin cfg2.N) : Vec F S1x64 .f32 := blk V c 3 t

abbrev varB (c : Dev nD) (t : Fin cfg2.N) : Vec F S1x64 .f32 := blk V c 4 t

abbrev gainB (c : Dev nD) (t : Fin cfg2.N) : Vec F S1x64 .f32 := blk V c 5 t

abbrev shiftB (c : Dev nD) (t : Fin cfg2.N) : Vec F S1x64 .f32 := blk V c 6 t

abbrev w2B (c : Dev nD) (t : Fin cfg2.N) : Vec F S64x32 .f32 := blk V c 7 t

abbrev b2B (c : Dev nD) (t : Fin cfg2.N) : Vec F S1x32 .f32 := blk V c 8 t

abbrev zB (c : Dev nD) (t : Fin cfg2.N) : FVec F S3200x64 .f32 := zOf (eB V c t) (w1B V c t) (b1B V c t) (meanB V c t) (varB V c t) (gainB V c t) (shiftB V c t)

def accS (c : Dev nD) : ℕ → FVec F S1x32 .f32
  | 0 => k2_pay4
  | n + 1 => if h : n < cfg2.N then k2_pay2 (zB V c ⟨n, h⟩) (w2B V c ⟨n, h⟩) (b2B V c ⟨n, h⟩) (accS c n) else accS c n

def accQ (c : Dev nD) : ℕ → FVec F S1x32 .f32
  | 0 => k2_pay5
  | n + 1 => if h : n < cfg2.N then k2_pay3 (zB V c ⟨n, h⟩) (w2B V c ⟨n, h⟩) (b2B V c ⟨n, h⟩) (accQ c n) else accQ c n

theorem accS_succ (c : Dev nD) (t : Fin cfg2.N) :
    accS V c (t.val + 1) = k2_pay2 (zB V c t) (w2B V c t) (b2B V c t) (accS V c t.val) := by
  rw [accS.eq_2]; exact dif_pos t.isLt
theorem accQ_succ (c : Dev nD) (t : Fin cfg2.N) :
    accQ V c (t.val + 1) = k2_pay3 (zB V c t) (w2B V c t) (b2B V c t) (accQ V c t.val) := by
  rw [accQ.eq_2]; exact dif_pos t.isLt

abbrev scrS : Memref sig .tc .vmem S1x32 .f32 := Memref.whole cc2_scratch0
abbrev scrQ : Memref sig .tc .vmem S1x32 .f32 := Memref.whole cc2_scratch1

-- Before point n the scratch pair holds the sums over the first n blocks (anything when n = 0).
def Inv (c : Dev nD) (n : ℕ) : sProp 𝕄 :=
  iprop(iprop(iprop((∃ s, ⌜n ≠ 0 → s = accS V c n⌝ ∗ owns (c : Thread nD τ) scrS fullShare s) ∗ (∃ q, ⌜n ≠ 0 → q = accQ V c n⌝ ∗ owns (c : Thread nD τ) scrQ fullShare q))
      ∗ Pipeline.scopedRestBut (Ix := Unit) (Name := ℕ) (U := UR sig nD τ) (Lvl := ℕ) (Val := Elt F) spec2 c [cc2_scratch0, cc2_scratch1]) ∗ ∃ r, prngReg c r)

theorem PhiA_open (c : Dev nD) :
    (Pipeline.ΦA spec2 c : sProp 𝕄)
      = iprop(iprop(iprop((∃ d, owns (c : Thread nD τ) scrS fullShare d) ∗ (∃ d, owns (c : Thread nD τ) scrQ fullShare d))
          ∗ Pipeline.scopedRestBut (Ix := Unit) (Name := ℕ) (U := UR sig nD τ) (Lvl := ℕ) (Val := Elt F) spec2 c [cc2_scratch0, cc2_scratch1]) ∗ ∃ r, prngReg c r) := by
  unfold Pipeline.ΦA; rw [scopedRest2_split]; simp only [scrS, scrQ, owns_whole]; rfl

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => zOf16 (eB V c t) (w1B V c t) (b1B V c t) (meanB V c t) (varB V c t) (gainB V c t) (shiftB V c t)
    | ⟨10, _⟩ => accS V c (t.val + 1)
    | ⟨11, _⟩ => accQ V c (t.val + 1)
  Φ t := Inv V c t.val
  q _ := fullShare
  owed _ := 0

theorem dat_A (c : Dev nD) (w : Fin cfg2.W) : (dat V c).A w = V c (Pipeline.arrRef spec2 w) := by
  dsimp only [dat]
theorem dat_q (c : Dev nD) (w : Fin cfg2.W) : (dat V c).q w = fullShare := rfl
theorem dat_owed (c : Dev nD) (t : Fin (cfg2.N + 1)) : (dat V c).owed t = 0 := rfl

theorem after_all (c : Dev nD) (t : Fin cfg2.N) :
    (dat V c).after 0 t = blk V c 0 t ∧ (dat V c).after 1 t = blk V c 1 t ∧ (dat V c).after 2 t = blk V c 2 t ∧ (dat V c).after 3 t = blk V c 3 t ∧ (dat V c).after 4 t = blk V c 4 t ∧ (dat V c).after 5 t = blk V c 5 t ∧ (dat V c).after 6 t = blk V c 6 t ∧ (dat V c).after 7 t = blk V c 7 t ∧ (dat V c).after 8 t = blk V c 8 t := by
  refine ⟨?_, ?_, ?_, ?_, ?_, ?_, ?_, ?_, ?_⟩ <;> dsimp only [dat]
theorem after_9 (c : Dev nD) (t : Fin cfg2.N) :
    (dat V c).after 9 t = zOf16 (eB V c t) (w1B V c t) (b1B V c t) (meanB V c t) (varB V c t) (gainB V c t) (shiftB V c t) := by dsimp only [dat]
theorem after_10 (c : Dev nD) (t : Fin cfg2.N) : (dat V c).after 10 t = accS V c (t.val + 1) := by dsimp only [dat]
theorem after_11 (c : Dev nD) (t : Fin cfg2.N) : (dat V c).after 11 t = accQ V c (t.val + 1) := by dsimp only [dat]

theorem before_all (c : Dev nD) (t : Fin cfg2.N) :
    (∀ d, (dat V c).before 0 t d = blk V c 0 t) ∧ (∀ d, (dat V c).before 1 t d = blk V c 1 t) ∧ (∀ d, (dat V c).before 2 t d = blk V c 2 t) ∧ (∀ d, (dat V c).before 3 t d = blk V c 3 t) ∧ (∀ d, (dat V c).before 4 t d = blk V c 4 t) ∧ (∀ d, (dat V c).before 5 t d = blk V c 5 t) ∧ (∀ d, (dat V c).before 6 t d = blk V c 6 t) ∧ (∀ d, (dat V c).before 7 t d = blk V c 7 t) ∧ (∀ d, (dat V c).before 8 t d = blk V c 8 t) := by
  refine ⟨?_, ?_, ?_, ?_, ?_, ?_, ?_, ?_, ?_⟩ <;>
  exact fun d => ((dat V c).before_in_eq_fetched _ rfl (fun _ => rfl) (fun _ _ _ => rfl)
    (fun t => by simp only [after_all V c t]; unfold Dat.blockOf blk; rw [dat_A]; try rfl) t d).trans (by unfold Dat.fetched Dat.blockOf blk; rw [dat_A]; try rfl)

theorem Φ_in (c : Dev nD) : (Pipeline.ΦA spec2 c : sProp 𝕄) ⊢ (dat V c).Φ 0 := by
  rw [show (dat V c).Φ 0 = Inv V c 0 from rfl, PhiA_open]; unfold Inv
  iintro ⟨⟨⟨⟨%s, HS⟩, ⟨%q, HQ⟩⟩, HR⟩, Hg⟩
  iframe HR Hg
  isplitl [HS]
  · iexists s; iframe HS; ipureintro; exact fun h => absurd rfl h
  · iexists q; iframe HQ; ipureintro; exact fun h => absurd rfl h

theorem Φ_out (c : Dev nD) : (dat V c).Φ (Fin.last _) ⊢ (Pipeline.ΦA spec2 c : sProp 𝕄) := by
  rw [show (dat V c).Φ (Fin.last _) = Inv V c cfg2.N from rfl, PhiA_open]; unfold Inv
  iintro ⟨⟨⟨⟨%s, -, HS⟩, ⟨%q, -, HQ⟩⟩, HR⟩, Hg⟩
  iframe HR Hg
  isplitl [HS]
  · iexists s; iexact HS
  · iexists q; iexact HQ

theorem sched : ∀ t : Fin cfg2.N, (atLast (grid2.coords t) → idle2 10 (grid2.coords t) = false ∧ idle2 11 (grid2.coords t) = false)
    ∧ (¬atLast (grid2.coords t) → idle2 10 (grid2.coords t) = true ∧ idle2 11 (grid2.coords t) = true
      ∧ (win2 10).flush t = false ∧ (win2 11).flush t = false) := by decide +kernel

-- One grid point: the sums over the first t blocks become the sums over the first t + 1.
theorem obligation (c : Dev nD) : BodyObligation (dat (F := F) V c) (defs₀ (F := F)) Variants.none () Set.univ := fun t => by
  rw [bigSep_W2, bigSep_W2]
  sl_whnfR [defs₀, Defs.onTc]
  simp only [before_all V c t, after_all V c t]
  rewrite [show (dat V c).Φ t.castSucc = Inv V c t.val from rfl, show (dat V c).Φ t.succ = Inv V c (t.val + 1) from rfl,
    show (dat V c).owesAt () t.succ = (dat V c).owesAt () t.castSucc from rfl]
  unfold Inv
  rw [after_9, exists_held (Nat.succ_ne_zero _), exists_held (Nat.succ_ne_zero _), accS_succ, accQ_succ]
  have hF := atFirst_iff t
  simp only [own_eq]
  iintro ⟨⟨⟨⟨⟨%s, %hs, HS⟩, ⟨%q, %hq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c Set.univ (grid2.coords t) (fun a b => by have := hF.mp a; have := (atLast_iff t).mp b; omega)
    _ _ _ _ _ _ _ _ _ _ _ _ _ _ _ _ _ _ _ _ _ _ _ _ _ _ _ _ (eB V c t) (w1B V c t) (b1B V c t) (meanB V c t) (varB V c t) (gainB V c t) (shiftB V c t) (w2B V c t) (b2B V c t)
    _ _ _ s q (accS V c t.val) (accQ V c t.val) (fun h => ⟨hs (mt hF.mpr h), hq (mt hF.mpr h)⟩) (fun h => by rw [hF.mp h]; exact ⟨rfl, rfl⟩) _)
  iframe H0 H1 H2 H3 H4 H5 H6 H7 H8 H9 H10 H11 HS HQ
  iintro ⟨H0, H1, H2, H3, H4, H5, H6, H7, H8, H9, H10, H11, HS, HQ⟩
  iframe HS HQ HR Hg Ho H0 H1 H2 H3 H4 H5 H6 H7 H8 H9
  by_cases hL : atLast (grid2.coords t)
  on_goal 1 => obtain ⟨i0, i1⟩ := (sched t).1 hL
  on_goal 2 => obtain ⟨i0, i1, f0, f1⟩ := (sched t).2 hL
  all_goals rw [i0]; try rw [i1]
  on_goal 1 => rw [if_pos hL, if_pos hL, after_10, after_11, accS_succ, accQ_succ]
  on_goal 2 => rw [if_neg hL, if_neg hL, f0]; try rw [f1]
  all_goals
    simp only [own_eq]
    isplitl [H10] <;> first | iassumption | (iexists _; iassumption)

end Cert.KernelIdeal.Reg2

end
-- ==== Proof.KI.Reg3.lean ====
import proofs.«430728_j7627861917709_1_alg».proof.Proof.Gen.KernelIdeal.Launch
import proofs.«430728_j7627861917709_1_alg».proof.Proof.Gen.KernelIdeal.Skeleton
import proofs.«430728_j7627861917709_1_alg».proof.Proof.Gen.KernelIdeal.Points
import Idealize.ShloMosaic.Lib.Pipeline.FrameBody
import Idealize.ShloMosaic.Lib.Tactic

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev rZ : Rect S3200x64 := Rect.unit ![0, 0] S3200x64.size inb_S3200x64_S3200x64_0_0
abbrev rH : Rect S3200x128 := Rect.unit ![0, 0] S3200x128.size inb_S3200x128_S3200x128_0_0
abbrev rA : Rect S64x32 := Rect.unit ![0, 0] S64x32.size inb_S64x32_S64x32_0_0
abbrev rRow : Rect S1x32 := Rect.unit ![0, 0] S1x32.size inb_S1x32_S1x32_0_0
abbrev rOne : Rect S1x1 := Rect.unit ![0, 0] S1x1.size inb_S1x1_S1x1_0_0
abbrev rCol : Rect S3200x1 := Rect.unit ![0, 0] S3200x1.size inb_S3200x1_S3200x1_0_0

def scoreRows (x0 : Vec F S3200x64 .bf16) (x2 : Vec F S64x32 .f32) (x3 x4 x5 x6 x7 x8 : Vec F S1x32 .f32) : FVec F S3200 .f32 :=
  k3_pay3 (View.ld x0 rZ) (View.ld x2 rA) (View.ld x3 rRow) (View.ld x5 rRow) (View.ld x4 rRow) (View.ld x6 rRow)
    (View.ld x7 rRow) (View.ld x8 rRow)

def weights (x0 : Vec F S3200x64 .bf16) (x2 : Vec F S64x32 .f32) (x3 x4 x5 x6 x7 x8 : Vec F S1x32 .f32)
    (x9 : Vec F S1x1 .f32) (x10 : Vec F S3200x1 .f32) : Vec F S3200x1 .f32 :=
  View.canon [⟨rCol, k3_pay1 (scoreRows x0 x2 x3 x4 x5 x6 x7 x8) (View.ld x9 rOne) (View.ld x10 rCol)⟩]

def weighted (x0 : Vec F S3200x64 .bf16) (x1 : Vec F S3200x128 .f32) (x2 : Vec F S64x32 .f32) (x3 x4 x5 x6 x7 x8 : Vec F S1x32 .f32)
    (x9 : Vec F S1x1 .f32) (x10 : Vec F S3200x1 .f32) : Vec F S3200x128 .f32 :=
  View.canon [⟨rH, k3_pay2 (scoreRows x0 x2 x3 x4 x5 x6 x7 x8) (View.ld x9 rOne) (View.ld x10 rCol) (View.ld x1 rH)⟩]

set_option maxHeartbeats 1600000 in

theorem sound_kernel {c : Dev nD} {E i} {a0 a1 a2 a3 a4 a5 a6 a7 a8 a9 a10 a11 a12 : Memref sig .tc .vmem _ _}
    {h0 : a0.IsWhole} {h1 : a1.IsWhole} {h2 : a2.IsWhole} {h3 : a3.IsWhole} {h4 : a4.IsWhole} {h5 : a5.IsWhole} {h6 : a6.IsWhole}
    {h7 : a7.IsWhole} {h8 : a8.IsWhole} {h9 : a9.IsWhole} {h10 : a10.IsWhole} {h11 : a11.IsWhole} {h12 : a12.IsWhole}
    (x0 x1 x2 x3 x4 x5 x6 x7 x8 x9 x10 : Vec F _ _) {K : PUnit → sProp 𝕄} :
    iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare x10
        ∗ (∃ d, owns c a11 fullShare d) ∗ (∃ d, owns c a12 fullShare d)
        ∗ (iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare x8 ∗ owns c a9 fullShare x9 ∗ owns c a10 fullShare x10
            ∗ owns c a11 fullShare (weights x0 x2 x3 x4 x5 x6 x7 x8 x9 x10)
            ∗ owns c a12 fullShare (weighted x0 x1 x2 x3 x4 x5 x6 x7 x8 x9 x10)) -∗ K ⟨⟩))
      ⊢ wp frame (wpE (defs₀ (F := F)) Variants.none c none) E
          (cc3__stage3_kernel i a0 h0 a1 h1 a2 h2 a3 h3 a4 h4 a5 h5 a6 h6 a7 h7 a8 h8 a9 h9 a10 h10 a11 h11 a12 h12) K := by
  simp only [cc3__stage3_kernel_eq_skeleton]; unfold cc3__stage3_kernel_skel
  simp only [k3_part1_eq_skeleton]; unfold k3_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, Hk⟩
  subst e0 e1 e2 e3 e4 e5 e6 e7 e8 e9 e10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ fun y => View.cover_of_tiled _ S3200x1.size (by rfl) y
  iexists _; isplitr
  swap; · iexact H12
  ipureintro
  exact View.read_writes_eq_canon _ _ _ fun y => View.cover_of_tiled _ S3200x128.size (by rfl) y

variable (V : (c : Dev nD) → (b : Ref sig .tc) → Buf (Elt F) ((c : Thread nD τ).loc b))

def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => weights (blk V c 0 t) (blk V c 2 t) (blk V c 3 t) (blk V c 4 t) (blk V c 5 t) (blk V c 6 t) (blk V c 7 t) (blk V c 8 t) (blk V c 9 t) (blk V c 10 t)
    | ⟨12, _⟩ => weighted (blk V c 0 t) (blk V c 1 t) (blk V c 2 t) (blk V c 3 t) (blk V c 4 t) (blk V c 5 t) (blk V c 6 t) (blk V c 7 t) (blk V c 8 t) (blk V c 9 t) (blk V c 10 t)
  Φ _ := Pipeline.ΦA spec3 c
  q _ := fullShare
  owed _ := 0

theorem dat_A (c : Dev nD) (w : Fin cfg3.W) : (dat V c).A w = V c (Pipeline.arrRef spec3 w) := by
  dsimp only [dat]
theorem dat_q (c : Dev nD) (w : Fin cfg3.W) : (dat V c).q w = fullShare := rfl
theorem dat_owed (c : Dev nD) (t : Fin (cfg3.N + 1)) : (dat V c).owed t = 0 := rfl
theorem Φ_in (c : Dev nD) : (Pipeline.ΦA spec3 c : sProp 𝕄) ⊢ (dat V c).Φ 0 := Entails.refl _
theorem Φ_out (c : Dev nD) : (dat V c).Φ (Fin.last _) ⊢ (Pipeline.ΦA spec3 c : sProp 𝕄) := Entails.refl _

theorem after_in (c t) :
    (dat V c).after 0 t = blk V c 0 t ∧ (dat V c).after 1 t = blk V c 1 t ∧ (dat V c).after 2 t = blk V c 2 t ∧ (dat V c).after 3 t = blk V c 3 t
    ∧ (dat V c).after 4 t = blk V c 4 t ∧ (dat V c).after 5 t = blk V c 5 t ∧ (dat V c).after 6 t = blk V c 6 t ∧ (dat V c).after 7 t = blk V c 7 t
    ∧ (dat V c).after 8 t = blk V c 8 t ∧ (dat V c).after 9 t = blk V c 9 t ∧ (dat V c).after 10 t = blk V c 10 t := by
  refine ⟨?_, ?_, ?_, ?_, ?_, ?_, ?_, ?_, ?_, ?_, ?_⟩ <;> dsimp only [dat]
theorem after_11 (c t) :
    (dat V c).after 11 t = weights (blk V c 0 t) (blk V c 2 t) (blk V c 3 t) (blk V c 4 t) (blk V c 5 t) (blk V c 6 t) (blk V c 7 t) (blk V c 8 t) (blk V c 9 t) (blk V c 10 t) := by dsimp only [dat]
theorem after_12 (c t) :
    (dat V c).after 12 t = weighted (blk V c 0 t) (blk V c 1 t) (blk V c 2 t) (blk V c 3 t) (blk V c 4 t) (blk V c 5 t) (blk V c 6 t) (blk V c 7 t) (blk V c 8 t) (blk V c 9 t) (blk V c 10 t) := by dsimp only [dat]

theorem before_a (c t) :
    (∀ d, (dat V c).before 0 t d = blk V c 0 t) ∧ (∀ d, (dat V c).before 1 t d = blk V c 1 t) ∧ (∀ d, (dat V c).before 2 t d = blk V c 2 t)
    ∧ (∀ d, (dat V c).before 3 t d = blk V c 3 t) ∧ (∀ d, (dat V c).before 4 t d = blk V c 4 t) ∧ (∀ d, (dat V c).before 5 t d = blk V c 5 t) := by
  refine ⟨?_, ?_, ?_, ?_, ?_, ?_⟩ <;>
    exact fun d => ((dat V c).before_in_eq_fetched _ (by rfl) (by exact fun _ => rfl) (by exact fun _ _ _ => rfl)
    (fun t => by simp only [after_in V c t]; unfold Dat.blockOf blk; rw [dat_A]; try rfl) t d).trans
    (by unfold Dat.fetched Dat.blockOf blk; rw [dat_A]; try rfl)
theorem before_b (c t) :
    (∀ d, (dat V c).before 6 t d = blk V c 6 t) ∧ (∀ d, (dat V c).before 7 t d = blk V c 7 t) ∧ (∀ d, (dat V c).before 8 t d = blk V c 8 t)
    ∧ (∀ d, (dat V c).before 9 t d = blk V c 9 t) ∧ (∀ d, (dat V c).before 10 t d = blk V c 10 t) := by
  refine ⟨?_, ?_, ?_, ?_, ?_⟩ <;>
    exact fun d => ((dat V c).before_in_eq_fetched _ (by rfl) (by exact fun _ => rfl) (by exact fun _ _ _ => rfl)
    (fun t => by simp only [after_in V c t]; unfold Dat.blockOf blk; rw [dat_A]; try rfl) t d).trans
    (by unfold Dat.fetched Dat.blockOf blk; rw [dat_A]; try rfl)

theorem obligation (c : Dev nD) : BodyObligation (dat (F := F) V c) (defs₀ (F := F)) Variants.none () Set.univ := fun t => by
  rw [bigSep_W3, bigSep_W3]
  simp only [before_a V c t, before_b V c t, after_in V c t, after_11, after_12]
  rw [show (dat V c).Φ t.succ = (dat V c).Φ t.castSucc from rfl,
    show (dat V c).owesAt () t.succ = (dat V c).owesAt () t.castSucc from rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel (blk V c 0 t) (blk V c 1 t) (blk V c 2 t) (blk V c 3 t) (blk V c 4 t) (blk V c 5 t) (blk V c 6 t) (blk V c 7 t) (blk V c 8 t) (blk V c 9 t) (blk V c 10 t))
  iframe H0 H1 H2 H3 H4 H5 H6 H7 H8 H9 H10
  isplitl [H11]; · iexists _; iexact H11
  isplitl [H12]; · iexists _; iexact H12
  iintro H
  iframe

end Cert.KernelIdeal.Reg3

end
-- ==== Proof.KI.Reg4.lean ====
import proofs.«430728_j7627861917709_1_alg».proof.Proof.Gen.KernelIdeal.Launch
import proofs.«430728_j7627861917709_1_alg».proof.Proof.Gen.KernelIdeal.Skeleton
import proofs.«430728_j7627861917709_1_alg».proof.Proof.Gen.KernelIdeal.Points
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem origin2 : (![0, 0] : Fin 2 → ℕ) = fun _ => 0 :=
  funext fun a => by match a with | ⟨0, _⟩ => rfl | ⟨1, _⟩ => rfl

theorem finalize_triple (c : Dev nD) (E : Set ℕ) (i : grid4.Coords)
    (feats : Memref sig .tc .vmem S2000x128 .f32) (hfeats : feats.IsWhole)
    (sums : Memref sig .tc .vmem S2000x1 .f32) (hsums : sums.IsWhole)
    (res : Memref sig .tc .vmem S2000x128 .f32) (hres : res.IsWhole)
    (a : Vec F S2000x128 .f32) (s : Vec F S2000x1 .f32) (K : PUnit → sProp 𝕄) :
    (iprop(owns c feats fullShare a ∗ owns c sums fullShare s
        ∗ (∃ d, owns c res fullShare d)
        ∗ (iprop(owns c feats fullShare a ∗ owns c sums fullShare s
            ∗ owns c res fullShare (k4_pay1 s a)) -∗ K ⟨⟩)) : sProp 𝕄)
      ⊢ wp frame (wpE (defs₀ (F := F)) Variants.none c none) E (cc4__finalize_kernel i feats hfeats sums hsums res hres) K := by
  simp only [cc4__finalize_kernel_eq_skeleton]; unfold cc4__finalize_kernel_skel
  unfold owns
  iintro ⟨⟨%fa, %hfa, Ha⟩, ⟨%fs, %hfs, Hs⟩, ⟨%d, %fd, -, Hd⟩, Hk⟩
  subst hfa hfs
  sl_exec
  sl_step
  iapply Hk
  isplitl [Ha]; · iexists fa; isplitr; · ipureintro; rfl
                  iexact Ha
  isplitl [Hs]; · iexists fs; isplitr; · ipureintro; rfl
                  iexact Hs
  iexists _; isplitr; swap; · iexact Hd
  ipureintro
  rw [View.read_writes_eq_canon _ _ _
      (fun y => ⟨_, List.mem_singleton_self _, View.mem_set_unit_zero origin2 inb_S2000x128_S2000x128_0_0 y⟩),
    View.canon_unit_zero origin2, View.readAt_eq_ld, View.readAt_eq_ld,
    View.ld_unit_zero origin2, View.ld_unit_zero origin2]

def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => k4_pay1 (blk V c 1 t) (blk V c 0 t)
  Φ _ := Pipeline.ΦA spec4 c
  q _ := fullShare
  owed _ := 0

theorem dat_A (c : Dev nD) (w : Fin cfg4.W) : (dat V c).A w = V c (Pipeline.arrRef spec4 w) := rfl
theorem dat_q (c : Dev nD) (w : Fin cfg4.W) : (dat V c).q w = fullShare := rfl
theorem dat_owed (c : Dev nD) (t : Fin (cfg4.N + 1)) : (dat V c).owed t = 0 := rfl

theorem Φ_in (c : Dev nD) : (Pipeline.ΦA spec4 c : sProp 𝕄) ⊢ (dat V c).Φ 0 := .rfl
theorem Φ_out (c : Dev nD) : (dat V c).Φ (Fin.last _) ⊢ (Pipeline.ΦA spec4 c : sProp 𝕄) := .rfl

theorem after_feats (c : Dev nD) (t : Fin cfg4.N) : (dat V c).after 0 t = blk V c 0 t := rfl
theorem after_sums (c : Dev nD) (t : Fin cfg4.N) : (dat V c).after 1 t = blk V c 1 t := rfl
theorem after_res (c : Dev nD) (t : Fin cfg4.N) :
    (dat V c).after 2 t = k4_pay1 (blk V c 1 t) (blk V c 0 t) := rfl

theorem found_feats (c : Dev nD) (t : Fin cfg4.N) (d) : (dat V c).before 0 t d = blk V c 0 t :=
  (dat V c).before_in_eq_fetched 0 rfl (fun _ => rfl) (fun _ _ _ => rfl) (fun _ => rfl) t d

theorem found_sums (c : Dev nD) (t : Fin cfg4.N) (d) : (dat V c).before 1 t d = blk V c 1 t :=
  (dat V c).before_in_eq_fetched 1 rfl (fun _ => rfl) (fun _ _ _ => rfl) (fun _ => rfl) t d

theorem at_point (c : Dev nD) (t : Fin cfg4.N) :
    iprop((dat V c).Φ t.castSucc ∗ (dat V c).owesAt () t.castSucc
        ∗ (∃ d, owns c (st4_0 t) fullShare ((dat V c).before 0 t d))
        ∗ (∃ d, owns c (st4_1 t) fullShare ((dat V c).before 1 t d))
        ∗ (∃ d, owns c (st4_2 t) fullShare ((dat V c).before 2 t d)))
      ⊢ wp frame (wpE (defs₀ (F := F)) Variants.none c none) Set.univ (bodyAt4 t) (fun _ =>
          iprop((dat V c).Φ t.succ ∗ (dat V c).owesAt () t.succ
            ∗ owns c (st4_0 t) fullShare ((dat V c).after 0 t)
            ∗ owns c (st4_1 t) fullShare ((dat V c).after 1 t)
            ∗ owns c (st4_2 t) fullShare ((dat V c).after 2 t))) := by
  unfold bodyAt4
  simp only [found_feats, found_sums]
  rw [show (dat V c).Φ t.succ = (dat V c).Φ t.castSucc from rfl,
    show (dat V c).owesAt () t.succ = (dat V c).owesAt () t.castSucc from rfl,
    after_feats, after_sums, after_res]
  iintro ⟨HΦ, Ho, ⟨%d0, H0⟩, ⟨%d1, H1⟩, ⟨%d2, H2⟩⟩
  iapply (finalize_triple c Set.univ _ _ _ _ _ _ _ (blk V c 0 t) (blk V c 1 t) _)
  iframe H0 H1
  isplitl [H2]; · iexists _; iexact H2
  iintro ⟨H0, H1, H2⟩
  iframe

theorem obligation (c : Dev nD) : BodyObligation (dat (F := F) V c) (defs₀ (F := F)) Variants.none () Set.univ := fun t => by
  rw [bigSep_W4, bigSep_W4]
  exact at_point V c t

end Cert.KernelIdeal.Reg4

end
-- ==== Proof.KI.Vals.lean ====
import proofs.«430728_j7627861917709_1_alg».proof.Proof.KI.Reg0
import proofs.«430728_j7627861917709_1_alg».proof.Proof.KI.Reg1
import proofs.«430728_j7627861917709_1_alg».proof.Proof.KI.Reg2
import proofs.«430728_j7627861917709_1_alg».proof.Proof.KI.Reg3
import proofs.«430728_j7627861917709_1_alg».proof.Proof.KI.Reg4

noncomputable section

namespace Cert.KernelIdeal.Vals

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (Reg0.dat (V1 m) c).arrAt w cfg0.N

abbrev W3 : Dev nD → Valuation τ sig (Elt F) := fun c => StableHlo.after hostOps1 (W2 m c)

abbrev W4 : Dev nD → Valuation τ sig (Elt F) := fun c => StableHlo.after hostOps1_1 (W3 m c)

abbrev W5 : Dev nD → Valuation τ sig (Elt F) := fun c => StableHlo.after hostOps1_2 (W4 m c)
abbrev V5 : (c : Dev nD) → (b : Ref sig .tc) → Buf (Elt F) ((c : Thread nD τ).loc b) := fun c b => W5 m c b

def W6 (c : Dev nD) : Valuation τ sig (Elt F) :=
  Pipeline.withArrays spec1 c (W5 m c) fun w => (Reg1.dat (V5 m) c).arrAt w cfg1.N

abbrev W7 : Dev nD → Valuation τ sig (Elt F) := fun c => StableHlo.after hostOps2 (W6 m c)
abbrev V7 : (c : Dev nD) → (b : Ref sig .tc) → Buf (Elt F) ((c : Thread nD τ).loc b) := fun c b => W7 m c b

def W8 (c : Dev nD) : Valuation τ sig (Elt F) :=
  Pipeline.withArrays spec2 c (W7 m c) fun w => (Reg2.dat (V7 m) c).arrAt w cfg2.N

abbrev W9 : Dev nD → Valuation τ sig (Elt F) := fun c => StableHlo.after hostOps3 (W8 m c)
abbrev V9 : (c : Dev nD) → (b : Ref sig .tc) → Buf (Elt F) ((c : Thread nD τ).loc b) := fun c b => W9 m c b

def W10 (c : Dev nD) : Valuation τ sig (Elt F) :=
  Pipeline.withArrays spec3 c (W9 m c) fun w => (Reg3.dat (V9 m) c).arrAt w cfg3.N

abbrev W11 : Dev nD → Valuation τ sig (Elt F) := fun c => StableHlo.after hostOps4 (W10 m c)
abbrev V11 : (c : Dev nD) → (b : Ref sig .tc) → Buf (Elt F) ((c : Thread nD τ).loc b) := fun c b => W11 m c b

def W12 (c : Dev nD) : Valuation τ sig (Elt F) :=
  Pipeline.withArrays spec4 c (W11 m c) fun w => (Reg4.dat (V11 m) c).arrAt w cfg4.N

end Cert.KernelIdeal.Vals

end
-- ==== Proof.KI.Launch.lean ====
import proofs.«430728_j7627861917709_1_alg».proof.Proof.KI.Vals
import proofs.«430728_j7627861917709_1_alg».proof.Proof.KI.LibRegionHeld
import proofs.«430728_j7627861917709_1_alg».proof.Proof.Gen.KernelIdeal.Regions

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- `withArrays` changes a valuation only at the arrays of output windows. -/
theorem withArrays_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w)))
    (r : Ref sig .tc) (hr : ∀ w, (cfg.win w).isOut = true → Pipeline.arrRef cfg.spec w ≠ r) :
    Pipeline.withArrays cfg.spec c V (fun w => dat.arrAt w cfg.N) (Proc.devRef .tc r) = V (Proc.devRef .tc r) := by
  by_cases hw : ∃ w, Pipeline.arrRef cfg.spec w = r
  · obtain ⟨w, rfl⟩ := hw
    have hin : (cfg.win w).isOut = false := by
      cases hio : (cfg.win w).isOut
      · rfl
      · exact absurd rfl (hr w hio)
    exact (Pipeline.withArrays_arr cfg.spec hinj c V _ w).trans ((dat.arrAt_in w hin cfg.N).trans (hA w))
  · exact Pipeline.withArrays_of_ne cfg.spec c V _ r fun w e => hw ⟨w, e⟩

variable (m : (ℓ : Loc nD τ sig) → Buf (Elt F) ℓ) (ρ : Dev nD → PrngReg)

/-- No host operation writes `r`, `r` is no output window's array, and `r` is unscoped. -/
def Quiet (r : Ref sig .tc) : Prop :=
  (r ∉ hostOps0_W ∧ r ∉ hostOps1_W ∧ r ∉ hostOps1_1_W ∧ r ∉ hostOps1_2_W ∧ r ∉ hostOps2_W ∧ r ∉ hostOps3_W
      ∧ r ∉ hostOps4_W)
    ∧ ((∀ w, (cfg0.win w).isOut = true → Pipeline.arrRef spec0 w ≠ r)
      ∧ (∀ w, (cfg1.win w).isOut = true → Pipeline.arrRef spec1 w ≠ r)
      ∧ (∀ w, (cfg2.win w).isOut = true → Pipeline.arrRef spec2 w ≠ r)
      ∧ (∀ w, (cfg3.win w).isOut = true → Pipeline.arrRef spec3 w ≠ r)
      ∧ (∀ w, (cfg4.win w).isOut = true → Pipeline.arrRef spec4 w ≠ r))
    ∧ ¬ (Proc.devRef .tc r : DevRef τ sig).isScoped

instance (r : Ref sig .tc) : Decidable (Quiet r) := by unfold Quiet; infer_instance

/-- A quiet reference has at the end the value it had at launch: the twelve items walked back one by one. -/
theorem W12_launch (c : Dev nD) (r : Ref sig .tc) (h : Quiet r) :
    Vals.W12 m c (Proc.devRef .tc r) = m ((c : Thread nD τ).loc r) := by
  obtain ⟨⟨s0, s1, s2, s3, s4, s5, s6⟩, ⟨k0, k1, k2, k3, k4⟩, -⟩ := h
  calc Vals.W12 m c (Proc.devRef .tc r)
    _ = Vals.W11 m c (Proc.devRef .tc r) :=
      withArrays_keep (cfg := cfg4) _ launch4.win.arr_inj _ (Reg4.dat_A (Vals.V11 m) c) r k4
    _ = Vals.W10 m c (Proc.devRef .tc r) := StableHlo.after_of_writes_sub hostOps4 _ hostOps4_writes s6
    _ = Vals.W9 m c (Proc.devRef .tc r) :=
      withArrays_keep (cfg := cfg3) _ launch3.win.arr_inj _ (Reg3.dat_A (Vals.V9 m) c) r k3
    _ = Vals.W8 m c (Proc.devRef .tc r) := StableHlo.after_of_writes_sub hostOps3 _ hostOps3_writes s5
    _ = Vals.W7 m c (Proc.devRef .tc r) :=
      withArrays_keep (cfg := cfg2) _ launch2.win.arr_inj _ (Reg2.dat_A (Vals.V7 m) c) r k2
    _ = Vals.W6 m c (Proc.devRef .tc r) := StableHlo.after_of_writes_sub hostOps2 _ hostOps2_writes s4
    _ = Vals.W5 m c (Proc.devRef .tc r) :=
      withArrays_keep (cfg := cfg1) _ launch1.win.arr_inj _ (Reg1.dat_A (Vals.V5 m) c) r k1
    _ = Vals.W4 m c (Proc.devRef .tc r) := StableHlo.after_of_writes_sub hostOps1_2 _ hostOps1_2_writes s3
    _ = Vals.W3 m c (Proc.devRef .tc r) := StableHlo.after_of_writes_sub hostOps1_1 _ hostOps1_1_writes s2
    _ = Vals.W2 m c (Proc.devRef .tc r) := StableHlo.after_of_writes_sub hostOps1 _ hostOps1_writes s1
    _ = Vals.W1 m c (Proc.devRef .tc r) :=
      withArrays_keep (cfg := cfg0) _ launch0.win.arr_inj _ (Reg0.dat_A (Vals.V1 m) c) r k0
    _ = m ((c : Thread nD τ).loc r) := StableHlo.after_of_writes_sub hostOps0 _ hostOps0_writes s0

def pdats : (p : Fin 5) → (c : Dev nD) → Dat τ (Elt F) Unit ℕ (UR sig nD τ) ℕ (Pipeline.pin (pcfgs (F := F)) adm p) c
  | ⟨0, _⟩ => fun c => Reg0.dat (Vals.V1 m) c
  | ⟨1, _⟩ => fun c => Reg1.dat (Vals.V5 m) c
  | ⟨2, _⟩ => fun c => Reg2.dat (Vals.V7 m) c
  | ⟨3, _⟩ => fun c => Reg3.dat (Vals.V9 m) c
  | ⟨4, _⟩ => fun c => Reg4.dat (Vals.V11 m) c

abbrev 𝒱₀ : Variants := Variants.none
abbrev L : GSem nD τ sig → Finset Unit := fun _ => ∅
abbrev lv : GSem nD τ sig → Unit → ℕ := fun _ _ => 0

/-- A list of host operations as an item: it takes the valuation `W` to the operations' fold over `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W (fun c => Pipeline.idleRest c)

set_option backward.isDefEq.respectTransparency.types false

/-- Region `p` as an item, entered at the valuation `W`. -/
abbrev region (p : Fin 5) := Pipeline.RegionSeg.ofHeld (pcfgs (F := F)) adm (pdats m) defs₀ 𝒱₀ L lv p

def reg0 : Pipeline.RegionSeg (pcfgs (F := F)) adm (pdats m) () defs₀ 𝒱₀ L lv 0 :=
  region m 0 launch0.win launch0.block_pos launch0.arr_whole launch0.stage_whole
    (fun c => Pipeline.emp_prefHeld_of_no_table _ rfl c _ _) (Reg0.obligation (Vals.V1 m)) (Reg0.dat_q (Vals.V1 m))
    (Reg0.dat_owed (Vals.V1 m)) (fun c => rfl) (Vals.W1 m) (Reg0.dat_A (Vals.V1 m)) (Reg0.Φ_in (Vals.V1 m))
    (Reg0.Φ_out (Vals.V1 m))

def reg1 : Pipeline.RegionSeg (pcfgs (F := F)) adm (pdats m) () defs₀ 𝒱₀ L lv 1 :=
  region m 1 launch1.win launch1.block_pos launch1.arr_whole launch1.stage_whole
    (fun c => Pipeline.emp_prefHeld_of_no_table _ rfl c _ _) (Reg1.obligation (Vals.V5 m)) (Reg1.dat_q (Vals.V5 m))
    (Reg1.dat_owed (Vals.V5 m)) (fun c => rfl) (Vals.W5 m) (Reg1.dat_A (Vals.V5 m)) (Reg1.Φ_in (Vals.V5 m))
    (Reg1.Φ_out (Vals.V5 m))

def reg2 : Pipeline.RegionSeg (pcfgs (F := F)) adm (pdats m) () defs₀ 𝒱₀ L lv 2 :=
  region m 2 launch2.win launch2.block_pos launch2.arr_whole launch2.stage_whole
    (fun c => Pipeline.emp_prefHeld_of_no_table _ rfl c _ _) (Reg2.obligation (Vals.V7 m)) (Reg2.dat_q (Vals.V7 m))
    (Reg2.dat_owed (Vals.V7 m)) (fun c => rfl) (Vals.W7 m) (Reg2.dat_A (Vals.V7 m)) (Reg2.Φ_in (Vals.V7 m))
    (Reg2.Φ_out (Vals.V7 m))

def reg3 : Pipeline.RegionSeg (pcfgs (F := F)) adm (pdats m) () defs₀ 𝒱₀ L lv 3 :=
  region m 3 launch3.win launch3.block_pos launch3.arr_whole launch3.stage_whole
    (fun c => Pipeline.emp_prefHeld_of_no_table _ rfl c _ _) (Reg3.obligation (Vals.V9 m)) (Reg3.dat_q (Vals.V9 m))
    (Reg3.dat_owed (Vals.V9 m)) (fun c => rfl) (Vals.W9 m) (Reg3.dat_A (Vals.V9 m)) (Reg3.Φ_in (Vals.V9 m))
    (Reg3.Φ_out (Vals.V9 m))

def reg4 : Pipeline.RegionSeg (pcfgs (F := F)) adm (pdats m) () defs₀ 𝒱₀ L lv 4 :=
  region m 4 launch4.win launch4.block_pos launch4.arr_whole launch4.stage_whole
    (fun c => Pipeline.emp_prefHeld_of_no_table _ rfl c _ _) (Reg4.obligation (Vals.V11 m)) (Reg4.dat_q (Vals.V11 m))
    (Reg4.dat_owed (Vals.V11 m)) (fun c => rfl) (Vals.W11 m) (Reg4.dat_A (Vals.V11 m)) (Reg4.Φ_in (Vals.V11 m))
    (Reg4.Φ_out (Vals.V11 m))

/-- The main function's items in order, each starting from the valuation the item before it ends at. -/
abbrev items : List (Pipeline.Seg (pcfgs (F := F)) adm (pdats m) () defs₀ 𝒱₀ L lv) :=
  [ .host (stretch hostOps0 hostOps0_sub hostOps0_fresh (Vals.W0 m)),
    .region (reg0 m),
    .host (stretch hostOps1 hostOps1_sub hostOps1_fresh (Vals.W2 m)),
    .host (stretch hostOps1_1 hostOps1_1_sub hostOps1_1_fresh (Vals.W3 m)),
    .host (stretch hostOps1_2 hostOps1_2_sub hostOps1_2_fresh (Vals.W4 m)),
    .region (reg1 m),
    .host (stretch hostOps2 hostOps2_sub hostOps2_fresh (Vals.W6 m)),
    .region (reg2 m),
    .host (stretch hostOps3 hostOps3_sub hostOps3_fresh (Vals.W8 m)),
    .region (reg3 m),
    .host (stretch hostOps4 hostOps4_sub hostOps4_fresh (Vals.W10 m)),
    .region (reg4 m) ]

theorem main_items (c : Dev nD) : main (F := F) c = Pipeline.Seg.run (items m) := by
  rw [Pipeline.Seg.run_eq_chain]
  exact main_chain c

abbrev atEnd (c : Dev nD) : sProp 𝕄 :=
  iprop(StableHlo.held (c : Thread nD τ) (Pipeline.ucRefs τ sig) (Vals.W12 m c) ∗ ∃ g, prngReg c g)

theorem heldIdle_atEnd (c : Dev nD) :
    (Pipeline.heldIdle (Vals.W12 m) c : sProp 𝕄)
      ⊢ iprop(atEnd m c ∗ ∃ S, owes (c : Thread nD τ) (0 : CellTallies nD τ sig Unit) S) := by
  iintro ⟨Hbufs, Hgen, Howes⟩
  isplitr [Howes]
  · isplitl [Hbufs] <;> iassumption
  iexact Howes

/-- From any memory with every semaphore at zero the main function terminates on every core, and its final memory agrees
    with `Vals.W12` at every unscoped reference. -/
theorem run_all : θ_run defs (onTc (τ := τ) (main (F := F))) ⟨m, fun _ => 0, ρ⟩
    (fun r => ∀ c : Dev nD, ∀ b ∈ Pipeline.ucRefs τ sig, r.2.mem ((c : Thread nD τ).1, b) = Vals.W12 m c b) :=
  Pipeline.θ_run_regions_kit (pcfgs (F := F)) adm (pdats m) () cellOf_inj emb₁ defs₀ 𝒱₀ L lv m ρ main (items m)
    (fun c Q => by rw [main_items m c])
    (by show ([0, 1, 2, 3, 4] : List (Fin 5)).Nodup; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      iapply hnone
      iempintro)
    (T₀ := Pipeline.heldIdle (Vals.W0 m)) (Tₙ := atEnd m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => heldIdle_atEnd m c⟩)
    (hinit := by
      refine Pipeline.initEach L lv fun c => ?_
      rw [show unscopedBufs c (fun b => m ((c : Thread nD τ).loc b))
          = StableHlo.held (c : Thread nD τ) (Pipeline.ucRefs τ sig) (Vals.W0 m c) from Pipeline.unscopedBufs_held c (Vals.W0 m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem ((c : Thread nD τ).1, b) = Vals.W12 m c b)
    (hfin := fun c s' => by
      iintro ⟨⟨Hbufs, -⟩, HSI⟩
      unfold StableHlo.held
      imodintro
      iapply (pointsTo_read_all (Pipeline.ucRefs τ sig) (fun b => ((c : Thread nD τ).1, b)) (Vals.W12 m c) s')
      isplitl [Hbufs] <;> iassumption)
    (hQ := fun s h => h)

/-- A final memory that agrees with `Vals.W12` has every quiet reference at its launch contents. -/
theorem arg_kept {s : MemSt nD τ sig (Elt F)} {c : Dev nD}
    (h : ∀ b ∈ Pipeline.ucRefs τ sig, s.mem ((c : Thread nD τ).1, b) = Vals.W12 m c b) (r : Ref sig .tc) (hr : Quiet r) :
    s.mem ((c.tc : Thread nD τ).loc r) = m ((c.tc : Thread nD τ).loc r) :=
  (h _ (Finset.mem_filter.mpr ⟨StableHlo.devRef_mem_tcRefs r, hr.2.2⟩)).trans (W12_launch m c r hr)

/-- The thirteen arguments hold in `s` what they hold in `m`. -/
abbrev ArgsKept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)

theorem args_kept {s : MemSt nD τ sig (Elt F)} {c : Dev nD}
    (h : ∀ b ∈ Pipeline.ucRefs τ sig, s.mem ((c : Thread nD τ).1, b) = Vals.W12 m c b) : ArgsKept m s c :=
  ⟨arg_kept m h _ (by decide), arg_kept m h _ (by decide), arg_kept m h _ (by decide), arg_kept m h _ (by decide),
    arg_kept m h _ (by decide), arg_kept m h _ (by decide), arg_kept m h _ (by decide), arg_kept m h _ (by decide),
    arg_kept m h _ (by decide), arg_kept m h _ (by decide), arg_kept m h _ (by decide), arg_kept m h _ (by decide),
    arg_kept m h _ (by decide)⟩

/-- The run terminates and every argument array ends holding its launch contents. -/
theorem frame : θ_run defs (onTc (τ := τ) (main (F := F))) ⟨m, fun _ => 0, ρ⟩ (fun r => ∀ c : Dev nD, ArgsKept m r.2 c) :=
  (θ_run defs _ _).mono (fun r h c => args_kept m (h c)) (run_all m ρ)

/-- The same run with the result named: it ends at `Vals.W12`'s value there. -/
theorem run_value : θ_run defs (onTc (τ := τ) (main (F := F))) ⟨m, fun _ => 0, ρ⟩ (fun r => ∀ c : Dev nD,
      r.2.mem ((c.tc : Thread nD τ).loc main_v43) = Vals.W12 m c (Proc.devRef .tc main_v43) ∧ ArgsKept m r.2 c) :=
  (θ_run defs _ _).mono (fun r h c =>
    ⟨h c _ (Finset.mem_filter.mpr ⟨StableHlo.devRef_mem_tcRefs main_v43,
      (by decide : ¬ (Proc.devRef .tc main_v43 : DevRef τ sig).isScoped)⟩), args_kept m (h c)⟩) (run_all m ρ)

end Cert.KernelIdeal.Launch

end
-- ==== Proof.KI.Names.lean ====
import proofs.«430728_j7627861917709_1_alg».proof.Proof.KI.Vals
import Idealize.ShloMosaic.Lib.ValueIdx

noncomputable section

namespace Cert.KernelIdeal.Chain

open Cert.KernelIdeal Cert.KernelIdeal.Gen Cert.KernelIdeal.Vals
open Idealize.ShloMosaic Idealize.ShloMosaic.TcCoe
open Idealize.SL Idealize.SL.Sem

variable (m : (ℓ : Loc nD τ sig) → Buf (Elt Ideal) ℓ) (c : Dev nD)
abbrev a0 : Vec Ideal S50000x256 .f32 := m ((c.tc : Thread nD τ).loc main_arg0)
abbrev a1 : Vec Ideal S256x128 .f32 := m ((c.tc : Thread nD τ).loc main_arg1)
abbrev a2 : Vec Ideal S128x64 .f32 := m ((c.tc : Thread nD τ).loc main_arg2)
abbrev a3 : Vec Ideal S64 .f32 := m ((c.tc : Thread nD τ).loc main_arg3)
abbrev a4 : Vec Ideal S64 .f32 := m ((c.tc : Thread nD τ).loc main_arg4)
abbrev a5 : Vec Ideal S64 .f32 := m ((c.tc : Thread nD τ).loc main_arg5)
abbrev a6 : Vec Ideal S64x32 .f32 := m ((c.tc : Thread nD τ).loc main_arg6)
abbrev a7 : Vec Ideal S32 .f32 := m ((c.tc : Thread nD τ).loc main_arg7)
abbrev a8 : Vec Ideal S32 .f32 := m ((c.tc : Thread nD τ).loc main_arg8)
abbrev a9 : Vec Ideal S32 .f32 := m ((c.tc : Thread nD τ).loc main_arg9)
abbrev a10 : Vec Ideal S32x1 .f32 := m ((c.tc : Thread nD τ).loc main_arg10)
abbrev a11 : Vec Ideal S1 .f32 := m ((c.tc : Thread nD τ).loc main_arg11)
abbrev a12 : IVec S2x800000 32 := m ((c.tc : Thread nD τ).loc main_arg12)

def InRange (x12 : IVec S2x800000 32) : Prop :=
  ∀ (r : Fin 2) (e : Fin 800000), 0 ≤ (x12 (ValueIdx.ix2 r e)).toInt ∧ (x12 (ValueIdx.ix2 r e)).toInt < 50000

abbrev hK : Vec Ideal S50000x128 .f32 := W2 m c main_v4

abbrev srcK : IVec S800000 32 := W1 m c main_v1
abbrev dstK : IVec S800000 32 := W1 m c main_v3

abbrev hdK : Vec Ideal S800000x128 .f32 := W5 m c main_v6
abbrev ehK : Vec Ideal S800000x128 .f32 := W5 m c main_v8

abbrev sum1K : Vec Ideal S1x64 .f32 := W6 m c main_v17_0
abbrev sumsq1K : Vec Ideal S1x64 .f32 := W6 m c main_v17_1
abbrev mean1K : Vec Ideal S1x64 .f32 := W7 m c main_v19
abbrev var1K : Vec Ideal S1x64 .f32 := W7 m c main_v23

abbrev z1K : Vec Ideal S800000x64 .bf16 := W8 m c main_v24_0
abbrev sum2K : Vec Ideal S1x32 .f32 := W8 m c main_v24_1
abbrev sumsq2K : Vec Ideal S1x32 .f32 := W8 m c main_v24_2
abbrev mean2K : Vec Ideal S1x32 .f32 := W9 m c main_v26
abbrev var2K : Vec Ideal S1x32 .f32 := W9 m c main_v30

abbrev sameK : Vec Ideal S800000x1 .f32 := W9 m c main_v33

abbrev eeK : Vec Ideal S800000x1 .f32 := W10 m c main_v34_0
abbrev whK : Vec Ideal S800000x128 .f32 := W10 m c main_v34_1
abbrev hpK : Vec Ideal S50000x128 .f32 := W11 m c main_v41
abbrev rsK : Vec Ideal S50000x1 .f32 := W11 m c main_v42

abbrev outK : Vec Ideal S50000x128 .f32 := W12 m c main_v43

end Cert.KernelIdeal.Chain

end
-- ==== Proof.Spec.lean ====
import Idealize.ShloMosaic.PureOps.Ideal
import Idealize.ShloMosaic.Lib.ValueIdx

noncomputable section

namespace Cert.Spec

open Idealize.ShloMosaic

def zeroF : EReal := Ideal.ofBits .f32 0x00000000#32

def slope : EReal := Ideal.ofBits .f32 0x3E4CCCCD#32

def epsF : EReal := Ideal.ofBits .f32 0x3727C5AC#32

def cntF : EReal := Ideal.ofBits .f32 0x49435000#32

def oneF : EReal := Ideal.ofBits .f32 0x3F800000#32

def lrelu (v : EReal) : EReal := Scalar.select (Ideal.cmp .ogt v zeroF) v (slope * v)

def bn (v mean var g b : EReal) : EReal := (v - mean) * Ideal.rsqrt (var + epsF) * g + b

def fixDen (s : EReal) : EReal := Scalar.select (Ideal.cmp .oeq s zeroF) oneF s

end Cert.Spec

end
-- ==== Proof.KI.Val0.lean ====
import proofs.«430728_j7627861917709_1_alg».proof.Proof.KI.Reg0
import proofs.«430728_j7627861917709_1_alg».proof.Proof.Spec
import Idealize.ShloMosaic.Lib.ValueIdx
import Idealize.ShloMosaic.Lib.Pipeline.Value
import Idealize.ShloMosaic.PureOps.Ideal.Laws

noncomputable section

namespace Cert.KernelIdeal.Val0

open Cert.KernelIdeal Cert.KernelIdeal.Gen
open Idealize.ShloMosaic Idealize.ShloMosaic.TcCoe Idealize.ShloMosaic.ValueIdx
open Idealize.SL Idealize.SL.Sem

abbrev D0 := dot_S2000x256_S256x128_S2000x128_1_0_0_1_n_n

-- A rank-2 index is determined by its two coordinates.
theorem ix2_ext {n0 n1 : Nat} (i : (⟨2, ![n0, n1]⟩ : Shape).Idx) (p : Fin n0) (q : Fin n1)
    (h0 : (i 0).val = p.val) (h1 : (i 1).val = q.val) : i = ix2 p q :=
  funext fun a => Fin.ext (match a with | ⟨0, _⟩ => h0 | ⟨1, _⟩ => h1)

theorem lhs_axis0 (i : S2000x128.Idx) (u : D0.contr.Idx) :
    (D0.lhsIdx i u 0).val = (i 0).val := by
  unfold DotDims.lhsIdx
  rw [dif_neg (show ¬(0 : Fin S2000x256.rank) ∈ D0.lhsBatch by decide),
    dif_pos (show (0 : Fin S2000x256.rank) ∈ D0.lhsNonContracting by decide)]
  rfl

theorem rhs_axis1 (i : S2000x128.Idx) (u : D0.contr.Idx) :
    (D0.rhsIdx i u 1).val = (i 1).val := by
  unfold DotDims.rhsIdx
  rw [dif_neg (show ¬(1 : Fin S256x128.rank) ∈ D0.rhsBatch by decide),
    dif_pos (show (1 : Fin S256x128.rank) ∈ D0.rhsNonContracting by decide)]
  rfl

theorem pay_apply (x : Vec Ideal S2000x256 .f32) (w : Vec Ideal S256x128 .f32) (p : Fin 2000) (q : Fin 128) :
    k0_pay1 (F := Ideal) x w (ix2 p q) = ∑ k : Fin 256, x (ix2 p k) * w (ix2 k q) := by
  unfold k0_pay1
  refine (Ideal.matmul_constant_zero_apply D0 none _ _ (ix2 p q)).trans ?_
  rw [← Equiv.sum_comp (contrEquiv1 D0 256 rfl rfl).symm]
  refine Finset.sum_congr rfl fun k _ => ?_
  have hk := contrEquiv1_symm_val D0 256 rfl rfl k
  show x (D0.lhsIdx (ix2 p q) _) * w (D0.rhsIdx (ix2 p q) _) = _
  exact congrArg₂ (fun u v => x u * w v) (ix2_ext _ _ _ (lhs_axis0 _ _) ((D0.lhsIdx_val_of_single rfl _ _).trans hk))
    (ix2_ext _ _ _ ((D0.rhsIdx_val_of_single rfl _ _).trans hk) (rhs_axis1 _ _))

theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem out_covered (i : S50000x128.Idx) :
    ∃ t : Fin cfg0.N, (cfg0.win 2).flush t = true ∧ i ∈ ((cfg0.win 2).blk t).view.set := by
  have hr : (i 0).val < 50000 := idx2_lt0 i
  have hc : (i 1).val < 128 := idx2_lt1 i
  have hN : cfg0.N = 25 := N_0
  obtain ⟨t, ht⟩ : ∃ t : Fin cfg0.N, t.val = (i 0).val / 2000 := ⟨⟨_, by omega⟩, rfl⟩
  obtain ⟨-, -, -, -, e0, e1⟩ := block_index t
  refine ⟨t, flush0_2 _, ?_⟩
  show i ∈ ((View.whole main_v4).slice (win0_2.rect t)).set
  rw [View.set_slice_whole, Rect.mem_set_unit]
  refine fun a => ?_
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

variable (V : (c : Dev nD) → (b : Ref sig .tc) → Buf (Elt Ideal) ((c : Thread nD τ).loc b)) (c : Dev nD)

abbrev xA : Vec Ideal S50000x256 .f32 := V c main_arg0
abbrev wA : Vec Ideal S256x128 .f32 := V c main_arg1
abbrev outA : Vec Ideal S50000x128 .f32 := (Reg0.dat (F := Ideal) V c).arrAt 2 cfg0.N

def proj : Vec Ideal S50000x128 .f32 := fun i =>
  ∑ k : Fin 256, xA V c (ix2 ⟨(i 0).val, idx2_lt0 i⟩ k) * wA V c (ix2 k ⟨(i 1).val, idx2_lt1 i⟩)

-- Block t of the product is rows 2000 t … 2000 t + 1999 of x times w: element (p, q) of the block sits at row 2000 t + p.
theorem flushed_eq (t : Fin cfg0.N) :
    (Reg0.dat (F := Ideal) V c).flushed 2 t = ((cfg0.win 2).blk t).view.read (Elt Ideal) (proj V c) := by
  show (cfg0.win 2).cut (grid0.coords t) ((Reg0.dat (F := Ideal) V c).after 2 t) = _
  rw [Reg0.after_out]
  refine funext fun (y : S2000x128.Idx) => ?_
  obtain ⟨p, q, rfl⟩ : ∃ (p : Fin 2000) (q : Fin 128), y = ix2 p q := ⟨y 0, y 1, eq_ix2 y⟩
  have ht : t.val < 25 := lt_of_lt_of_eq t.isLt N_0
  obtain ⟨a0, a1, b0, b1, o0, o1⟩ := block_index t
  have ho : (((cfg0.win 2).blk t).view.emb (ix2 p q) : S50000x128.Idx) = ix2 (⟨t.val * 2000 + p.val, by omega⟩ : Fin 50000) q :=
    ix2_ext _ _ _ (by show win0_2.index t (0 : Fin 2) * 2000 + 1 * p.val = t.val * 2000 + p.val; omega)
      (by show win0_2.index t (1 : Fin 2) * 128 + 1 * q.val = q.val; omega)
  refine (pay_apply (Reg0.blk V c 0 t) (Reg0.blk V c 1 t) p q).trans (Eq.trans ?_ (congrArg (proj V c) ho).symm)
  refine Finset.sum_congr rfl fun k _ => congrArg₂ (· * ·) ?_ ?_
  · show V c main_arg0 (((cfg0.win 0).blk t).view.emb (ix2 p k)) = _
    exact congrArg _ (ix2_ext _ _ _ (by show win0_0.index t (0 : Fin 2) * 2000 + 1 * p.val = t.val * 2000 + p.val; omega)
      (by show win0_0.index t (1 : Fin 2) * 256 + 1 * k.val = k.val; omega))
  · show V c main_arg1 (((cfg0.win 1).blk t).view.emb (ix2 k q)) = _
    exact congrArg _ (ix2_ext _ _ _ (by show win0_1.index t (0 : Fin 2) * 256 + 1 * k.val = k.val; omega)
      (by show win0_1.index t (1 : Fin 2) * 128 + 1 * q.val = q.val; omega))

theorem out_eq : outA V c = proj V c :=
  (Reg0.dat (F := Ideal) V c).arrAt_eq_of_cover 2 (proj V c) (fun t _ => flushed_eq V c t) out_covered

theorem arr_out (r : Fin 50000) (j : Fin 128) :
    outA V c (ix2 r j) = ∑ k : Fin 256, xA V c (ix2 r k) * wA V c (ix2 k j) :=
  (congrFun (out_eq V c) (ix2 r j)).trans rfl

end Cert.KernelIdeal.Val0

end
-- ==== Proof.Algebra.lean ====
import Idealize.ShloMosaic.PureOps.Ideal.Laws
import Idealize.ShloMosaic.Lib.ValueIdx
import proofs.«430728_j7627861917709_1_alg».proof.Proof.Spec

noncomputable section

namespace Cert.Algebra

open Idealize.ShloMosaic

theorem sum_blocks_gen {M : Type*} [AddCommMonoid M] (nB sz : ℕ) (f : Fin (nB * sz) → M)
    (hlt : ∀ (t : Fin nB) (r : Fin sz), sz * t.val + r.val < nB * sz) :
    (∑ t : Fin nB, ∑ r : Fin sz, f ⟨sz * t.val + r.val, hlt t r⟩) = ∑ e : Fin (nB * sz), f e := by
  rw [← Equiv.sum_comp finProdFinEquiv f, Fintype.sum_prod_type]
  refine Finset.sum_congr rfl fun t _ => Finset.sum_congr rfl fun r _ => congrArg f (Fin.ext ?_)
  show sz * t.val + r.val = r.val + sz * t.val
  exact Nat.add_comm _ _

theorem sum_blocks {M : Type*} [AddCommMonoid M] (f : Fin 800000 → M) :
    (∑ t : Fin 250, ∑ r : Fin 3200, f ⟨3200 * t.val + r.val, by omega⟩) = ∑ e : Fin 800000, f e :=
  sum_blocks_gen 250 3200 f fun t r => by omega

theorem zeroF_eq : Cert.Spec.zeroF = 0 := by
  simp [Cert.Spec.zeroF, Ideal.ofBits, Ideal.ieee]

theorem cntF_eq : Cert.Spec.cntF = ((800000 : ℝ) : EReal) := by
  simp [Cert.Spec.cntF, Ideal.ofBits, Ideal.ieee, -EReal.coe_mul]; norm_num

theorem epsF_pos : ∃ ε : ℝ, 0 < ε ∧ Cert.Spec.epsF = (ε : EReal) := by
  refine ⟨10995116 * (2 : ℝ) ^ (-40 : ℤ), by positivity, ?_⟩
  simp [Cert.Spec.epsF, Ideal.ofBits, Ideal.ieee, -EReal.coe_mul]

theorem slope_real : ∃ s : ℝ, Cert.Spec.slope = (s : EReal) := by
  refine ⟨13421773 * (2 : ℝ) ^ (-26 : ℤ), ?_⟩
  simp [Cert.Spec.slope, Ideal.ofBits, Ideal.ieee, -EReal.coe_mul]

def IsReal (x : EReal) : Prop := ∃ r : ℝ, x = (r : EReal)

theorem isReal_coe (r : ℝ) : IsReal (r : EReal) := ⟨r, rfl⟩

theorem isReal_zero : IsReal 0 := ⟨0, rfl⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace IsReal

variable {x y : EReal}

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

theorem neg (hx : IsReal x) : IsReal (-x) := by
  obtain ⟨a, rfl⟩ := hx; exact ⟨-a, (EReal.coe_neg a).symm⟩

theorem sum {ι : Type*} (s : Finset ι) (f : ι → EReal) (h : ∀ i ∈ s, IsReal (f i)) : IsReal (∑ i ∈ s, f i) :=
  Finset.sum_induction f IsReal (fun _ _ => add) isReal_zero h

theorem max (hx : IsReal x) (hy : IsReal y) : IsReal (max x y) := by
  rcases max_choice x y with h | h <;> rw [h] <;> assumption

theorem div_cnt (hx : IsReal x) : IsReal (Ideal.div x Cert.Spec.cntF) := by
  obtain ⟨a, rfl⟩ := hx
  rw [cntF_eq, Ideal.div_coe (by norm_num)]
  exact ⟨a * (1 / 800000), (EReal.coe_mul _ _).symm⟩

end IsReal

theorem div_cnt_coe (a : ℝ) : Ideal.div (a : EReal) Cert.Spec.cntF = ((a / 800000 : ℝ) : EReal) := by
  rw [cntF_eq, Ideal.div_coe (by norm_num), ← EReal.coe_mul, mul_one_div]

theorem rsqrt_pos_real (p : ℝ) (hp : 0 < p) : Ideal.rsqrt (p : EReal) = (((Real.sqrt p)⁻¹ : ℝ) : EReal) := by
  rw [Ideal.rsqrt_coe, if_neg (not_lt.mpr hp.le), if_neg hp.ne']

theorem real_var {n : ℕ} (hn : (n : ℝ) ≠ 0) (v : Fin n → ℝ) :
    (∑ e, (v e - (∑ e, v e) / n) * (v e - (∑ e, v e) / n)) / n
      = (∑ e, v e * v e) / n - (∑ e, v e) / n * ((∑ e, v e) / n) := by
  have hS : ∑ e, v e = n * ((∑ e, v e) / n) := by field_simp
  generalize (∑ e, v e) / (n : ℝ) = m at hS ⊢
  have hexp : ∑ e, (v e - m) * (v e - m) = ∑ e, v e * v e - n * m * m := by
    simp only [sub_mul, mul_sub, Finset.sum_sub_distrib, ← Finset.sum_mul, ← Finset.mul_sum, Finset.sum_const,
      Finset.card_univ, Fintype.card_fin, nsmul_eq_mul, hS]
    ring
  rw [hexp]
  field_simp

theorem var_eq (col : Fin 800000 → EReal) (hfin : ∀ e, ∃ x : ℝ, col e = (x : EReal)) :
    Ideal.div (∑ e, (col e - Ideal.div (∑ e, col e) Cert.Spec.cntF) * (col e - Ideal.div (∑ e, col e) Cert.Spec.cntF))
        Cert.Spec.cntF
      = Ideal.div (∑ e, col e * col e) Cert.Spec.cntF
        - Ideal.div (∑ e, col e) Cert.Spec.cntF * Ideal.div (∑ e, col e) Cert.Spec.cntF := by
  choose v hv using hfin
  obtain rfl : col = fun e => ((v e : ℝ) : EReal) := funext hv
  simp only [← coe_sum, div_cnt_coe, ← EReal.coe_sub, ← EReal.coe_mul]
  have h := real_var (n := 800000) (by norm_num) v
  norm_num at h
  rw [h]

theorem var_add_eps_pos (col : Fin 800000 → EReal) (hfin : ∀ e, ∃ x : ℝ, col e = (x : EReal)) :
    ∃ p : ℝ, 0 < p ∧
      Ideal.div (∑ e, (col e - Ideal.div (∑ e, col e) Cert.Spec.cntF) * (col e - Ideal.div (∑ e, col e) Cert.Spec.cntF))
        Cert.Spec.cntF + Cert.Spec.epsF = (p : EReal) := by
  choose v hv using hfin
  obtain rfl : col = fun e => ((v e : ℝ) : EReal) := funext hv
  obtain ⟨ε, hε, he⟩ := epsF_pos
  simp only [← coe_sum, div_cnt_coe, ← EReal.coe_sub, ← EReal.coe_mul]
  rw [he, ← EReal.coe_add]
  exact ⟨_, add_pos_of_nonneg_of_pos (div_nonneg (Finset.sum_nonneg fun e _ => mul_self_nonneg _) (by norm_num)) hε, rfl⟩

end Cert.Algebra

end
-- ==== Proof.KI.Val1.lean ====
import proofs.«430728_j7627861917709_1_alg».proof.Proof.KI.Reg1
import proofs.«430728_j7627861917709_1_alg».proof.Proof.Spec
import proofs.«430728_j7627861917709_1_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val1

open Cert.KernelIdeal Cert.KernelIdeal.Gen
open Idealize.ShloMosaic Idealize.ShloMosaic.TcCoe Idealize.ShloMosaic.ValueIdx
open Idealize.SL Idealize.SL.Sem

section Payloads

-- A rank-2 index is determined by its two coordinates.
theorem ix2_ext {n0 n1 : Nat} (i : (⟨2, ![n0, n1]⟩ : Shape).Idx) (p : Fin n0) (q : Fin n1)
    (h0 : (i 0).val = p.val) (h1 : (i 1).val = q.val) : i = ix2 p q :=
  funext fun a => Fin.ext (match a with | ⟨0, _⟩ => h0 | ⟨1, _⟩ => h1)

abbrev DD := dot_S3200x128_S128x64_S3200x64_1_0_0_1_n_n

theorem lhsAx0 (i : S3200x64.Idx) (q : DD.contr.Idx) : (DD.lhsIdx i q 0).val = (i 0).val := by
  unfold DotDims.lhsIdx
  rw [dif_neg (show ¬(0 : Fin S3200x128.rank) ∈ DD.lhsBatch by decide), dif_pos (show (0 : Fin S3200x128.rank) ∈ DD.lhsNonContracting by decide)]
  rfl
theorem rhsAx1 (i : S3200x64.Idx) (q : DD.contr.Idx) : (DD.rhsIdx i q 1).val = (i 1).val := by
  unfold DotDims.rhsIdx
  rw [dif_neg (show ¬(1 : Fin S128x64.rank) ∈ DD.rhsBatch by decide), dif_pos (show (1 : Fin S128x64.rank) ∈ DD.rhsNonContracting by decide)]
  rfl

variable (x0 : Vec Ideal S3200x128 .f32) (x1 : Vec Ideal S128x64 .f32) (x2 : Vec Ideal S1x64 .f32) (p : Vec Ideal S1x64 .f32)

theorem prod_apply (a : FVec Ideal S3200x128 .bf16) (b : FVec Ideal S128x64 .bf16) (r : Fin 3200) (j : Fin 64) :
    matmul DD none a b (constant (F := Ideal) S3200x64 .f32 0x00000000#32) (ix2 r j) = ∑ k : Fin 128, a (ix2 r k) * b (ix2 k j) := by
  refine (Ideal.matmul_constant_zero_apply DD none a b (ix2 r j)).trans ?_
  rw [← Equiv.sum_comp (contrEquiv1 DD 128 rfl rfl).symm]
  refine Finset.sum_congr rfl fun k _ => ?_
  have hk := contrEquiv1_symm_val DD 128 rfl rfl k
  exact congrArg₂ (fun u w => a u * b w) (ix2_ext _ _ _ (lhsAx0 _ _) ((DD.lhsIdx_val_of_single rfl _ _).trans hk))
    (ix2_ext _ _ _ ((DD.rhsIdx_val_of_single rfl _ _).trans hk) (rhsAx1 _ _))

theorem lin_apply (r : Fin 3200) (j : Fin 64) :
    k1_pay3 x0 x1 x2 (ix2 r j) = (∑ k : Fin 128, x0 (ix2 r k) * x1 (ix2 k j)) + x2 (ix2 (0 : Fin 1) j) := by
  unfold k1_pay3
  refine (addf_apply _ _ (ix2 r j)).trans ?_
  refine congrArg₂ (· + ·) ?_ ?_
  · refine (prod_apply _ _ r j).trans ?_
    refine Finset.sum_congr rfl fun k _ => ?_
    rw [shapeCast_self]
    rfl
  · refine (broadcastTo_1b_ab_apply _ _ r j).trans ?_
    rw [shapeCast_self]

theorem colsum_apply (y : FVec Ideal S3200x64 .f32) (j : Fin 64) :
    shapeCast S1x64 (multiReduction (F := Ideal) .add [0] S64 y 0x00000000#32 reduces_S3200x64_S64 (.inl rfl) rfl) shapeCasts_S64_S1x64 (ix2 (0 : Fin 1) j)
      = ∑ r : Fin 3200, y (ix2 r j) := by
  refine (shapeCast_a_1a_apply _ _ (0 : Fin 1) j).trans ?_
  refine (Ideal.multiReduction_add_single y 0x00000000#32 reduces_S3200x64_S64 (.inl rfl) rfl (ix1 j)).trans ?_
  exact Finset.sum_congr rfl fun r _ => congrArg y (ix2_ext _ _ _ rfl rfl)

theorem sum_step_apply (j : Fin 64) :
    k1_pay4 x0 x1 x2 p (ix2 (0 : Fin 1) j) = p (ix2 (0 : Fin 1) j) + ∑ r : Fin 3200, k1_pay3 x0 x1 x2 (ix2 r j) := by
  unfold k1_pay4
  dsimp only
  rw [shapeCast_self]
  refine (addf_apply _ _ (ix2 (0 : Fin 1) j)).trans ?_
  exact congrArg (p (ix2 (0 : Fin 1) j) + ·) (colsum_apply _ j)

theorem sq_step_apply (j : Fin 64) :
    k1_pay5 x0 x1 x2 p (ix2 (0 : Fin 1) j)
      = p (ix2 (0 : Fin 1) j) + ∑ r : Fin 3200, k1_pay3 x0 x1 x2 (ix2 r j) * k1_pay3 x0 x1 x2 (ix2 r j) := by
  unfold k1_pay5
  dsimp only
  rw [shapeCast_self]
  refine (addf_apply _ _ (ix2 (0 : Fin 1) j)).trans ?_
  refine congrArg (p (ix2 (0 : Fin 1) j) + ·) ((colsum_apply _ j).trans ?_)
  exact Finset.sum_congr rfl fun r _ => mulf_apply _ _ (ix2 r j)

theorem zero_row1 (j : Fin 64) : (k1_pay1 (F := Ideal)) (ix2 (0 : Fin 1) j) = 0 := by
  unfold k1_pay1
  rw [shapeCast_self]
  exact Ideal.ofBits_zero_f32
theorem zero_row2 (j : Fin 64) : (k1_pay2 (F := Ideal)) (ix2 (0 : Fin 1) j) = 0 := by
  unfold k1_pay2
  rw [shapeCast_self]
  exact Ideal.ofBits_zero_f32

end Payloads

variable (V : (c : Dev nD) → (b : Ref sig .tc) → Buf (Elt Ideal) ((c : Thread nD τ).loc b)) (c : Dev nD)

abbrev ehA : Vec Ideal S800000x128 .f32 := V c main_v8
abbrev a1wA : Vec Ideal S128x64 .f32 := V c main_arg2
abbrev a1bA : Vec Ideal S1x64 .f32 := V c main_v9
abbrev sumA : Vec Ideal S1x64 .f32 := (Reg1.dat (F := Ideal) V c).arrAt 3 cfg1.N
abbrev sumsqA : Vec Ideal S1x64 .f32 := (Reg1.dat (F := Ideal) V c).arrAt 4 cfg1.N

def v1 (e : Fin 800000) (j : Fin 64) : EReal := (∑ k : Fin 128, ehA V c (ix2 e k) * a1wA V c (ix2 k j)) + a1bA V c (ix2 0 j)

theorem index1 : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 := by decide +kernel

def edge (t : Fin cfg1.N) (r : Fin 3200) : Fin 800000 := ⟨3200 * t.val + r.val, by have := Reg1.lt250 t; omega⟩

theorem lin_blk (t : Fin cfg1.N) (r : Fin 3200) (j : Fin 64) :
    k1_pay3 (Reg1.eblk V c t) (Reg1.wblk V c t) (Reg1.bblk V c t) (ix2 r j) = v1 V c (edge t r) j := by
  obtain ⟨e0, e1, w0, w1, b0, b1⟩ := index1 t
  refine (lin_apply _ _ _ r j).trans (congrArg₂ (· + ·) (Finset.sum_congr rfl fun k _ => congrArg₂ (· * ·) ?_ ?_) ?_)
  · show V c main_v8 (((cfg1.win 0).blk t).view.emb (ix2 r k)) = _
    exact congrArg _ (ix2_ext _ _ _ (by show win1_0.index t (0 : Fin 2) * 3200 + 1 * r.val = 3200 * t.val + r.val; omega)
      (by show win1_0.index t (1 : Fin 2) * 128 + 1 * k.val = k.val; omega))
  · show V c main_arg2 (((cfg1.win 1).blk t).view.emb (ix2 k j)) = _
    exact congrArg _ (ix2_ext _ _ _ (by show win1_1.index t (0 : Fin 2) * 128 + 1 * k.val = k.val; omega)
      (by show win1_1.index t (1 : Fin 2) * 64 + 1 * j.val = j.val; omega))
  · show V c main_v9 (((cfg1.win 2).blk t).view.emb (ix2 (0 : Fin 1) j)) = _
    exact congrArg _ (ix2_ext _ _ _ (by show win1_2.index t (0 : Fin 2) * 1 + 1 * 0 = 0; omega)
      (by show win1_2.index t (1 : Fin 2) * 64 + 1 * j.val = j.val; omega))

-- A running sum that starts at 0 and adds one block of 3200 terms per step is, after 250 steps, the sum of all 800000 terms.
theorem acc_apply (acc : ℕ → Vec Ideal S1x64 .f32) (g : Fin 800000 → EReal) (j : Fin 64)
    (h0 : acc 0 (ix2 (0 : Fin 1) j) = 0)
    (hs : ∀ t : Fin cfg1.N, acc (t.val + 1) (ix2 (0 : Fin 1) j) = acc t.val (ix2 (0 : Fin 1) j) + ∑ r : Fin 3200, g (edge t r)) :
    acc 250 (ix2 (0 : Fin 1) j) = ∑ e : Fin 800000, g e := by
  have key : ∀ n (hn : n ≤ 250), acc n (ix2 (0 : Fin 1) j)
      = ∑ t : Fin n, ∑ r : Fin 3200, g ⟨3200 * t.val + r.val, by omega⟩ := by
    intro n
    induction n with
    | zero => exact fun _ => h0.trans (Fin.sum_univ_zero _).symm
    | succ n ih =>
      intro hn
      rw [Fin.sum_univ_castSucc]
      exact (hs ⟨n, lt_of_lt_of_eq (by omega : n < 250) N_1.symm⟩).trans (congrArg₂ (· + ·) (ih (by omega)) rfl)
  exact (key 250 le_rfl).trans (Cert.Algebra.sum_blocks g)

def tL : Fin cfg1.N := ⟨249, lt_of_lt_of_eq (by decide : 249 < 250) N_1.symm⟩

theorem sumA_eq : sumA V c = Reg1.accS V c 250 := by
  show (Reg1.dat V c).arrAt 3 cfg1.N = _
  rw [show cfg1.N = tL.val + 1 from N_1, (Reg1.dat V c).arrAt_succ 3 tL, if_pos ((flush1_3 tL).mpr rfl)]
  have hz : (fun a => (win1_3.index tL) a * main_v17_0.ty.shape.size a) = fun _ => 0 := funext fun a => by fin_cases a <;> decide
  exact (Memref.write_access_unit_zero_univ (Elt Ideal) main_v17_0 hz (fun a => by fin_cases a <;> decide) _ _).trans (Reg1.after_3 V c tL)

theorem sumsqA_eq : sumsqA V c = Reg1.accQ V c 250 := by
  show (Reg1.dat V c).arrAt 4 cfg1.N = _
  rw [show cfg1.N = tL.val + 1 from N_1, (Reg1.dat V c).arrAt_succ 4 tL, if_pos ((flush1_4 tL).mpr rfl)]
  have hz : (fun a => (win1_4.index tL) a * main_v17_1.ty.shape.size a) = fun _ => 0 := funext fun a => by fin_cases a <;> decide
  exact (Memref.write_access_unit_zero_univ (Elt Ideal) main_v17_1 hz (fun a => by fin_cases a <;> decide) _ _).trans (Reg1.after_4 V c tL)

theorem arr_sum (j : Fin 64) : sumA V c (ix2 0 j) = ∑ e : Fin 800000, v1 V c e j := by
  rw [sumA_eq]
  exact acc_apply (Reg1.accS V c) (fun e => v1 V c e j) j ((congrFun (Reg1.accS_zero V c) _).trans (zero_row1 j))
    fun t => (congrFun (Reg1.accS_succ V c t) _).trans ((sum_step_apply _ _ _ _ j).trans
      (congrArg (_ + ·) (Finset.sum_congr rfl fun r _ => lin_blk V c t r j)))

theorem arr_sumsq (j : Fin 64) : sumsqA V c (ix2 0 j) = ∑ e : Fin 800000, v1 V c e j * v1 V c e j := by
  rw [sumsqA_eq]
  exact acc_apply (Reg1.accQ V c) (fun e => v1 V c e j * v1 V c e j) j ((congrFun (Reg1.accQ_zero V c) _).trans (zero_row2 j))
    fun t => (congrFun (Reg1.accQ_succ V c t) _).trans ((sq_step_apply _ _ _ _ j).trans
      (congrArg (_ + ·) (Finset.sum_congr rfl fun r _ => congrArg₂ (· * ·) (lin_blk V c t r j) (lin_blk V c t r j))))

end Cert.KernelIdeal.Val1

end
-- ==== Proof.KI.ChainFront.lean ====
import proofs.«430728_j7627861917709_1_alg».proof.Proof.KI.Names
import proofs.«430728_j7627861917709_1_alg».proof.Proof.KI.Val0
import proofs.«430728_j7627861917709_1_alg».proof.Proof.KI.Val1
import proofs.«430728_j7627861917709_1_alg».proof.Proof.RefRead
import proofs.«430728_j7627861917709_1_alg».proof.Proof.Gen.KernelIdeal.Regions
import Idealize.ShloMosaic.PureOps.Reduce
import Idealize.ShloMosaic.Lib.Pipeline.FrameSuffix

noncomputable section

namespace Cert.KernelIdeal.Chain

open Cert.KernelIdeal Cert.KernelIdeal.Gen Cert.KernelIdeal.Vals
open Idealize.ShloMosaic Idealize.ShloMosaic.TcCoe Idealize.ShloMosaic.ValueIdx
open Idealize.SL Idealize.SL.Sem
open Cert.ReferenceIdeal.Read

variable (m : (ℓ : Loc nD τ sig) → Buf (Elt Ideal) ℓ) (c : Dev nD)

theorem src_eq : srcK m c = val_main_v1 (F := Ideal) (a12 m c) := by
  show StableHlo.after hostOps0 (W0 m c) (Proc.devRef .tc main_v1) = _
  after_results
  all_goals rfl

theorem dst_eq : dstK m c = val_main_v3 (F := Ideal) (a12 m c) := by
  show StableHlo.after hostOps0 (W0 m c) (Proc.devRef .tc main_v3) = _
  after_results
  all_goals rfl

theorem h_arr : hK m c = Val0.outA (V1 m) c := by
  show W2 m c (Proc.devRef .tc main_v4) = _
  unfold Vals.W2
  exact Pipeline.withArrays_arr spec0 winFacts0.arr_inj c _ _ 2

theorem xA_eq : Val0.xA (V1 m) c = a0 m c := StableHlo.after_of_writes_sub hostOps0 _ hostOps0_writes (by decide)
theorem wA_eq : Val0.wA (V1 m) c = a1 m c := StableHlo.after_of_writes_sub hostOps0 _ hostOps0_writes (by decide)

theorem lidx4 (r : Fin 50000) (j : Fin 128) (k : Fin 256) : lidx_main_v4 (ix2 r j) k = ix2 r k :=
  Val0.ix2_ext _ _ _ rfl rfl
theorem ridx4 (r : Fin 50000) (j : Fin 128) (k : Fin 256) : ridx_main_v4 (ix2 r j) k = ix2 k j :=
  Val0.ix2_ext _ _ _ rfl rfl

theorem h_eq : hK m c = val_main_v4 (F := Ideal) (a0 m c) (a1 m c) := by
  funext i
  obtain ⟨r, j, rfl⟩ : ∃ (r : Fin 50000) (j : Fin 128), i = ix2 r j := ⟨i 0, i 1, eq_ix2 i⟩
  rw [h_arr, Val0.arr_out, val_main_v4_apply]
  refine Finset.sum_congr rfl fun k _ => ?_
  rw [lidx4, ridx4, xA_eq, wA_eq]

theorem slt_zero_of_node (w : BitVec 32) (h0 : 0 ≤ w.toInt) : IntOp.cmpi .slt w 0#32 = 0#1 := by
  show BitVec.ofBool (decide (w.toInt < 0)) = 0#1
  rw [decide_eq_false (by omega)]
  rfl

theorem sge_zero_of_node (w : BitVec 32) (h0 : 0 ≤ w.toInt) : IntOp.cmpi .sge w 0#32 = 1#1 := by
  show BitVec.ofBool (decide (0 ≤ w.toInt)) = 1#1
  rw [decide_eq_true h0]
  rfl

theorem sle_max_of_node (w : BitVec 32) (h1 : w.toInt < 50000) : IntOp.cmpi .sle w 49999#32 = 1#1 := by
  show BitVec.ofBool (decide (w.toInt ≤ 49999)) = 1#1
  rw [decide_eq_true (by omega)]
  rfl

theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self, show IntOp.andi 1#1 1#1 = 1#1 from by decide]
    exact ih fun n hn => hf n (List.mem_cons_of_mem _ hn)

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x _ fun n _ => hx n

def wrapCol (s : IVec S800000 32) : IVec S800000x1 32 :=
  broadcastInDim S800000x1 ![0] Facts₀.bcast_S800000_S800000x1_0
    (select (cmpi .slt s (broadcastInDim S800000 ![] Facts₀.bcast_S_S800000 (constantI S_ 32 0#32)))
      (addi s (broadcastInDim S800000 ![] Facts₀.bcast_S_S800000 (constantI S_ 32 50000#32))) s)

def maskOf (ix : IVec S800000x1 32) : IVec S800000 1 :=
  Host.reduce IntOp.andi
    (andi (cmpi .sge ix (broadcastInDim S800000x1 ![] Facts₀.bcast_S_S800000x1 (constantI S_ 32 0#32)))
      (cmpi .sle ix (broadcastInDim S800000x1 ![0, 1] Facts₀.bcast_S1x1_S800000x1_0_1
        (broadcastInDim S1x1 ![1] Facts₀.bcast_S1_S1x1_1 (constantI S1 32 49999#32)))))
    (constantI S_ 1 1#1) Facts₀.reducesTo_S800000x1_S800000_d1 Facts₀.h_S_

def takeSel (mk : IVec S800000 1) (h : Vec Ideal S50000x128 .f32) (ix : IVec S800000x1 32) : Vec Ideal S800000x128 .f32 :=
  select (broadcastInDim S800000x128 ![0] Facts₀.bcast_S800000_S800000x128_0 mk)
    (Host.gather gather_S50000x128_S800000x1_S800000x128_1_0_n_n_0_1_1128 h ix)
    (broadcastInDim S800000x128 ![] Facts₀.bcast_S_S800000x128 (constant (F := Ideal) S_ .f32 0x7FC00000#32))
def takeOf (h : Vec Ideal S50000x128 .f32) (ix : IVec S800000x1 32) : Vec Ideal S800000x128 .f32 := takeSel (maskOf ix) h ix

def takeK (h : Vec Ideal S50000x128 .f32) (s : IVec S800000 32) : Vec Ideal S800000x128 .f32 := takeOf h (wrapCol s)

def Nodes (s : IVec S800000 32) : Prop := ∀ e : Fin 800000, 0 ≤ (s (ix1 e)).toInt ∧ (s (ix1 e)).toInt < 50000

theorem wrapCol_apply (s : IVec S800000 32) (hs : Nodes s) (e : Fin 800000) (z : Fin 1) :
    wrapCol s (ix2 e z) = s (ix1 e) := by
  unfold wrapCol
  refine (broadcastInDim_apply _ Facts₀.bcast_S800000_S800000x1_0 _ (ix2 e z) (ix1 e) (fun a => match a with
    | ⟨0, _⟩ => by show e.val = if (800000 : Nat) = 1 then 0 else e.val; rw [if_neg (by decide)])).trans ?_
  show Scalar.select (IntOp.cmpi .slt (s (ix1 e)) 0#32) (IntOp.addi (s (ix1 e)) 50000#32) (s (ix1 e)) = s (ix1 e)
  rw [slt_zero_of_node _ (hs e).1, select_zero]

theorem takeMask_ones (s : IVec S800000 32) (hs : Nodes s) : maskOf (wrapCol s) = fun _ => 1#1 := by
  funext j
  unfold maskOf
  refine reduce_andi_ones _ _ _ _ (fun i => ?_) (fun _ => rfl) j
  obtain ⟨e, z, rfl⟩ : ∃ (e : Fin 800000) (z : Fin 1), i = ix2 e z := ⟨i 0, i 1, eq_ix2 i⟩
  show IntOp.andi (IntOp.cmpi .sge (wrapCol s (ix2 e z)) 0#32) (IntOp.cmpi .sle (wrapCol s (ix2 e z)) 49999#32) = 1#1
  rw [wrapCol_apply s hs, sge_zero_of_node _ (hs e).1, sle_max_of_node _ (hs e).2]
  decide

-- When every index is in range the bounds mask is all ones, so the guarded gather is the plain gather.
theorem takeK_of_nodes (h : Vec Ideal S50000x128 .f32) (s : IVec S800000 32) (hs : Nodes s) :
    takeK h s = Host.gather gather_S50000x128_S800000x1_S800000x128_1_0_n_n_0_1_1128 h (wrapCol s) := by
  unfold takeK takeOf takeSel
  rw [takeMask_ones s hs]
  funext i
  exact select_one _ _

open StableHlo.TRef in
abbrev takeA (s : StableHlo.TRef sig ⟨S800000, .i32⟩) (φ : fn_take.Bufs) : List (HloOp τ sig (Elt Ideal)) :=
  [ nullary φ.c (constantI S_ 32 0#32),
    unary φ.c φ.v0 (broadcastInDim S800000 ![] bcast_S_S800000),
    binary s φ.v0 φ.v1 (cmpi .slt),
    nullary φ.c_0 (constantI S_ 32 50000#32),
    unary φ.c_0 φ.v2 (broadcastInDim S800000 ![] bcast_S_S800000),
    binary s φ.v2 φ.v3 addi,
    ternary φ.v1 φ.v3 s φ.call0.v0 select,
    unary φ.call0.v0 φ.v5 (broadcastInDim S800000x1 ![0] bcast_S800000_S800000x1_0) ]
open StableHlo.TRef in
abbrev takeB (φ : fn_take.Bufs) : List (HloOp τ sig (Elt Ideal)) :=
  [ nullary φ.c_1 (constantI S1 32 49999#32),
    nullary φ.c_2 (constantI S_ 32 0#32),
    unary φ.c_2 φ.v6 (broadcastInDim S800000x1 ![] bcast_S_S800000x1),
    binary φ.v5 φ.v6 φ.v7 (cmpi .sge),
    unary φ.c_1 φ.v8 (broadcastInDim S1x1 ![1] bcast_S1_S1x1_1),
    unary φ.v8 φ.v9 (broadcastInDim S800000x1 ![0, 1] bcast_S1x1_S800000x1_0_1),
    binary φ.v5 φ.v9 φ.v10 (cmpi .sle),
    binary φ.v7 φ.v10 φ.v11 andi,
    nullary φ.c_3 (constantI S_ 1 1#1),
    binary φ.v11 φ.c_3 φ.v12 (fun x v => Host.reduce IntOp.andi x v reducesTo_S800000x1_S800000_d1 h_S_) ]
open StableHlo.TRef in
abbrev takeC (φ : fn_take.Bufs) : List (HloOp τ sig (Elt Ideal)) :=
  [ binary (.of main_v4 : StableHlo.TRef sig ⟨S50000x128, .f32⟩) φ.v5 φ.v13 (fun x i => Host.gather gather_S50000x128_S800000x1_S800000x128_1_0_n_n_0_1_1128 x i),
    unary φ.v12 φ.v14 (broadcastInDim S800000x128 ![0] bcast_S800000_S800000x128_0),
    nullary φ.cst (constant (F := Ideal) S_ .f32 0x7FC00000#32),
    unary φ.cst φ.v15 (broadcastInDim S800000x128 ![] bcast_S_S800000x128),
    ternary φ.v14 φ.v13 φ.v15 φ.v16 select ]

-- The two gathers (by source node, by destination node) are one list of operations read at two sets of names.
def Twin (s : StableHlo.TRef sig ⟨S800000, .i32⟩) (φ : fn_take.Bufs) : Prop :=
  (s = .of main_v1 ∧ φ = main_call0) ∨ (s = .of main_v3 ∧ φ = main_call1)

section Take

variable {s : StableHlo.TRef sig ⟨S800000, .i32⟩} {φ : fn_take.Bufs} (V : Valuation τ sig (Elt Ideal))

theorem takeA_idx (h : Twin s φ) :
    φ.v5.ofBuf (StableHlo.after (takeA s φ) V (Proc.devRef .tc φ.v5.ref)) = wrapCol (s.ofBuf (V (Proc.devRef .tc s.ref))) := by
  obtain ⟨rfl, rfl⟩ | ⟨rfl, rfl⟩ := h <;> (after_results; all_goals rfl)
theorem takeA_h (h : Twin s φ) :
    StableHlo.after (takeA s φ) V (Proc.devRef .tc main_v4) = V (Proc.devRef .tc main_v4) := by
  obtain ⟨rfl, rfl⟩ | ⟨rfl, rfl⟩ := h <;> (after_results; all_goals rfl)
theorem takeB_mask (h : Twin s φ) :
    φ.v12.ofBuf (StableHlo.after (takeB φ) V (Proc.devRef .tc φ.v12.ref)) = maskOf (φ.v5.ofBuf (V (Proc.devRef .tc φ.v5.ref))) := by
  obtain ⟨rfl, rfl⟩ | ⟨rfl, rfl⟩ := h <;> (after_results; simp only [StableHlo.TRef.ofBuf, StableHlo.TRef.toBuf, cast_eq]; rfl)
theorem takeB_idx (h : Twin s φ) :
    StableHlo.after (takeB φ) V (Proc.devRef .tc φ.v5.ref) = V (Proc.devRef .tc φ.v5.ref) := by
  obtain ⟨rfl, rfl⟩ | ⟨rfl, rfl⟩ := h <;> (after_results; all_goals rfl)
theorem takeB_h (h : Twin s φ) :
    StableHlo.after (takeB φ) V (Proc.devRef .tc main_v4) = V (Proc.devRef .tc main_v4) := by
  obtain ⟨rfl, rfl⟩ | ⟨rfl, rfl⟩ := h <;> (after_results; all_goals rfl)
theorem takeC_res (h : Twin s φ) :
    φ.v16.ofBuf (StableHlo.after (takeC φ) V (Proc.devRef .tc φ.v16.ref))
      = takeSel (φ.v12.ofBuf (V (Proc.devRef .tc φ.v12.ref))) (V (Proc.devRef .tc main_v4)) (φ.v5.ofBuf (V (Proc.devRef .tc φ.v5.ref))) := by
  obtain ⟨rfl, rfl⟩ | ⟨rfl, rfl⟩ := h <;> (after_results; all_goals rfl)

theorem take_res (h : Twin s φ) :
    φ.v16.ofBuf (StableHlo.after (takeA s φ ++ (takeB φ ++ takeC φ)) V (Proc.devRef .tc φ.v16.ref))
      = takeK (V (Proc.devRef .tc main_v4)) (s.ofBuf (V (Proc.devRef .tc s.ref))) := by
  rw [StableHlo.after_append, StableHlo.after_append, takeC_res _ h, takeB_mask _ h, takeB_idx _ h, takeB_h _ h, takeA_idx _ h, takeA_h _ h]
  rfl

end Take

theorem W2_of_ne (b : Ref sig .tc) (hb : ∀ w, Pipeline.arrRef spec0 w ≠ b) :
    W2 m c (Proc.devRef .tc b) = W1 m c (Proc.devRef .tc b) := by
  unfold Vals.W2
  exact Pipeline.withArrays_of_ne spec0 c _ _ b hb

abbrev h3 : Vec Ideal S50000x128 .f32 := W3 m c main_v4
abbrev dst3 : IVec S800000 32 := W3 m c main_v3
abbrev hs3 : Vec Ideal S800000x128 .f32 := W3 m c main_v5
abbrev hs4 : Vec Ideal S800000x128 .f32 := W4 m c main_v5
abbrev hd4 : Vec Ideal S800000x128 .f32 := W4 m c main_v6

theorem W3_v5 : hs3 m c = takeK (hK m c) (srcK m c) :=
  (take_res (W2 m c) (.inl ⟨rfl, rfl⟩)).trans (congrArg (takeK (hK m c)) (W2_of_ne m c main_v1 (by decide)))

theorem W3_v4 : h3 m c = hK m c := StableHlo.after_of_writes_sub hostOps1 _ hostOps1_writes (by decide)

theorem W3_v3 : dst3 m c = dstK m c :=
  (StableHlo.after_of_writes_sub hostOps1 _ hostOps1_writes (by decide)).trans (W2_of_ne m c main_v3 (by decide))

theorem W4_v6 : hd4 m c = takeK (hK m c) (dstK m c) := by
  refine (take_res (W3 m c) (.inr ⟨rfl, rfl⟩)).trans ?_
  show takeK (h3 m c) (dst3 m c) = _
  rw [W3_v4, W3_v3]

theorem W4_v5 : hs4 m c = hs3 m c := StableHlo.after_of_writes_sub hostOps1_1 _ hostOps1_1_writes (by decide)

theorem hd_buf : hdK m c = hd4 m c := StableHlo.after_of_writes_sub hostOps1_2 _ hostOps1_2_writes (by decide)

theorem eh_buf : ehK m c = Host.absf (F := Ideal) (φ := .f32) (subf (F := Ideal) (φ := .f32) (hs4 m c) (hd4 m c)) := by
  dsimp only [ehK, hs4, hd4, W5]
  generalize W4 m c = V
  after_results
  all_goals rfl

theorem src_nodes (hr : InRange (a12 m c)) : Nodes (srcK m c) := fun e => by
  rw [src_eq, val_main_v1_apply, val_main_v0_apply,
    Val0.ix2_ext (idx_main_v0 (idx_main_v1 (ix1 e))) 0 e rfl (Nat.mod_eq_of_lt e.isLt)]
  exact hr 0 e

theorem dst_nodes (hr : InRange (a12 m c)) : Nodes (dstK m c) := fun e => by
  rw [dst_eq, val_main_v3_apply, val_main_v2_apply,
    Val0.ix2_ext (idx_main_v2 (idx_main_v3 (ix1 e))) 1 e rfl (Nat.mod_eq_of_lt e.isLt)]
  exact hr 1 e

theorem hs_eq (hr : InRange (a12 m c)) : hs3 m c = val_main_v11 (F := Ideal) (a0 m c) (a1 m c) (a12 m c) := by
  rw [W3_v5, takeK_of_nodes _ _ (src_nodes m c hr), h_eq, src_eq]
  rfl

theorem hd_eq (hr : InRange (a12 m c)) : hdK m c = val_main_v18 (F := Ideal) (a0 m c) (a1 m c) (a12 m c) := by
  rw [hd_buf, W4_v6, takeK_of_nodes _ _ (dst_nodes m c hr), h_eq, dst_eq]
  rfl

theorem eh_eq (hr : InRange (a12 m c)) : ehK m c = val_main_v20 (F := Ideal) (a0 m c) (a1 m c) (a12 m c) := by
  rw [eh_buf, W4_v5, hs_eq m c hr, ← hd_buf, hd_eq m c hr]
  rfl

theorem a1wA_eq : Val1.a1wA (V5 m) c = a2 m c := by
  show StableHlo.after hostOps1_2 (StableHlo.after hostOps1_1 (StableHlo.after hostOps1 (W2 m c))) (Proc.devRef .tc main_arg2) = _
  after_results
  rw [W2_of_ne m c main_arg2 (by decide)]
  show StableHlo.after hostOps0 (W0 m c) (Proc.devRef .tc main_arg2) = _
  after_results
  all_goals rfl

theorem W4_arg3 : (W4 m c main_arg3 : Vec Ideal S64 .f32) = a3 m c := by
  show StableHlo.after hostOps1_1 (StableHlo.after hostOps1 (W2 m c)) (Proc.devRef .tc main_arg3) = _
  after_results
  rw [W2_of_ne m c main_arg3 (by decide)]
  show StableHlo.after hostOps0 (W0 m c) (Proc.devRef .tc main_arg3) = _
  after_results
  all_goals rfl

theorem W5_v9 : (W5 m c main_v9 : Vec Ideal S1x64 .f32)
    = shapeCast S1x64 (W4 m c main_arg3 : Vec Ideal S64 .f32) Facts₀.shapeCasts_S64_S1x64 := by
  show StableHlo.after hostOps1_2 (W4 m c) (Proc.devRef .tc main_v9) = _
  after_results
  all_goals rfl

theorem row_apply (x3 : Vec Ideal S64 .f32) (j : Fin 64) :
    shapeCast S1x64 x3 Facts₀.shapeCasts_S64_S1x64 (ix2 (0 : Fin 1) j) = x3 (ix1 j) := by
  refine shapeCast_apply x3 _ (ix2 (0 : Fin 1) j) (ix1 j) ?_
  rw [Shape.rowMajor_val_one, Shape.rowMajor_val_two]
  show j.val = 0 * 64 + j.val
  omega

theorem ehA_eq : Val1.ehA (V5 m) c = ehK m c := rfl
theorem a1bA_apply (j : Fin 64) : Val1.a1bA (V5 m) c (ix2 (0 : Fin 1) j) = a3 m c (ix1 j) := by
  show (W5 m c main_v9 : Vec Ideal S1x64 .f32) (ix2 (0 : Fin 1) j) = _
  rw [W5_v9, W4_arg3, row_apply]

theorem lidx21 (e : Fin 800000) (j : Fin 64) (k : Fin 128) : lidx_main_v21 (ix2 e j) k = ix2 e k :=
  Val0.ix2_ext _ _ _ rfl rfl
theorem ridx21 (e : Fin 800000) (j : Fin 64) (k : Fin 128) : ridx_main_v21 (ix2 e j) k = ix2 k j :=
  Val0.ix2_ext _ _ _ rfl rfl
theorem idx22_23 (e : Fin 800000) (j : Fin 64) : idx_main_v22 (idx_main_v23 (ix2 e j)) = ix1 j := by
  funext a; match a with | ⟨0, _⟩ => rfl
theorem idx25 (j : Fin 64) (k : Fin 800000) : idx_main_v25 (ix1 j) k = ix2 k j :=
  Val0.ix2_ext _ _ _ rfl rfl

abbrev r24 := val_main_v24 (F := Ideal) (a0 m c) (a1 m c) (a2 m c) (a3 m c) (a12 m c)

theorem v1_eq (hr : InRange (a12 m c)) (e : Fin 800000) (j : Fin 64) :
    Val1.v1 (Vals.V5 m) c e j = r24 m c (ix2 e j) := by
  unfold Val1.v1 r24
  rw [val_main_v24_apply, val_main_v21_apply, val_main_v23_apply, val_main_v22_apply, idx22_23, a1bA_apply, ehA_eq,
    a1wA_eq, eh_eq m c hr]
  refine congrArg (· + _) (Finset.sum_congr rfl fun k _ => ?_)
  rw [lidx21, ridx21]

theorem cst_zero : val_main_cst (F := Ideal) (Shape.Idx.first Cert.ReferenceIdeal.Facts₀.h_S_) = 0 :=
  Cert.Algebra.zeroF_eq
theorem cst4_zero : val_main_cst_4 (F := Ideal) (Shape.Idx.first Cert.ReferenceIdeal.Facts₀.h_S_) = 0 :=
  Cert.Algebra.zeroF_eq

theorem sum1_arr : sum1K m c = Val1.sumA (V5 m) c := by
  show W6 m c (Proc.devRef .tc main_v17_0) = _
  unfold Vals.W6
  exact Pipeline.withArrays_arr spec1 winFacts1.arr_inj c _ _ 3
theorem sumsq1_arr : sumsq1K m c = Val1.sumsqA (V5 m) c := by
  show W6 m c (Proc.devRef .tc main_v17_1) = _
  unfold Vals.W6
  exact Pipeline.withArrays_arr spec1 winFacts1.arr_inj c _ _ 4

theorem sum1_eq (hr : InRange (a12 m c)) (j : Fin 64) :
    sum1K m c (ix2 (0 : Fin 1) j) = val_main_v25 (F := Ideal) (a0 m c) (a1 m c) (a2 m c) (a3 m c) (a12 m c) (ix1 j) := by
  rw [sum1_arr, Val1.arr_sum, val_main_v25_apply, cst_zero, zero_add]
  refine Finset.sum_congr rfl fun e _ => ?_
  rw [idx25, v1_eq m c hr]

theorem mean1_buf (j : Fin 64) : mean1K m c (ix2 (0 : Fin 1) j) = Ideal.div (sum1K m c (ix2 (0 : Fin 1) j)) Cert.Spec.cntF := by
  dsimp only [mean1K, sum1K, W7]
  generalize W6 m c = V
  after_results
  all_goals rfl

theorem var1_buf (j : Fin 64) : var1K m c (ix2 (0 : Fin 1) j)
    = Ideal.div (sumsq1K m c (ix2 (0 : Fin 1) j)) Cert.Spec.cntF
      - mean1K m c (ix2 (0 : Fin 1) j) * mean1K m c (ix2 (0 : Fin 1) j) := by
  dsimp only [var1K, mean1K, sumsq1K, W7]
  generalize W6 m c = V
  after_results
  all_goals rfl

theorem ref_mean (j : Fin 64) :
    val_main_v27 (F := Ideal) (a0 m c) (a1 m c) (a2 m c) (a3 m c) (a12 m c) (ix1 j)
      = Ideal.div (∑ e : Fin 800000, r24 m c (ix2 e j)) Cert.Spec.cntF := by
  show Ideal.div (val_main_v25 (F := Ideal) _ _ _ _ _ (ix1 j)) _ = _
  rw [val_main_v25_apply, cst_zero, zero_add]
  exact congrArg (Ideal.div · Cert.Spec.cntF) (Finset.sum_congr rfl fun e _ => by rw [idx25])

theorem mean1_eq (hr : InRange (a12 m c)) (j : Fin 64) :
    mean1K m c (ix2 (0 : Fin 1) j) = val_main_v27 (F := Ideal) (a0 m c) (a1 m c) (a2 m c) (a3 m c) (a12 m c) (ix1 j) := by
  rw [mean1_buf, sum1_eq m c hr]
  rfl

theorem idx32 (j : Fin 64) (k : Fin 800000) : idx_main_v32 (ix1 j) k = ix2 k j :=
  Val0.ix2_ext _ _ _ rfl rfl
theorem idx28_29 (e : Fin 800000) (j : Fin 64) : idx_main_v28 (idx_main_v29 (ix2 e j)) = ix1 j := by
  funext a; match a with | ⟨0, _⟩ => rfl

-- The reference's variance at column j, with its mean named μ.
theorem ref_var (j : Fin 64) (μ : EReal)
    (hμ : val_main_v27 (F := Ideal) (a0 m c) (a1 m c) (a2 m c) (a3 m c) (a12 m c) (ix1 j) = μ) :
    val_main_v34 (F := Ideal) (a0 m c) (a1 m c) (a2 m c) (a3 m c) (a12 m c) (ix1 j)
      = Ideal.div (∑ e : Fin 800000, (r24 m c (ix2 e j) - μ) * (r24 m c (ix2 e j) - μ)) Cert.Spec.cntF := by
  show Ideal.div (val_main_v32 (F := Ideal) _ _ _ _ _ (ix1 j)) Cert.Spec.cntF = _
  rw [val_main_v32_apply, cst4_zero, zero_add]
  refine congrArg (Ideal.div · Cert.Spec.cntF) (Finset.sum_congr rfl fun e _ => ?_)
  rw [idx32]
  show (r24 m c (ix2 e j) - val_main_v29 (F := Ideal) _ _ _ _ _ (ix2 e j))
      * (r24 m c (ix2 e j) - val_main_v29 (F := Ideal) _ _ _ _ _ (ix2 e j)) = _
  rw [val_main_v29_apply, val_main_v28_apply, idx28_29, hμ]

theorem var1_eq (hr : InRange (a12 m c))
    (hfin : ∀ i, Cert.Algebra.IsReal (val_main_v24 (F := Ideal) (a0 m c) (a1 m c) (a2 m c) (a3 m c) (a12 m c) i)) (j : Fin 64) :
    var1K m c (ix2 (0 : Fin 1) j) = val_main_v34 (F := Ideal) (a0 m c) (a1 m c) (a2 m c) (a3 m c) (a12 m c) (ix1 j) := by
  have hsq : sumsq1K m c (ix2 (0 : Fin 1) j) = ∑ e : Fin 800000, r24 m c (ix2 e j) * r24 m c (ix2 e j) := by
    rw [sumsq1_arr, Val1.arr_sumsq]
    exact Finset.sum_congr rfl fun e _ => by rw [v1_eq m c hr]
  rw [var1_buf, hsq, mean1_eq m c hr, ref_var m c j _ (ref_mean m c j), ref_mean]
  exact (Cert.Algebra.var_eq (fun e => r24 m c (ix2 e j)) (fun e => hfin (ix2 e j))).symm

end Cert.KernelIdeal.Chain

end
-- ==== Proof.KI.Val2.lean ====
import proofs.«430728_j7627861917709_1_alg».proof.Proof.KI.Reg2
import proofs.«430728_j7627861917709_1_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val2

open Cert.KernelIdeal Cert.KernelIdeal.Gen
open Idealize.ShloMosaic Idealize.ShloMosaic.TcCoe Idealize.ShloMosaic.ValueIdx
open Idealize.SL Idealize.SL.Sem

theorem mmA_apply {φ₁ φ₂ : FTy} (x : FVec Ideal S3200x128 φ₁) (y : FVec Ideal S128x64 φ₂) (r : Fin 3200) (j : Fin 64) :
    FloatOps.matmul dot_S3200x128_S128x64_S3200x64_1_0_0_1_n_n none x y (constant S3200x64 .f32 0x00000000#32) (ix2 r j) = ∑ k : Fin 128, x (ix2 r k) * y (ix2 k j) := by
  rw [Ideal.matmul_constant_zero_apply, ← Equiv.sum_comp (ValueIdx.contrEquiv1 dot_S3200x128_S128x64_S3200x64_1_0_0_1_n_n 128 rfl rfl).symm]
  exact Finset.sum_congr rfl fun k _ => congrArg₂ (x · * y ·) (eq_ix2 _) (eq_ix2 _)

theorem mmB_apply {φ₁ φ₂ : FTy} (x : FVec Ideal S3200x64 φ₁) (y : FVec Ideal S64x32 φ₂) (r : Fin 3200) (j : Fin 32) :
    FloatOps.matmul dot_S3200x64_S64x32_S3200x32_1_0_0_1_n_n none x y (constant S3200x32 .f32 0x00000000#32) (ix2 r j) = ∑ k : Fin 64, x (ix2 r k) * y (ix2 k j) := by
  rw [Ideal.matmul_constant_zero_apply, ← Equiv.sum_comp (ValueIdx.contrEquiv1 dot_S3200x64_S64x32_S3200x32_1_0_0_1_n_n 64 rfl rfl).symm]
  exact Finset.sum_congr rfl fun k _ => congrArg₂ (x · * y ·) (eq_ix2 _) (eq_ix2 _)

theorem rsqrt_at {s : Shape} {φ : FTy} (a : FVec Ideal s φ) (i : s.Idx) : rsqrt a i = Ideal.rsqrt (a i) := rfl

theorem colsum_apply (src : FVec Ideal S3200x32 .f32) (hφ : FKind.Formats .f32) (hacc : (0x00000000#32 : BitVec 32) = 0x00000000#32)
    (k : Fin 32) :
    multiReduction .add [0] S32 src 0x00000000#32 reduces_S3200x32_S32 hφ hacc (ix1 k) = ∑ r : Fin 3200, src (ix2 r k) :=
  (Ideal.multiReduction_add_single src 0x00000000#32 reduces_S3200x32_S32 hφ hacc (ix1 k)).trans
    (Finset.sum_congr rfl fun r _ => congrArg src (eq_ix2 _))

theorem pay6_apply (x1 : Vec Ideal S3200x128 .f32) (x2 : Vec Ideal S128x64 .f32) (x3 xv xm xg xs : Vec Ideal S1x64 .f32)
    (r : Fin 3200) (j : Fin 64) :
    k2_pay6 x1 x2 x3 xv xm xg xs (ix2 r j)
      = Cert.Spec.lrelu (Cert.Spec.bn ((∑ k : Fin 128, x1 (ix2 r k) * x2 (ix2 k j)) + x3 (ix2 0 j))
          (xm (ix2 0 j)) (xv (ix2 0 j)) (xg (ix2 0 j)) (xs (ix2 0 j))) := by
  unfold k2_pay6 Cert.Spec.lrelu Cert.Spec.bn
  simp only [select_apply, cmpf_apply, mulf_apply, addf_apply, subf_apply, broadcast_apply, truncf_apply, rsqrt_at,
    shapeCast_self, broadcastTo_1b_ab_apply, matmul]
  rw [mmA_apply]
  simp only [truncf_apply]
  rfl

theorem pay1_apply (z : FVec Ideal S3200x64 .f32) (w : Vec Ideal S64x32 .f32) (b : Vec Ideal S1x32 .f32) (r : Fin 3200) (k : Fin 32) :
    k2_pay1 z w b (ix2 r k) = (∑ j : Fin 64, z (ix2 r j) * w (ix2 j k)) + b (ix2 0 k) := by
  unfold k2_pay1
  simp only [addf_apply, shapeCast_self, broadcastTo_1b_ab_apply, matmul]
  rw [mmB_apply]
  simp only [truncf_apply]

theorem pay2_apply (z : FVec Ideal S3200x64 .f32) (w : Vec Ideal S64x32 .f32) (b s : Vec Ideal S1x32 .f32) (k : Fin 32) :
    k2_pay2 z w b s (ix2 0 k) = s (ix2 0 k) + ∑ r : Fin 3200, k2_pay1 z w b (ix2 r k) := by
  unfold k2_pay2
  simp only [shapeCast_self, addf_apply]
  exact congrArg (s (ix2 0 k) + ·) ((shapeCast_a_1a_apply _ _ 0 k).trans (colsum_apply _ _ _ k))

theorem pay3_apply (z : FVec Ideal S3200x64 .f32) (w : Vec Ideal S64x32 .f32) (b s : Vec Ideal S1x32 .f32) (k : Fin 32) :
    k2_pay3 z w b s (ix2 0 k)
      = s (ix2 0 k) + ∑ r : Fin 3200, k2_pay1 z w b (ix2 r k) * k2_pay1 z w b (ix2 r k) := by
  unfold k2_pay3
  simp only [shapeCast_self, addf_apply]
  exact congrArg (s (ix2 0 k) + ·) ((shapeCast_a_1a_apply _ _ 0 k).trans (colsum_apply _ _ _ k))

theorem pay4_apply (k : Fin 32) : k2_pay4 (F := Ideal) (ix2 0 k) = Cert.Spec.zeroF := by
  unfold k2_pay4 Cert.Spec.zeroF
  simp only [shapeCast_self, broadcast_apply]
  rfl
theorem pay5_apply (k : Fin 32) : k2_pay5 (F := Ideal) (ix2 0 k) = Cert.Spec.zeroF := by
  unfold k2_pay5 Cert.Spec.zeroF
  simp only [shapeCast_self, broadcast_apply]
  rfl

variable (V : (c : Dev nD) → (b : Ref sig .tc) → Buf (Elt Ideal) ((c : Thread nD τ).loc b)) (c : Dev nD)

abbrev ehA : Vec Ideal S800000x128 .f32 := V c main_v8
abbrev a1wA : Vec Ideal S128x64 .f32 := V c main_arg2
abbrev a1bA : Vec Ideal S1x64 .f32 := V c main_v9
abbrev mean1A : Vec Ideal S1x64 .f32 := V c main_v19
abbrev var1A : Vec Ideal S1x64 .f32 := V c main_v23
abbrev g1A : Vec Ideal S1x64 .f32 := V c main_v11
abbrev b1A : Vec Ideal S1x64 .f32 := V c main_v12
abbrev a2wA : Vec Ideal S64x32 .f32 := V c main_arg6
abbrev a2bA : Vec Ideal S1x32 .f32 := V c main_v10

abbrev z1A : Vec Ideal S800000x64 .bf16 := (Reg2.dat V c).arrAt 9 cfg2.N
abbrev sumA : Vec Ideal S1x32 .f32 := (Reg2.dat V c).arrAt 10 cfg2.N
abbrev sumsqA : Vec Ideal S1x32 .f32 := (Reg2.dat V c).arrAt 11 cfg2.N

def v1 (e : Fin 800000) (j : Fin 64) : EReal := (∑ k : Fin 128, ehA V c (ix2 e k) * a1wA V c (ix2 k j)) + a1bA V c (ix2 0 j)

def z1 (e : Fin 800000) (j : Fin 64) : EReal :=
  Cert.Spec.lrelu (Cert.Spec.bn (v1 V c e j) (mean1A V c (ix2 0 j)) (var1A V c (ix2 0 j)) (g1A V c (ix2 0 j)) (b1A V c (ix2 0 j)))

def v2 (e : Fin 800000) (k : Fin 32) : EReal := (∑ j : Fin 64, z1 V c e j * a2wA V c (ix2 j k)) + a2bA V c (ix2 0 k)

theorem idx0 : ∀ t : Fin grid2.N, win2_0.index t (0 : Fin 2) = t.val ∧ win2_0.index t (1 : Fin 2) = 0 := by decide +kernel
theorem idx9 : ∀ t : Fin grid2.N, win2_9.index t (0 : Fin 2) = t.val ∧ win2_9.index t (1 : Fin 2) = 0 := by decide +kernel

def pt (t : Fin cfg2.N) : Fin 250 := ⟨t.val, lt_of_lt_of_eq t.isLt N_2⟩

def row (t : Fin 250) (r : Fin 3200) : Fin 800000 := ⟨3200 * t.val + r.val, by omega⟩

theorem eB_apply (t : Fin cfg2.N) (r : Fin 3200) (k : Fin 128) :
    Reg2.eB V c t (ix2 r k) = ehA V c (ix2 (row (pt t) r) k) := by
  obtain ⟨e0, e1⟩ := idx0 t
  refine congrArg (ehA V c) (funext fun a => Fin.ext ?_)
  match a with
  | ⟨0, _⟩ => show win2_0.index t (0 : Fin 2) * 3200 + 1 * r.val = 3200 * t.val + r.val; omega
  | ⟨1, _⟩ => show win2_0.index t (1 : Fin 2) * 128 + 1 * k.val = k.val; omega

theorem whole2 {n0 n1 : ℕ} (x y : (⟨2, ![n0, n1]⟩ : Shape).Idx) (h0 : (x 0).val = 0 + 1 * (y 0).val) (h1 : (x 1).val = 0 + 1 * (y 1).val) : x = y :=
  funext fun a => Fin.ext (by
    match a with
    | ⟨0, _⟩ => show (x 0).val = (y 0).val; omega
    | ⟨1, _⟩ => show (x 1).val = (y 1).val; omega)

theorem w1B_eq (t : Fin cfg2.N) : Reg2.w1B V c t = a1wA V c := funext fun j => congrArg (a1wA V c) (whole2 _ j rfl rfl)
theorem b1B_eq (t : Fin cfg2.N) : Reg2.b1B V c t = a1bA V c := funext fun j => congrArg (a1bA V c) (whole2 _ j rfl rfl)
theorem meanB_eq (t : Fin cfg2.N) : Reg2.meanB V c t = mean1A V c := funext fun j => congrArg (mean1A V c) (whole2 _ j rfl rfl)
theorem varB_eq (t : Fin cfg2.N) : Reg2.varB V c t = var1A V c := funext fun j => congrArg (var1A V c) (whole2 _ j rfl rfl)
theorem gainB_eq (t : Fin cfg2.N) : Reg2.gainB V c t = g1A V c := funext fun j => congrArg (g1A V c) (whole2 _ j rfl rfl)
theorem shiftB_eq (t : Fin cfg2.N) : Reg2.shiftB V c t = b1A V c := funext fun j => congrArg (b1A V c) (whole2 _ j rfl rfl)
theorem w2B_eq (t : Fin cfg2.N) : Reg2.w2B V c t = a2wA V c := funext fun j => congrArg (a2wA V c) (whole2 _ j rfl rfl)
theorem b2B_eq (t : Fin cfg2.N) : Reg2.b2B V c t = a2bA V c := funext fun j => congrArg (a2bA V c) (whole2 _ j rfl rfl)

theorem zB_apply (t : Fin cfg2.N) (r : Fin 3200) (j : Fin 64) : Reg2.zB V c t (ix2 r j) = z1 V c (row (pt t) r) j := by
  show k2_pay6 (Reg2.eB V c t) (Reg2.w1B V c t) (Reg2.b1B V c t) (Reg2.varB V c t) (Reg2.meanB V c t)
    (Reg2.gainB V c t) (Reg2.shiftB V c t) (ix2 r j) = _
  rw [pay6_apply, w1B_eq, b1B_eq, varB_eq, meanB_eq, gainB_eq, shiftB_eq]
  simp only [eB_apply]
  rfl

theorem pay1_blk (t : Fin cfg2.N) (r : Fin 3200) (k : Fin 32) :
    k2_pay1 (Reg2.zB V c t) (Reg2.w2B V c t) (Reg2.b2B V c t) (ix2 r k) = v2 V c (row (pt t) r) k := by
  rw [pay1_apply, w2B_eq, b2B_eq]
  simp only [zB_apply]
  rfl

def Z : Vec Ideal S800000x64 .bf16 := fun i => z1 V c (i 0) (i 1)

theorem pay7_entry (t : Fin cfg2.N) (y : S3200x64.Idx) :
    Reg2.zOf16 (Reg2.eB V c t) (Reg2.w1B V c t) (Reg2.b1B V c t) (Reg2.meanB V c t) (Reg2.varB V c t) (Reg2.gainB V c t) (Reg2.shiftB V c t) y
      = z1 V c (row (pt t) (y 0)) (y 1) := by
  obtain ⟨r, j, rfl⟩ : ∃ (r : Fin 3200) (j : Fin 64), y = ix2 r j := ⟨y 0, y 1, eq_ix2 y⟩
  show k2_pay7 (Reg2.eB V c t) (Reg2.w1B V c t) (Reg2.b1B V c t) (Reg2.varB V c t) (Reg2.meanB V c t)
    (Reg2.gainB V c t) (Reg2.shiftB V c t) (ix2 r j) = _
  unfold k2_pay7
  simp only [truncf_apply]
  exact zB_apply V c t r j

theorem flushed9_eq (t : Fin cfg2.N) :
    (Reg2.dat V c).flushed 9 t = ((cfg2.win 9).blk t).view.read (Elt Ideal) (Z V c) := by
  obtain ⟨e0, e1⟩ := idx9 t
  show (cfg2.win 9).cut (grid2.coords t) ((Reg2.dat V c).after 9 t) = _
  rw [Reg2.after_9]
  funext y
  refine (pay7_entry V c t y).trans ?_
  show _ = Z V c (((cfg2.win 9).blk t).view.emb y)
  have h0 : (((cfg2.win 9).blk t).view.emb y 0).val = 3200 * t.val + (y 0).val := by
    show win2_9.index t (0 : Fin 2) * 3200 + 1 * (y 0).val = _; omega
  have h1 : (((cfg2.win 9).blk t).view.emb y 1).val = (y 1).val := by
    show win2_9.index t (1 : Fin 2) * 64 + 1 * (y 1).val = _; omega
  unfold Z
  exact congr (congrArg (z1 V c) (Fin.ext h0.symm)) (Fin.ext h1.symm)

theorem final9 : z1A V c = Z V c :=
  (Reg2.dat V c).arrAt_eq_of_cover 9 (Z V c) (fun t _ => flushed9_eq V c t) fun i => by
    have hi0 : (i 0).val < 800000 := (i 0).isLt
    have hi1 : (i 1).val < 64 := (i 1).isLt
    obtain ⟨t, ht⟩ : ∃ t : Fin cfg2.N, t.val = (i 0).val / 3200 := ⟨⟨(i 0).val / 3200, lt_of_lt_of_eq (by omega) N_2.symm⟩, rfl⟩
    obtain ⟨e0, e1⟩ := idx9 t
    refine ⟨t, flush2_9 t, ?_⟩
    show i ∈ ((View.whole main_v24_0).slice (win2_9.rect t)).set
    rw [View.set_slice_whole, Rect.mem_set_unit]
    intro a
    match a with
    | ⟨0, _⟩ => show win2_9.index t (0 : Fin 2) * 3200 ≤ (i 0).val ∧ (i 0).val < win2_9.index t (0 : Fin 2) * 3200 + 3200; omega
    | ⟨1, _⟩ => show win2_9.index t (1 : Fin 2) * 64 ≤ (i 1).val ∧ (i 1).val < win2_9.index t (1 : Fin 2) * 64 + 64; omega

theorem arr_z1 (e : Fin 800000) (j : Fin 64) : z1A V c (ix2 e j) = z1 V c e j := by
  rw [final9]; rfl

theorem flushed10_eq (t : Fin cfg2.N) (hf : (cfg2.win 10).flush t = true) :
    (Reg2.dat V c).flushed 10 t = ((cfg2.win 10).blk t).view.read (Elt Ideal) (Reg2.accS V c 250) := by
  have hN : t.val < 250 := lt_of_lt_of_eq t.isLt N_2
  have h1 : t.val + 1 = 250 := by have := (flush2_10 t).mp hf; omega
  show (cfg2.win 10).cut (grid2.coords t) ((Reg2.dat V c).after 10 t) = _
  rw [Reg2.after_10, h1]
  funext y
  show Reg2.accS V c 250 y = Reg2.accS V c 250 (((cfg2.win 10).blk t).view.emb y)
  exact (congrArg _ (whole2 _ y rfl rfl)).symm

theorem final10 : sumA V c = Reg2.accS V c 250 :=
  (Reg2.dat V c).arrAt_eq_of_cover 10 (Reg2.accS V c 250) (flushed10_eq V c) fun i => by
    have hlast : (249 : ℕ) < cfg2.N := lt_of_lt_of_eq (by omega) N_2.symm
    refine ⟨⟨249, hlast⟩, (flush2_10 _).mpr rfl, ?_⟩
    show i ∈ ((View.whole main_v24_1).slice (win2_10.rect ⟨249, hlast⟩)).set
    rw [View.set_slice_whole, Rect.mem_set_unit]
    intro a
    match a with
    | ⟨0, _⟩ | ⟨1, _⟩ => exact ⟨Nat.zero_le _, (i _).isLt⟩

theorem flushed11_eq (t : Fin cfg2.N) (hf : (cfg2.win 11).flush t = true) :
    (Reg2.dat V c).flushed 11 t = ((cfg2.win 11).blk t).view.read (Elt Ideal) (Reg2.accQ V c 250) := by
  have hN : t.val < 250 := lt_of_lt_of_eq t.isLt N_2
  have h1 : t.val + 1 = 250 := by have := (flush2_11 t).mp hf; omega
  show (cfg2.win 11).cut (grid2.coords t) ((Reg2.dat V c).after 11 t) = _
  rw [Reg2.after_11, h1]
  funext y
  show Reg2.accQ V c 250 y = Reg2.accQ V c 250 (((cfg2.win 11).blk t).view.emb y)
  exact (congrArg _ (whole2 _ y rfl rfl)).symm

theorem final11 : sumsqA V c = Reg2.accQ V c 250 :=
  (Reg2.dat V c).arrAt_eq_of_cover 11 (Reg2.accQ V c 250) (flushed11_eq V c) fun i => by
    have hlast : (249 : ℕ) < cfg2.N := lt_of_lt_of_eq (by omega) N_2.symm
    refine ⟨⟨249, hlast⟩, (flush2_11 _).mpr rfl, ?_⟩
    show i ∈ ((View.whole main_v24_2).slice (win2_11.rect ⟨249, hlast⟩)).set
    rw [View.set_slice_whole, Rect.mem_set_unit]
    intro a
    match a with
    | ⟨0, _⟩ | ⟨1, _⟩ => exact ⟨Nat.zero_le _, (i _).isLt⟩

theorem acc_apply (acc : ℕ → FVec Ideal S1x32 .f32) (f : Fin 800000 → EReal) (k : Fin 32) (h0 : acc 0 (ix2 0 k) = Cert.Spec.zeroF)
    (hs : ∀ (n : ℕ) (h : n < 250), acc (n + 1) (ix2 0 k) = acc n (ix2 0 k) + ∑ r : Fin 3200, f (row ⟨n, h⟩ r)) :
    acc 250 (ix2 0 k) = ∑ e, f e := by
  have H : ∀ n (hn : n ≤ 250), acc n (ix2 0 k) = ∑ t : Fin n, ∑ r : Fin 3200, f (row ⟨t.val, lt_of_lt_of_le t.isLt hn⟩ r) := by
    intro n
    induction n with
    | zero => intro _; rw [h0, Cert.Algebra.zeroF_eq, Finset.univ_eq_empty, Finset.sum_empty]
    | succ n ih => intro hn; rw [hs n (by omega), ih (by omega), Fin.sum_univ_castSucc (n := n)]; rfl
  exact (H 250 le_rfl).trans (Cert.Algebra.sum_blocks f)

theorem arr_sum (k : Fin 32) : sumA V c (ix2 0 k) = ∑ e : Fin 800000, v2 V c e k := by
  rw [final10]
  refine acc_apply (Reg2.accS V c) (fun e => v2 V c e k) k (pay4_apply k) fun n h => ?_
  have h' : n < cfg2.N := lt_of_lt_of_eq h N_2.symm
  have e : Reg2.accS V c (n + 1) = k2_pay2 (Reg2.zB V c ⟨n, h'⟩) (Reg2.w2B V c ⟨n, h'⟩) (Reg2.b2B V c ⟨n, h'⟩) (Reg2.accS V c n) :=
    Reg2.accS_succ V c ⟨n, h'⟩
  rw [e, pay2_apply]
  exact congrArg (_ + ·) (Finset.sum_congr rfl fun r _ => pay1_blk V c ⟨n, h'⟩ r k)

theorem arr_sumsq (k : Fin 32) : sumsqA V c (ix2 0 k) = ∑ e : Fin 800000, v2 V c e k * v2 V c e k := by
  rw [final11]
  refine acc_apply (Reg2.accQ V c) (fun e => v2 V c e k * v2 V c e k) k (pay5_apply k) fun n h => ?_
  have h' : n < cfg2.N := lt_of_lt_of_eq h N_2.symm
  have e : Reg2.accQ V c (n + 1) = k2_pay3 (Reg2.zB V c ⟨n, h'⟩) (Reg2.w2B V c ⟨n, h'⟩) (Reg2.b2B V c ⟨n, h'⟩) (Reg2.accQ V c n) :=
    Reg2.accQ_succ V c ⟨n, h'⟩
  rw [e, pay3_apply]
  exact congrArg (_ + ·) (Finset.sum_congr rfl fun r _ => by rw [pay1_blk V c ⟨n, h'⟩ r k]; rfl)

end Cert.KernelIdeal.Val2

end
-- ==== Proof.KI.ChainMid.lean ====
import proofs.«430728_j7627861917709_1_alg».proof.Proof.KI.Names
import proofs.«430728_j7627861917709_1_alg».proof.Proof.KI.Val2
import proofs.«430728_j7627861917709_1_alg».proof.Proof.RefRead
import Idealize.ShloMosaic.Lib.Pipeline.Cells

namespace Cert.KernelIdeal.Chain

open Cert.KernelIdeal Cert.KernelIdeal.Gen Cert.KernelIdeal.Vals
open Cert.ReferenceIdeal.Read
open Idealize.ShloMosaic Idealize.ShloMosaic.TcCoe Idealize.ShloMosaic.ValueIdx
open Idealize.SL Idealize.SL.Sem

variable (m : (ℓ : Loc nD τ sig) → Buf (Elt Ideal) ℓ) (c : Dev nD)

namespace Mid

theorem i35 (e : Fin 800000) (j : Fin 64) : idx_main_v35 (idx_main_v36 (ix2 e j)) = ix1 j := eq_ix1 _
theorem i41 (e : Fin 800000) (j : Fin 64) : idx_main_v41 (idx_main_v42 (ix2 e j)) = ix1 j := eq_ix1 _
theorem i44 (e : Fin 800000) (j : Fin 64) : idx_main_v44 (idx_main_v45 (ix2 e j)) = ix1 j := eq_ix1 _
theorem i47 (e : Fin 800000) (j : Fin 64) : idx_main_v47 (idx_main_v48 (ix2 e j)) = ix1 j := eq_ix1 _
theorem i56 (e : Fin 800000) (k : Fin 32) : idx_main_v56 (idx_main_v57 (ix2 e k)) = ix1 k := eq_ix1 _
theorem i62 (e : Fin 800000) (k : Fin 32) : idx_main_v62 (idx_main_v63 (ix2 e k)) = ix1 k := eq_ix1 _
theorem l55 (e : Fin 800000) (k : Fin 32) (j : Fin 64) : lidx_main_v55 (ix2 e k) j = ix2 e j := eq_ix2 _
theorem r55 (e : Fin 800000) (k : Fin 32) (j : Fin 64) : ridx_main_v55 (ix2 e k) j = ix2 j k := eq_ix2 _
theorem i59 (k : Fin 32) (e : Fin 800000) : idx_main_v59 (ix1 k) e = ix2 e k := eq_ix2 _
theorem i66 (k : Fin 32) (e : Fin 800000) : idx_main_v66 (ix1 k) e = ix2 e k := eq_ix2 _

variable (x0 : Vec Ideal S50000x256 .f32) (x1 : Vec Ideal S256x128 .f32) (x2 : Vec Ideal S128x64 .f32) (x3 x4 x5 : Vec Ideal S64 .f32) (x6 : Vec Ideal S64x32 .f32) (x7 : Vec Ideal S32 .f32) (x12 : IVec S2x800000 32)

theorem ref_v54 (e : Fin 800000) (j : Fin 64) :
    val_main_v54 x0 x1 x2 x3 x4 x5 x12 (ix2 e j)
      = Cert.Spec.lrelu (Cert.Spec.bn (val_main_v24 x0 x1 x2 x3 x12 (ix2 e j)) (val_main_v27 x0 x1 x2 x3 x12 (ix1 j))
          (val_main_v34 x0 x1 x2 x3 x12 (ix1 j)) (x4 (ix1 j)) (x5 (ix1 j))) := by
  rw [val_main_v54_apply, val_main_v51_apply, val_main_v53_apply, val_main_v50_apply, val_main_cst_7_apply,
    val_main_v52_apply, val_main_cst_8_apply, val_main_v49_apply, val_main_v46_apply, val_main_v43_apply,
    val_main_v37_apply, val_main_v36_apply, val_main_v35_apply, i35, val_main_v42_apply, val_main_v41_apply, i41,
    val_main_v40_apply, val_main_v39_apply, val_main_v38_apply, val_main_cst_6_apply, val_main_v45_apply,
    val_main_v44_apply, i44, val_main_v48_apply, val_main_v47_apply, i47]
  rfl

theorem ref_v58 (e : Fin 800000) (k : Fin 32) :
    val_main_v58 x0 x1 x2 x3 x4 x5 x6 x7 x12 (ix2 e k)
      = (∑ j : Fin 64, val_main_v54 x0 x1 x2 x3 x4 x5 x12 (ix2 e j) * x6 (ix2 j k)) + x7 (ix1 k) := by
  rw [val_main_v58_apply, val_main_v55_apply, val_main_v57_apply, val_main_v56_apply, i56]
  show _ + _ = _ + _
  refine congrArg (· + _) (Finset.sum_congr rfl fun j _ => ?_)
  rw [l55, r55]

theorem ref_v61 (k : Fin 32) :
    val_main_v61 x0 x1 x2 x3 x4 x5 x6 x7 x12 (ix1 k)
      = Ideal.div (∑ e : Fin 800000, val_main_v58 x0 x1 x2 x3 x4 x5 x6 x7 x12 (ix2 e k)) Cert.Spec.cntF := by
  rw [val_main_v61_apply, val_main_v59_apply, val_main_cst_9_apply, val_main_v60_apply, val_main_cst_10_apply]
  show Ideal.div (Cert.Spec.zeroF + _) Cert.Spec.cntF = _
  rw [Cert.Algebra.zeroF_eq, zero_add]
  exact congrArg (Ideal.div · Cert.Spec.cntF) (Finset.sum_congr rfl fun e _ => by rw [i59])

local macro "keep_below_W2 " r:term : tactic => `(tactic| (
  unfold Vals.W2
  rw [Pipeline.withArrays_of_ne spec0 _ _ _ $r (by decide)]
  show StableHlo.after hostOps0 _ (Proc.devRef .tc $r) = _
  after_results))

theorem arg4_W2 : (W2 m c main_arg4 : Vec Ideal S64 .f32) = a4 m c := by keep_below_W2 main_arg4
theorem arg5_W2 : (W2 m c main_arg5 : Vec Ideal S64 .f32) = a5 m c := by keep_below_W2 main_arg5
theorem arg7_W2 : (W2 m c main_arg7 : Vec Ideal S32 .f32) = a7 m c := by keep_below_W2 main_arg7

theorem g1_eq (j : Fin 64) : Val2.g1A (Vals.V7 m) c (ix2 0 j) = a4 m c (ix1 j) := by
  show StableHlo.after hostOps2 _ (Proc.devRef .tc main_v11) (ix2 0 j) = _
  after_results
  unfold Vals.W6
  rw [Pipeline.withArrays_of_ne spec1 _ _ _ main_v11 (by decide)]
  show StableHlo.after hostOps1_2 _ (Proc.devRef .tc main_v11) (ix2 0 j) = _
  after_results
  rw [arg4_W2 m c]
  exact shapeCast_a_1a_apply _ _ 0 j

theorem b1_eq (j : Fin 64) : Val2.b1A (Vals.V7 m) c (ix2 0 j) = a5 m c (ix1 j) := by
  show StableHlo.after hostOps2 _ (Proc.devRef .tc main_v12) (ix2 0 j) = _
  after_results
  unfold Vals.W6
  rw [Pipeline.withArrays_of_ne spec1 _ _ _ main_v12 (by decide)]
  show StableHlo.after hostOps1_2 _ (Proc.devRef .tc main_v12) (ix2 0 j) = _
  after_results
  rw [arg5_W2 m c]
  exact shapeCast_a_1a_apply _ _ 0 j

theorem b2_eq (k : Fin 32) : Val2.a2bA (Vals.V7 m) c (ix2 0 k) = a7 m c (ix1 k) := by
  show StableHlo.after hostOps2 _ (Proc.devRef .tc main_v10) (ix2 0 k) = _
  after_results
  unfold Vals.W6
  rw [Pipeline.withArrays_of_ne spec1 _ _ _ main_v10 (by decide)]
  show StableHlo.after hostOps1_2 _ (Proc.devRef .tc main_v10) (ix2 0 k) = _
  after_results
  rw [arg7_W2 m c]
  exact shapeCast_a_1a_apply _ _ 0 k

theorem arg6_W7 : Val2.a2wA (Vals.V7 m) c = a6 m c := by
  show StableHlo.after hostOps2 _ (Proc.devRef .tc main_arg6) = _
  after_results
  unfold Vals.W6
  rw [Pipeline.withArrays_of_ne spec1 _ _ _ main_arg6 (by decide)]
  show StableHlo.after hostOps1_2 _ (Proc.devRef .tc main_arg6) = _
  after_results
  keep_below_W2 main_arg6

theorem W8_arr (w : Fin cfg2.W) : Vals.W8 m c (Proc.devRef .tc (Pipeline.arrRef spec2 w)) = (Reg2.dat (Vals.V7 m) c).arrAt w cfg2.N := by
  unfold Vals.W8
  exact Pipeline.withArrays_arr spec2 launch2.win.arr_inj c _ _ w

theorem z1K_val : z1K m c = Val2.z1A (Vals.V7 m) c := W8_arr m c 9
theorem sum2K_val : sum2K m c = Val2.sumA (Vals.V7 m) c := W8_arr m c 10
theorem sumsq2K_val : sumsq2K m c = Val2.sumsqA (Vals.V7 m) c := W8_arr m c 11

theorem mean2K_apply (k : Fin 32) :
    mean2K m c (ix2 0 k) = Ideal.div (sum2K m c (ix2 0 k)) Cert.Spec.cntF := by
  show StableHlo.after hostOps3 _ (Proc.devRef .tc main_v26) (ix2 0 k) = _
  after_results
  rfl

theorem var2K_apply (k : Fin 32) :
    var2K m c (ix2 0 k) = Ideal.div (sumsq2K m c (ix2 0 k)) Cert.Spec.cntF
      - Ideal.div (sum2K m c (ix2 0 k)) Cert.Spec.cntF * Ideal.div (sum2K m c (ix2 0 k)) Cert.Spec.cntF := by
  show StableHlo.after hostOps3 _ (Proc.devRef .tc main_v30) (ix2 0 k) = _
  after_results
  rfl

theorem arg3_W2 : (W2 m c main_arg3 : Vec Ideal S64 .f32) = a3 m c := by keep_below_W2 main_arg3

theorem v8_W7 : Val2.ehA (Vals.V7 m) c = ehK m c := by
  show StableHlo.after hostOps2 _ (Proc.devRef .tc main_v8) = _
  after_results
  unfold Vals.W6
  exact (Pipeline.withArrays_arr spec1 launch1.win.arr_inj c _ _ 0).trans
    (((Reg1.dat (Vals.V5 m) c).arrAt_in 0 rfl _).trans (Reg1.dat_A (Vals.V5 m) c 0))

theorem arg2_W7 : Val2.a1wA (Vals.V7 m) c = a2 m c := by
  show StableHlo.after hostOps2 _ (Proc.devRef .tc main_arg2) = _
  after_results
  unfold Vals.W6
  refine (Pipeline.withArrays_arr spec1 launch1.win.arr_inj c _ _ 1).trans
    (((Reg1.dat (Vals.V5 m) c).arrAt_in 1 rfl _).trans ((Reg1.dat_A (Vals.V5 m) c 1).trans ?_))
  show StableHlo.after hostOps1_2 _ (Proc.devRef .tc main_arg2) = _
  after_results
  keep_below_W2 main_arg2

theorem v9_W7 : (W7 m c main_v9 : Vec Ideal S1x64 .f32) = shapeCast S1x64 (a3 m c) shapeCasts_S64_S1x64 := by
  show StableHlo.after hostOps2 _ (Proc.devRef .tc main_v9) = _
  after_results
  unfold Vals.W6
  refine (Pipeline.withArrays_arr spec1 launch1.win.arr_inj c _ _ 2).trans
    (((Reg1.dat (Vals.V5 m) c).arrAt_in 2 rfl _).trans ((Reg1.dat_A (Vals.V5 m) c 2).trans ?_))
  show StableHlo.after hostOps1_2 _ (Proc.devRef .tc main_v9) = _
  after_results
  rw [arg3_W2 m c]
  rfl

theorem i22 (e : Fin 800000) (j : Fin 64) : idx_main_v22 (idx_main_v23 (ix2 e j)) = ix1 j := eq_ix1 _
theorem l21 (e : Fin 800000) (j : Fin 64) (k : Fin 128) : lidx_main_v21 (ix2 e j) k = ix2 e k := eq_ix2 _
theorem r21 (e : Fin 800000) (j : Fin 64) (k : Fin 128) : ridx_main_v21 (ix2 e j) k = ix2 k j := eq_ix2 _

theorem ref_v24 (e : Fin 800000) (j : Fin 64) :
    val_main_v24 x0 x1 x2 x3 x12 (ix2 e j)
      = (∑ k : Fin 128, val_main_v20 x0 x1 x12 (ix2 e k) * x2 (ix2 k j)) + x3 (ix1 j) := by
  rw [val_main_v24_apply, val_main_v21_apply, val_main_v23_apply, val_main_v22_apply, i22]
  show _ + _ = _ + _
  refine congrArg (· + _) (Finset.sum_congr rfl fun k _ => ?_)
  rw [l21, r21]

end Mid

open Mid

theorem v1_of_eh (heh : ehK m c = val_main_v20 (a0 m c) (a1 m c) (a12 m c)) :
    ∀ (e : Fin 800000) (j : Fin 64), Val2.v1 (Vals.V7 m) c e j = val_main_v24 (a0 m c) (a1 m c) (a2 m c) (a3 m c) (a12 m c) (ix2 e j) := by
  intro e j
  rw [ref_v24]
  unfold Val2.v1
  have hb : Val2.a1bA (Vals.V7 m) c (ix2 0 j) = a3 m c (ix1 j) := by
    show (W7 m c main_v9 : Vec Ideal S1x64 .f32) (ix2 0 j) = _
    rw [v9_W7 m c]; exact shapeCast_a_1a_apply _ _ 0 j
  rw [hb, (v8_W7 m c).trans heh, arg2_W7 m c]

variable (hv1 : ∀ (e : Fin 800000) (j : Fin 64), Val2.v1 (Vals.V7 m) c e j = val_main_v24 (a0 m c) (a1 m c) (a2 m c) (a3 m c) (a12 m c) (ix2 e j))
  (hmean1 : ∀ j : Fin 64, mean1K m c (ix2 0 j) = val_main_v27 (a0 m c) (a1 m c) (a2 m c) (a3 m c) (a12 m c) (ix1 j))
  (hvar1 : ∀ j : Fin 64, var1K m c (ix2 0 j) = val_main_v34 (a0 m c) (a1 m c) (a2 m c) (a3 m c) (a12 m c) (ix1 j))
include hv1 hmean1 hvar1

theorem Mid.z1_val (e : Fin 800000) (j : Fin 64) : Val2.z1 (Vals.V7 m) c e j = val_main_v54 (a0 m c) (a1 m c) (a2 m c) (a3 m c) (a4 m c) (a5 m c) (a12 m c) (ix2 e j) := by
  rw [ref_v54]
  unfold Val2.z1
  have h2 : Val2.mean1A (Vals.V7 m) c (ix2 0 j) = _ := hmean1 j
  have h3 : Val2.var1A (Vals.V7 m) c (ix2 0 j) = _ := hvar1 j
  rw [hv1 e j, h2, h3, g1_eq m c j, b1_eq m c j]

theorem z1_eq :
    ∀ (e : Fin 800000) (j : Fin 64), z1K m c (ix2 e j) = val_main_v54 (a0 m c) (a1 m c) (a2 m c) (a3 m c) (a4 m c) (a5 m c) (a12 m c) (ix2 e j) := by
  intro e j
  rw [z1K_val, Val2.arr_z1]
  exact z1_val m c hv1 hmean1 hvar1 e j

theorem v2_eq :
    ∀ (e : Fin 800000) (k : Fin 32), Val2.v2 (Vals.V7 m) c e k = val_main_v58 (a0 m c) (a1 m c) (a2 m c) (a3 m c) (a4 m c) (a5 m c) (a6 m c) (a7 m c) (a12 m c) (ix2 e k) := by
  intro e k
  rw [ref_v58]
  unfold Val2.v2
  rw [b2_eq m c k, arg6_W7 m c]
  refine congrArg (· + _) (Finset.sum_congr rfl fun j _ => ?_)
  rw [z1_val m c hv1 hmean1 hvar1 e j]

theorem mean2_eq :
    ∀ k : Fin 32, mean2K m c (ix2 0 k) = val_main_v61 (a0 m c) (a1 m c) (a2 m c) (a3 m c) (a4 m c) (a5 m c) (a6 m c) (a7 m c) (a12 m c) (ix1 k) := by
  intro k
  rw [mean2K_apply, ref_v61, sum2K_val, Val2.arr_sum]
  exact congrArg (Ideal.div · Cert.Spec.cntF) (Finset.sum_congr rfl fun e _ => v2_eq m c hv1 hmean1 hvar1 e k)

theorem var2_eq
    (hfin : ∀ i, Cert.Algebra.IsReal (val_main_v58 (a0 m c) (a1 m c) (a2 m c) (a3 m c) (a4 m c) (a5 m c) (a6 m c) (a7 m c) (a12 m c) i)) :
    ∀ k : Fin 32, var2K m c (ix2 0 k) = val_main_v68 (a0 m c) (a1 m c) (a2 m c) (a3 m c) (a4 m c) (a5 m c) (a6 m c) (a7 m c) (a12 m c) (ix1 k) := by
  intro k
  rw [var2K_apply, sum2K_val, sumsq2K_val, Val2.arr_sum, Val2.arr_sumsq, val_main_v68_apply, val_main_v66_apply,
    val_main_cst_11_apply, val_main_v67_apply, val_main_cst_12_apply]
  simp only [v2_eq m c hv1 hmean1 hvar1 _ k]
  show _ = Ideal.div (Cert.Spec.zeroF + _) Cert.Spec.cntF
  rw [Cert.Algebra.zeroF_eq, zero_add]
  refine (Cert.Algebra.var_eq (fun e => val_main_v58 (a0 m c) (a1 m c) (a2 m c) (a3 m c) (a4 m c) (a5 m c) (a6 m c) (a7 m c) (a12 m c) (ix2 e k)) fun e => hfin (ix2 e k)).symm.trans
    (congrArg (Ideal.div · Cert.Spec.cntF) (Finset.sum_congr rfl fun e _ => ?_))
  rw [i66, val_main_v65_apply, val_main_v64_apply, val_main_v63_apply, val_main_v62_apply, i62, ref_v61]
  rfl

end Cert.KernelIdeal.Chain
-- ==== Proof.KI.Val3.lean ====
import proofs.«430728_j7627861917709_1_alg».proof.Proof.KI.Reg3
import proofs.«430728_j7627861917709_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Val3

open Cert.KernelIdeal Cert.KernelIdeal.Gen
open Idealize.ShloMosaic Idealize.ShloMosaic.TcCoe Idealize.ShloMosaic.ValueIdx
open Idealize.SL Idealize.SL.Sem

section Layout
variable {α : Type}

theorem column_of_vector {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    rw [Shape.rowMajor_val_two, Shape.rowMajor_val_one]
    show r.val = r.val * 1 + u.val
    omega)

theorem column_of_entry {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

theorem lanes_of_column {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

end Layout

theorem exp_at {s : Shape} {φ : FTy} (x : FVec Ideal s φ) (i : s.Idx) : Idealize.ShloMosaic.exp x i = Ideal.exp (x i) := rfl
theorem rsqrt_at {s : Shape} {φ : FTy} (x : FVec Ideal s φ) (i : s.Idx) : Idealize.ShloMosaic.rsqrt x i = Ideal.rsqrt (x i) := rfl
theorem scalar_word (b : BitVec 32) : (Scalar.ofBits .f32 b : Ideal .f32) = Ideal.ofBits .f32 b := rfl

theorem lhs_hidden_0 (i : S3200x32.Idx) (q : dot_S3200x64_S64x32_S3200x32_1_0_0_1_n_n.contr.Idx) :
    (dot_S3200x64_S64x32_S3200x32_1_0_0_1_n_n.lhsIdx i q 0).val = (i 0).val := by
  unfold DotDims.lhsIdx
  rw [dif_neg (show ¬(0 : Fin S3200x64.rank) ∈ dot_S3200x64_S64x32_S3200x32_1_0_0_1_n_n.lhsBatch by decide), dif_pos (show (0 : Fin S3200x64.rank) ∈ dot_S3200x64_S64x32_S3200x32_1_0_0_1_n_n.lhsNonContracting by decide)]
  rfl
theorem rhs_hidden_1 (i : S3200x32.Idx) (q : dot_S3200x64_S64x32_S3200x32_1_0_0_1_n_n.contr.Idx) :
    (dot_S3200x64_S64x32_S3200x32_1_0_0_1_n_n.rhsIdx i q 1).val = (i 1).val := by
  unfold DotDims.rhsIdx
  rw [dif_neg (show ¬(1 : Fin S64x32.rank) ∈ dot_S3200x64_S64x32_S3200x32_1_0_0_1_n_n.rhsBatch by decide), dif_pos (show (1 : Fin S64x32.rank) ∈ dot_S3200x64_S64x32_S3200x32_1_0_0_1_n_n.rhsNonContracting by decide)]
  rfl

theorem hidden_apply (z : FVec Ideal S3200x64 .bf16) (a : FVec Ideal S64x32 .bf16) (r : Fin 3200) (k : Fin 32) :
    matmul dot_S3200x64_S64x32_S3200x32_1_0_0_1_n_n none z a (constant S3200x32 .f32 0x00000000#32) (ix2 r k)
      = ∑ j : Fin 64, z (ix2 r j) * a (ix2 j k) := by
  simp only [matmul]
  rw [Ideal.matmul_constant_zero_apply, ← Equiv.sum_comp (ValueIdx.contrEquiv1 dot_S3200x64_S64x32_S3200x32_1_0_0_1_n_n 64 rfl rfl).symm]
  refine Finset.sum_congr rfl fun j _ => ?_
  have hj := ValueIdx.contrEquiv1_symm_val dot_S3200x64_S64x32_S3200x32_1_0_0_1_n_n 64 rfl rfl j
  congr 1 <;> refine congrArg _ (funext fun ax => Fin.ext ?_)
  · match ax with
    | ⟨0, _⟩ => exact lhs_hidden_0 _ _
    | ⟨1, _⟩ => exact (dot_S3200x64_S64x32_S3200x32_1_0_0_1_n_n.lhsIdx_val_of_single rfl _ _).trans hj
  · match ax with
    | ⟨0, _⟩ => exact (dot_S3200x64_S64x32_S3200x32_1_0_0_1_n_n.rhsIdx_val_of_single rfl _ _).trans hj
    | ⟨1, _⟩ => exact rhs_hidden_1 _ _

theorem lane_sum_apply (src : FVec Ideal S3200x32 .f32) (h : S3200x32.Reduces [1] S3200) (hφ : FKind.Formats .f32)
    (hacc : (0x00000000#32 : BitVec 32) = 0x00000000#32) (r : Fin 3200) :
    multiReduction .add [1] S3200 src 0x00000000#32 h hφ hacc (ix1 r) = ∑ k : Fin 32, src (ix2 r k) := by
  refine (Ideal.multiReduction_add_single src 0x00000000#32 h hφ hacc (ix1 r)).trans ?_
  show (∑ k : Fin 32, src (h.lift (ix1 r) k)) = _
  refine Finset.sum_congr rfl fun k _ => congrArg src (funext fun ax => Fin.ext ?_)
  match ax with
  | ⟨0, _⟩ => rfl
  | ⟨1, _⟩ => rfl

open Cert.Spec in

theorem pay3_apply (z a ab var mean g b w : Vec Ideal _ _) (r : Fin 3200) :
    k3_pay3 z a ab var mean g b w (ix1 r)
      = ∑ k : Fin 32, lrelu (bn ((∑ j : Fin 64, z (ix2 r j) * a (ix2 j k)) + ab (ix2 0 k)) (mean (ix2 0 k)) (var (ix2 0 k))
          (g (ix2 0 k)) (b (ix2 0 k))) * w (ix2 0 k) := by
  unfold k3_pay3
  refine (lane_sum_apply _ _ _ _ r).trans ?_
  refine Finset.sum_congr rfl fun k _ => ?_
  simp only [mulf_apply, select_apply, cmpf_apply, addf_apply, subf_apply, broadcast_apply, broadcastTo_1b_ab_apply,
    shapeCast_self, rsqrt_at, hidden_apply, truncf_apply, scalar_word]
  rfl

open Cert.Spec in

theorem pay1_apply (s : FVec Ideal _ _) (b sm : Vec Ideal _ _) (r : Fin 3200) :
    k3_pay1 s b sm (ix2 r 0) = Ideal.exp (zeroF - lrelu (s (ix1 r) + b (ix2 0 0))) + sm (ix2 r 0) := by
  unfold k3_pay1
  simp only [addf_apply, exp_at, subf_apply, select_apply, cmpf_apply, mulf_apply, broadcast_apply, shapeCast_self,
    column_of_vector, column_of_entry, scalar_word]
  rfl

theorem pay2_apply (s : FVec Ideal _ _) (b sm h : Vec Ideal _ _) (r : Fin 3200) (j : Fin 128) :
    k3_pay2 s b sm h (ix2 r j) = k3_pay1 s b sm (ix2 r 0) * h (ix2 r j) := by
  unfold k3_pay2
  simp only [mulf_apply, shapeCast_self, lanes_of_column]

theorem zeros2 : (![0, 0] : Fin 2 → Nat) = fun _ => 0 := funext fun a => by fin_cases a <;> rfl

open Cert.Spec in

def rowWeight (x0 : Vec Ideal S3200x64 .bf16) (x2 : Vec Ideal S64x32 .f32) (x3 x4 x5 x6 x7 x8 : Vec Ideal S1x32 .f32)
    (x9 : Vec Ideal S1x1 .f32) (x10 : Vec Ideal S3200x1 .f32) (r : Fin 3200) : EReal :=
  Ideal.exp (zeroF - lrelu ((∑ k : Fin 32, lrelu (bn ((∑ j : Fin 64, x0 (ix2 r j) * x2 (ix2 j k)) + x3 (ix2 0 k))
      (x4 (ix2 0 k)) (x5 (ix2 0 k)) (x6 (ix2 0 k)) (x7 (ix2 0 k))) * x8 (ix2 0 k)) + x9 (ix2 0 0))) + x10 (ix2 r 0)

theorem weights_apply (x0 x2 x3 x4 x5 x6 x7 x8 x9 x10 : Vec Ideal _ _) (r : Fin 3200) :
    Reg3.weights x0 x2 x3 x4 x5 x6 x7 x8 x9 x10 (ix2 r 0) = rowWeight x0 x2 x3 x4 x5 x6 x7 x8 x9 x10 r := by
  unfold Reg3.weights Reg3.scoreRows
  rw [View.canon_unit_zero zeros2]
  simp only [View.ld_unit_zero (S := S3200x64) zeros2, View.ld_unit_zero (S := S64x32) zeros2,
    View.ld_unit_zero (S := S1x32) zeros2, View.ld_unit_zero (S := S1x1) zeros2, View.ld_unit_zero (S := S3200x1) zeros2]
  refine (pay1_apply _ _ _ r).trans ?_
  rw [pay3_apply]
  rfl

theorem weighted_apply (x0 x1 x2 x3 x4 x5 x6 x7 x8 x9 x10 : Vec Ideal _ _) (r : Fin 3200) (j : Fin 128) :
    Reg3.weighted x0 x1 x2 x3 x4 x5 x6 x7 x8 x9 x10 (ix2 r j)
      = rowWeight x0 x2 x3 x4 x5 x6 x7 x8 x9 x10 r * x1 (ix2 r j) := by
  rw [← weights_apply]
  unfold Reg3.weighted Reg3.weights
  rw [View.canon_unit_zero zeros2, View.canon_unit_zero zeros2, View.ld_unit_zero (S := S3200x128) zeros2]
  exact pay2_apply _ _ _ _ r j

variable (V : (c : Dev nD) → (b : Ref sig .tc) → Buf (Elt Ideal) ((c : Thread nD τ).loc b)) (c : Dev nD)

abbrev z1A : Vec Ideal S800000x64 .bf16 := V c main_v24_0
abbrev hdA : Vec Ideal S800000x128 .f32 := V c main_v6
abbrev a2wA : Vec Ideal S64x32 .f32 := V c main_arg6
abbrev a2bA : Vec Ideal S1x32 .f32 := V c main_v10
abbrev mean2A : Vec Ideal S1x32 .f32 := V c main_v26
abbrev var2A : Vec Ideal S1x32 .f32 := V c main_v30
abbrev g2A : Vec Ideal S1x32 .f32 := V c main_v13
abbrev b2A : Vec Ideal S1x32 .f32 := V c main_v14
abbrev a3wA : Vec Ideal S1x32 .f32 := V c main_v15
abbrev a3bA : Vec Ideal S1x1 .f32 := V c main_v16
abbrev sameA : Vec Ideal S800000x1 .f32 := V c main_v33

abbrev eeA : Vec Ideal S800000x1 .f32 := (Reg3.dat V c).arrAt 11 cfg3.N
abbrev whA : Vec Ideal S800000x128 .f32 := (Reg3.dat V c).arrAt 12 cfg3.N

def v2 (e : Fin 800000) (k : Fin 32) : EReal := (∑ j : Fin 64, z1A V c (ix2 e j) * a2wA V c (ix2 j k)) + a2bA V c (ix2 0 k)
def z2 (e : Fin 800000) (k : Fin 32) : EReal :=
  Cert.Spec.lrelu (Cert.Spec.bn (v2 V c e k) (mean2A V c (ix2 0 k)) (var2A V c (ix2 0 k)) (g2A V c (ix2 0 k)) (b2A V c (ix2 0 k)))

def sc (e : Fin 800000) : EReal := Cert.Spec.lrelu ((∑ k : Fin 32, z2 V c e k * a3wA V c (ix2 0 k)) + a3bA V c (ix2 0 0))

def ee (e : Fin 800000) : EReal := Ideal.exp (Cert.Spec.zeroF - sc V c e) + sameA V c (ix2 e 0)

def edge (t : Fin cfg3.N) (r : Fin 3200) : Fin 800000 :=
  ⟨t.val * 3200 + r.val, by have := lt_of_lt_of_eq t.isLt N_3; omega⟩

theorem moving_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_10.index t (0 : Fin 2) = t.val ∧ win3_10.index t (1 : Fin 2) = 0
    ∧ win3_11.index t (0 : Fin 2) = t.val ∧ win3_11.index t (1 : Fin 2) = 0
    ∧ win3_12.index t (0 : Fin 2) = t.val ∧ win3_12.index t (1 : Fin 2) = 0 :=
  (by decide +kernel : ∀ t : Fin grid3.N, _)

theorem fixed_index : ∀ (t : Fin cfg3.N) (a : Fin 2),
    win3_2.index t a = 0 ∧ win3_3.index t a = 0 ∧ win3_4.index t a = 0 ∧ win3_5.index t a = 0 ∧ win3_6.index t a = 0
    ∧ win3_7.index t a = 0 ∧ win3_8.index t a = 0 ∧ win3_9.index t a = 0 :=
  (by decide +kernel : ∀ (t : Fin grid3.N) (a : Fin 2), _)

theorem z1B_at (t) (r : Fin 3200) (j : Fin 64) : Reg3.blk V c 0 t (ix2 r j) = z1A V c (ix2 (edge t r) j) := by
  show z1A V c (((cfg3.win 0).blk t).view.emb (ix2 r j)) = z1A V c (ix2 (edge t r) j)
  refine congrArg _ (funext fun a => Fin.ext ?_)
  obtain ⟨e0, e1, -⟩ := moving_index t
  match a with
  | ⟨0, _⟩ => show win3_0.index t (0 : Fin 2) * 3200 + 1 * r.val = t.val * 3200 + r.val; rw [e0]; omega
  | ⟨1, _⟩ => show win3_0.index t (1 : Fin 2) * 64 + 1 * j.val = j.val; rw [e1]; omega

theorem hdB_at (t) (r : Fin 3200) (j : Fin 128) : Reg3.blk V c 1 t (ix2 r j) = hdA V c (ix2 (edge t r) j) := by
  show hdA V c (((cfg3.win 1).blk t).view.emb (ix2 r j)) = hdA V c (ix2 (edge t r) j)
  refine congrArg _ (funext fun a => Fin.ext ?_)
  obtain ⟨-, -, e0, e1, -⟩ := moving_index t
  match a with
  | ⟨0, _⟩ => show win3_1.index t (0 : Fin 2) * 3200 + 1 * r.val = t.val * 3200 + r.val; rw [e0]; omega
  | ⟨1, _⟩ => show win3_1.index t (1 : Fin 2) * 128 + 1 * j.val = j.val; rw [e1]; omega

theorem sameB_at (t) (r : Fin 3200) : Reg3.blk V c 10 t (ix2 r 0) = sameA V c (ix2 (edge t r) 0) := by
  show sameA V c (((cfg3.win 10).blk t).view.emb (ix2 r 0)) = sameA V c (ix2 (edge t r) 0)
  refine congrArg _ (funext fun a => Fin.ext ?_)
  obtain ⟨-, -, -, -, e0, e1, -⟩ := moving_index t
  match a with
  | ⟨0, _⟩ => show win3_10.index t (0 : Fin 2) * 3200 + 1 * r.val = t.val * 3200 + r.val; rw [e0]; omega
  | ⟨1, _⟩ => show win3_10.index t (1 : Fin 2) * 1 + 1 * 0 = 0; rw [e1]

theorem fixed_blk (t) : Reg3.blk V c 2 t = a2wA V c ∧ Reg3.blk V c 3 t = a2bA V c ∧ Reg3.blk V c 4 t = mean2A V c ∧ Reg3.blk V c 5 t = var2A V c
    ∧ Reg3.blk V c 6 t = g2A V c ∧ Reg3.blk V c 7 t = b2A V c ∧ Reg3.blk V c 8 t = a3wA V c ∧ Reg3.blk V c 9 t = a3bA V c :=
  ⟨funext fun y => congrArg (a2wA V c) (funext fun a => Fin.ext (win3_2.rect_emb_val_of_index_zero t a (fixed_index t a).1 y)),
   funext fun y => congrArg (a2bA V c) (funext fun a => Fin.ext (win3_3.rect_emb_val_of_index_zero t a (fixed_index t a).2.1 y)),
   funext fun y => congrArg (mean2A V c) (funext fun a => Fin.ext (win3_4.rect_emb_val_of_index_zero t a (fixed_index t a).2.2.1 y)),
   funext fun y => congrArg (var2A V c) (funext fun a => Fin.ext (win3_5.rect_emb_val_of_index_zero t a (fixed_index t a).2.2.2.1 y)),
   funext fun y => congrArg (g2A V c) (funext fun a => Fin.ext (win3_6.rect_emb_val_of_index_zero t a (fixed_index t a).2.2.2.2.1 y)),
   funext fun y => congrArg (b2A V c) (funext fun a => Fin.ext (win3_7.rect_emb_val_of_index_zero t a (fixed_index t a).2.2.2.2.2.1 y)),
   funext fun y => congrArg (a3wA V c) (funext fun a => Fin.ext (win3_8.rect_emb_val_of_index_zero t a (fixed_index t a).2.2.2.2.2.2.1 y)),
   funext fun y => congrArg (a3bA V c) (funext fun a => Fin.ext (win3_9.rect_emb_val_of_index_zero t a (fixed_index t a).2.2.2.2.2.2.2 y))⟩

theorem rowWeight_at (t) (r : Fin 3200) :
    rowWeight (Reg3.blk V c 0 t) (Reg3.blk V c 2 t) (Reg3.blk V c 3 t) (Reg3.blk V c 4 t) (Reg3.blk V c 5 t) (Reg3.blk V c 6 t) (Reg3.blk V c 7 t) (Reg3.blk V c 8 t)
      (Reg3.blk V c 9 t) (Reg3.blk V c 10 t) r = ee V c (edge t r) := by
  unfold rowWeight ee sc z2 v2
  simp only [fixed_blk V c t, z1B_at, sameB_at]

def eeArr : Vec Ideal S800000x1 .f32 := fun i => ee V c ⟨(i 0).val, idx2_lt0 i⟩
def whArr : Vec Ideal S800000x128 .f32 := fun i => ee V c ⟨(i 0).val, idx2_lt0 i⟩ * hdA V c i

theorem flushed_ee (t) :
    (Reg3.dat V c).flushed 11 t = ((cfg3.win 11).blk t).view.read (Elt Ideal) (eeArr V c) := by
  show (cfg3.win 11).cut (grid3.coords t) ((Reg3.dat V c).after 11 t) = _
  rw [Reg3.after_11]
  funext (y : S3200x1.Idx)
  obtain ⟨r, u, rfl⟩ : ∃ (r : Fin 3200) (u : Fin 1), y = ix2 r u := ⟨y 0, y 1, eq_ix2 y⟩
  obtain rfl : u = 0 := Fin.eq_zero u
  show Reg3.weights (Reg3.blk V c 0 t) (Reg3.blk V c 2 t) (Reg3.blk V c 3 t) (Reg3.blk V c 4 t) (Reg3.blk V c 5 t) (Reg3.blk V c 6 t) (Reg3.blk V c 7 t)
      (Reg3.blk V c 8 t) (Reg3.blk V c 9 t) (Reg3.blk V c 10 t) (ix2 r 0) = eeArr V c (((cfg3.win 11).blk t).view.emb (ix2 r 0))
  refine (weights_apply _ _ _ _ _ _ _ _ _ _ r).trans ?_
  rw [rowWeight_at]
  unfold eeArr
  refine congrArg (ee V c) (Fin.ext ?_)
  obtain ⟨-, -, -, -, -, -, e0, -⟩ := moving_index t
  show t.val * 3200 + r.val = win3_11.index t (0 : Fin 2) * 3200 + 1 * r.val
  rw [e0]; omega

theorem flushed_wh (t) :
    (Reg3.dat V c).flushed 12 t = ((cfg3.win 12).blk t).view.read (Elt Ideal) (whArr V c) := by
  show (cfg3.win 12).cut (grid3.coords t) ((Reg3.dat V c).after 12 t) = _
  rw [Reg3.after_12]
  funext (y : S3200x128.Idx)
  obtain ⟨r, j, rfl⟩ : ∃ (r : Fin 3200) (j : Fin 128), y = ix2 r j := ⟨y 0, y 1, eq_ix2 y⟩
  show Reg3.weighted (Reg3.blk V c 0 t) (Reg3.blk V c 1 t) (Reg3.blk V c 2 t) (Reg3.blk V c 3 t) (Reg3.blk V c 4 t) (Reg3.blk V c 5 t) (Reg3.blk V c 6 t)
      (Reg3.blk V c 7 t) (Reg3.blk V c 8 t) (Reg3.blk V c 9 t) (Reg3.blk V c 10 t) (ix2 r j) = whArr V c (((cfg3.win 12).blk t).view.emb (ix2 r j))
  refine (weighted_apply _ _ _ _ _ _ _ _ _ _ _ r j).trans ?_
  rw [rowWeight_at, hdB_at]
  unfold whArr
  obtain ⟨-, -, -, -, -, -, -, -, e0, e1⟩ := moving_index t
  have hemb : ((cfg3.win 12).blk t).view.emb (ix2 r j) = ix2 (edge t r) j := funext fun a => Fin.ext (by
    match a with
    | ⟨0, _⟩ => show win3_12.index t (0 : Fin 2) * 3200 + 1 * r.val = t.val * 3200 + r.val; rw [e0]; omega
    | ⟨1, _⟩ => show win3_12.index t (1 : Fin 2) * 128 + 1 * j.val = j.val; rw [e1]; omega)
  rw [hemb]

theorem cover_ee (i : S800000x1.Idx) :
    ∃ t : Fin cfg3.N, (cfg3.win 11).flush t = true ∧ i ∈ ((cfg3.win 11).blk t).view.set := by
  have h0 : (i 0).val < 800000 := idx2_lt0 i
  have h1 : (i 1).val < 1 := idx2_lt1 i
  obtain ⟨t, ht⟩ : ∃ t : Fin cfg3.N, t.val = (i 0).val / 3200 :=
    ⟨⟨(i 0).val / 3200, lt_of_lt_of_eq (by omega : (i 0).val / 3200 < 250) N_3.symm⟩, rfl⟩
  obtain ⟨-, -, -, -, -, -, e0, e1, -⟩ := moving_index t
  refine ⟨t, flush3_11 t, ?_⟩
  show i ∈ ((View.whole main_v34_0).slice (win3_11.rect t)).set
  rw [View.set_slice_whole, Rect.mem_set_unit]
  intro a
  match a with
  | ⟨0, _⟩ =>
    show win3_11.index t (0 : Fin 2) * 3200 ≤ (i 0).val ∧ (i 0).val < win3_11.index t (0 : Fin 2) * 3200 + 3200
    rw [e0, ht]; omega
  | ⟨1, _⟩ =>
    show win3_11.index t (1 : Fin 2) * 1 ≤ (i 1).val ∧ (i 1).val < win3_11.index t (1 : Fin 2) * 1 + 1
    rw [e1]; omega

theorem cover_wh (i : S800000x128.Idx) :
    ∃ t : Fin cfg3.N, (cfg3.win 12).flush t = true ∧ i ∈ ((cfg3.win 12).blk t).view.set := by
  have h0 : (i 0).val < 800000 := idx2_lt0 i
  have h1 : (i 1).val < 128 := idx2_lt1 i
  obtain ⟨t, ht⟩ : ∃ t : Fin cfg3.N, t.val = (i 0).val / 3200 :=
    ⟨⟨(i 0).val / 3200, lt_of_lt_of_eq (by omega : (i 0).val / 3200 < 250) N_3.symm⟩, rfl⟩
  obtain ⟨-, -, -, -, -, -, -, -, e0, e1⟩ := moving_index t
  refine ⟨t, flush3_12 t, ?_⟩
  show i ∈ ((View.whole main_v34_1).slice (win3_12.rect t)).set
  rw [View.set_slice_whole, Rect.mem_set_unit]
  intro a
  match a with
  | ⟨0, _⟩ =>
    show win3_12.index t (0 : Fin 2) * 3200 ≤ (i 0).val ∧ (i 0).val < win3_12.index t (0 : Fin 2) * 3200 + 3200
    rw [e0, ht]; omega
  | ⟨1, _⟩ =>
    show win3_12.index t (1 : Fin 2) * 128 ≤ (i 1).val ∧ (i 1).val < win3_12.index t (1 : Fin 2) * 128 + 128
    rw [e1]; omega

theorem arr_ee (e : Fin 800000) : eeA V c (ix2 e 0) = ee V c e :=
  congrFun ((Reg3.dat V c).arrAt_eq_of_cover 11 (eeArr V c) (fun t _ => flushed_ee V c t) (cover_ee)) (ix2 e 0)

theorem arr_wh (e : Fin 800000) (j : Fin 128) : whA V c (ix2 e j) = ee V c e * hdA V c (ix2 e j) :=
  congrFun ((Reg3.dat V c).arrAt_eq_of_cover 12 (whArr V c) (fun t _ => flushed_wh V c t) (cover_wh)) (ix2 e j)

end Cert.KernelIdeal.Val3

end
-- ==== Proof.KI.Val4.lean ====
import proofs.«430728_j7627861917709_1_alg».proof.Proof.KI.Reg4
import proofs.«430728_j7627861917709_1_alg».proof.Proof.Spec
import Idealize.ShloMosaic.Lib.ValueIdx
import Idealize.ShloMosaic.Lib.Pipeline.Value
import Idealize.ShloMosaic.PureOps.Ideal.Laws

noncomputable section

namespace Cert.KernelIdeal.Val4

open Cert.KernelIdeal.Gen
open Idealize.ShloMosaic Idealize.ShloMosaic.TcCoe Idealize.ShloMosaic.ValueIdx
open Idealize.SL Idealize.SL.Sem

def blockRow (y : S2000x128.Idx) : S2000x1.Idx := ix2 (⟨(y 0).val, idx2_lt0 y⟩ : Fin 2000) (0 : Fin 1)

theorem column_along_lanes {α : Type} (v : S2000x1.Idx → α) (y : S2000x128.Idx) :
    broadcastTo S2000x128 v broadcasts_S2000x1_S2000x128 y = v (blockRow y) := by
  refine broadcastTo_apply v broadcasts_S2000x1_S2000x128 y (blockRow y) fun ax => ?_
  match ax with
  | ⟨0, _⟩ => rfl
  | ⟨1, _⟩ => rfl

theorem payload_at (s : Vec Ideal S2000x1 .f32) (a : Vec Ideal S2000x128 .f32) (y : S2000x128.Idx) :
    k4_pay1 s a y = Cert.Spec.lrelu (Ideal.div (a y) (Cert.Spec.fixDen (s (blockRow y)))) := by
  unfold k4_pay1
  simp only [select_apply, cmpf_apply, mulf_apply, divf_apply, broadcast_apply, shapeCast_self, column_along_lanes]
  rfl

def arrayRow (i : S50000x128.Idx) : S50000x1.Idx := ix2 (⟨(i 0).val, idx2_lt0 i⟩ : Fin 50000) (0 : Fin 1)

def normalised (hp : Vec Ideal S50000x128 .f32) (rs : Vec Ideal S50000x1 .f32) : Vec Ideal S50000x128 .f32 :=
  fun i => Cert.Spec.lrelu (Ideal.div (hp i) (Cert.Spec.fixDen (rs (arrayRow i))))

variable (V : (c : Dev nD) → (b : Ref sig .tc) → Buf (Elt Ideal) ((c : Thread nD τ).loc b)) (c : Dev nD)

abbrev hpA : Vec Ideal S50000x128 .f32 := V c main_v41
abbrev rsA : Vec Ideal S50000x1 .f32 := V c main_v42
abbrev outA : Vec Ideal S50000x128 .f32 := (Reg4.dat (F := Ideal) V c).arrAt 2 cfg4.N

theorem block_rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem written_back (t : Fin cfg4.N) :
    (Reg4.dat (F := Ideal) V c).flushed 2 t
      = ((cfg4.win 2).blk t).view.read (Elt Ideal) (normalised (hpA V c) (rsA V c)) := by
  show (cfg4.win 2).cut (grid4.coords t) ((Reg4.dat (F := Ideal) V c).after 2 t) = _
  rw [Reg4.after_res]
  obtain ⟨f0, f1, s0, s1, o0, o1⟩ := block_rows t
  refine funext fun (y : S2000x128.Idx) => ?_
  show k4_pay1 (Reg4.blk V c 1 t) (Reg4.blk V c 0 t) y
    = normalised (hpA V c) (rsA V c) (((cfg4.win 2).blk t).view.emb y)
  refine (payload_at _ _ y).trans ?_
  have feats : Reg4.blk V c 0 t y = hpA V c (((cfg4.win 2).blk t).view.emb y) := by
    refine congrArg (V c main_v41) (funext fun ax => Fin.ext ?_)
    match ax with
    | ⟨0, _⟩ =>
      show win4_0.index t (0 : Fin 2) * 2000 + 1 * (y 0).val = win4_2.index t (0 : Fin 2) * 2000 + 1 * (y 0).val
      omega
    | ⟨1, _⟩ =>
      show win4_0.index t (1 : Fin 2) * 128 + 1 * (y 1).val = win4_2.index t (1 : Fin 2) * 128 + 1 * (y 1).val
      omega
  have sums : Reg4.blk V c 1 t (blockRow y) = rsA V c (arrayRow (((cfg4.win 2).blk t).view.emb y)) := by
    refine congrArg (V c main_v42) (funext fun ax => Fin.ext ?_)
    match ax with
    | ⟨0, _⟩ =>
      show win4_1.index t (0 : Fin 2) * 2000 + 1 * (y 0).val = win4_2.index t (0 : Fin 2) * 2000 + 1 * (y 0).val
      omega
    | ⟨1, _⟩ =>
      show win4_1.index t (1 : Fin 2) * 1 + 1 * 0 = 0
      omega
  unfold normalised
  rw [feats, sums]

theorem all_written (i : S50000x128.Idx) :
    ∃ t : Fin cfg4.N, (cfg4.win 2).flush t = true ∧ i ∈ ((cfg4.win 2).blk t).view.set := by
  have h0 : (i 0).val < 50000 := (i 0).isLt
  have h1 : (i 1).val < 128 := (i 1).isLt
  obtain ⟨t, ht⟩ : ∃ t : Fin cfg4.N, t.val = (i 0).val / 2000 :=
    ⟨⟨(i 0).val / 2000, by rw [show cfg4.N = 25 from N_4]; omega⟩, rfl⟩
  obtain ⟨-, -, -, -, o0, o1⟩ := block_rows t
  refine ⟨t, flush4_2 t, ?_⟩
  show i ∈ ((View.whole main_v43).slice (win4_2.rect t)).set
  rw [View.set_slice_whole, Rect.mem_set_unit]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 128 ≤ (i 1).val ∧ (i 1).val < win4_2.index t (1 : Fin 2) * 128 + 128
    omega

theorem arr_out (r : Fin 50000) (j : Fin 128) :
    outA V c (ix2 r j) = Cert.Spec.lrelu (Ideal.div (hpA V c (ix2 r j)) (Cert.Spec.fixDen (rsA V c (ix2 r 0)))) :=
  congrFun ((Reg4.dat (F := Ideal) V c).arrAt_eq_of_cover 2 (normalised (hpA V c) (rsA V c))
    (fun t _ => written_back V c t) all_written) (ix2 r j)

end Cert.KernelIdeal.Val4

end
-- ==== Proof.KI.ChainBack.lean ====
import proofs.«430728_j7627861917709_1_alg».proof.Proof.KI.Names
import proofs.«430728_j7627861917709_1_alg».proof.Proof.KI.Val3
import proofs.«430728_j7627861917709_1_alg».proof.Proof.KI.Val4
import proofs.«430728_j7627861917709_1_alg».proof.Proof.RefRead
import proofs.«430728_j7627861917709_1_alg».proof.Proof.Algebra
import proofs.«430728_j7627861917709_1_alg».proof.Proof.Gen.KernelIdeal.Regions
import Idealize.ShloMosaic.Lib.StableHlo.Run
import Idealize.ShloMosaic.Lib.ValueLayout

noncomputable section

namespace Cert.KernelIdeal.Chain

open Cert.KernelIdeal.Gen Cert.KernelIdeal.Vals
open Idealize.ShloMosaic Idealize.ShloMosaic.TcCoe Idealize.ShloMosaic.ValueIdx Idealize.ShloMosaic.StableHlo
open Idealize.SL Idealize.SL.Sem
open Cert.ReferenceIdeal.Read

namespace Back

section Layout
variable {α : Type}

theorem col_of_vec {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem vec_of_col {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem row_of_col {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Layout

section Keep
variable (m : (ℓ : Loc nD τ sig) → Buf (Elt Ideal) ℓ) (c : Dev nD) (r : Ref sig .tc)

theorem keep1 (h : r ∉ hostOps0_W := by decide) : W1 m c r = W0 m c r :=
  StableHlo.after_of_writes_sub hostOps0 _ hostOps0_writes h
theorem keep2 (h : ∀ w, Pipeline.arrRef spec0 w ≠ r := by decide) : W2 m c r = W1 m c r := by
  unfold Vals.W2; exact Pipeline.withArrays_of_ne spec0 c _ _ r h
theorem keep3 (h : r ∉ hostOps1_W := by decide) : W3 m c r = W2 m c r :=
  StableHlo.after_of_writes_sub hostOps1 _ hostOps1_writes h
theorem keep4 (h : r ∉ hostOps1_1_W := by decide) : W4 m c r = W3 m c r :=
  StableHlo.after_of_writes_sub hostOps1_1 _ hostOps1_1_writes h
theorem keep5 (h : r ∉ hostOps1_2_W := by decide) : W5 m c r = W4 m c r :=
  StableHlo.after_of_writes_sub hostOps1_2 _ hostOps1_2_writes h
theorem keep6 (h : ∀ w, Pipeline.arrRef spec1 w ≠ r := by decide) : W6 m c r = W5 m c r := by
  unfold Vals.W6; exact Pipeline.withArrays_of_ne spec1 c _ _ r h
theorem keep7 (h : r ∉ hostOps2_W := by decide) : W7 m c r = W6 m c r :=
  StableHlo.after_of_writes_sub hostOps2 _ hostOps2_writes h
theorem keep8 (h : ∀ w, Pipeline.arrRef spec2 w ≠ r := by decide) : W8 m c r = W7 m c r := by
  unfold Vals.W8; exact Pipeline.withArrays_of_ne spec2 c _ _ r h
theorem keep9 (h : r ∉ hostOps3_W := by decide) : W9 m c r = W8 m c r :=
  StableHlo.after_of_writes_sub hostOps3 _ hostOps3_writes h
theorem keep10 (h : ∀ w, Pipeline.arrRef spec3 w ≠ r := by decide) : W10 m c r = W9 m c r := by
  unfold Vals.W10; exact Pipeline.withArrays_of_ne spec3 c _ _ r h

theorem keep8in (w : Fin cfg2.W) (hin : (cfg2.win w).isOut = false) :
    W8 m c (Pipeline.arrRef spec2 w) = W7 m c (Pipeline.arrRef spec2 w) := by
  unfold Vals.W8
  exact (Pipeline.withArrays_arr spec2 winFacts2.arr_inj c _ _ w).trans
    (((Reg2.dat (V7 m) c).arrAt_in w hin cfg2.N).trans (Reg2.dat_A (V7 m) c w))

theorem keep5to9 (h9 : r ∉ hostOps3_W := by decide) (h8 : ∀ w, Pipeline.arrRef spec2 w ≠ r := by decide)
    (h7 : r ∉ hostOps2_W := by decide) (h6 : ∀ w, Pipeline.arrRef spec1 w ≠ r := by decide) : W9 m c r = W5 m c r :=
  (keep9 m c r h9).trans <| (keep8 m c r h8).trans <| (keep7 m c r h7).trans (keep6 m c r h6)

theorem keep1to5 (h5 : r ∉ hostOps1_2_W := by decide) (h4 : r ∉ hostOps1_1_W := by decide)
    (h3 : r ∉ hostOps1_W := by decide) (h2 : ∀ w, Pipeline.arrRef spec0 w ≠ r := by decide) : W5 m c r = W1 m c r :=
  (keep5 m c r h5).trans <| (keep4 m c r h4).trans <| (keep3 m c r h3).trans (keep2 m c r h2)

theorem keep0to4 (h4 : r ∉ hostOps1_1_W := by decide) (h3 : r ∉ hostOps1_W := by decide)
    (h2 : ∀ w, Pipeline.arrRef spec0 w ≠ r := by decide) (h1 : r ∉ hostOps0_W := by decide) : W4 m c r = W0 m c r :=
  (keep4 m c r h4).trans <| (keep3 m c r h3).trans <| (keep2 m c r h2).trans (keep1 m c r h1)

end Keep

section HostReads
variable (X : Valuation τ sig (Elt Ideal))

theorem ops12_v10 : StableHlo.after hostOps1_2 X (Proc.devRef .tc main_v10)
    = shapeCast S1x32 (X (Proc.devRef .tc main_arg7)) shapeCasts_S32_S1x32 := by
  after_results <;> rfl

theorem ops12_v13 : StableHlo.after hostOps1_2 X (Proc.devRef .tc main_v13)
    = shapeCast S1x32 (X (Proc.devRef .tc main_arg8)) shapeCasts_S32_S1x32 := by
  after_results <;> rfl

theorem ops12_v14 : StableHlo.after hostOps1_2 X (Proc.devRef .tc main_v14)
    = shapeCast S1x32 (X (Proc.devRef .tc main_arg9)) shapeCasts_S32_S1x32 := by
  after_results <;> rfl

theorem ops12_v15 : StableHlo.after hostOps1_2 X (Proc.devRef .tc main_v15)
    = shapeCast S1x32 (X (Proc.devRef .tc main_arg10)) shapeCasts_S32x1_S1x32 := by
  after_results <;> rfl

theorem ops12_v16 : StableHlo.after hostOps1_2 X (Proc.devRef .tc main_v16)
    = shapeCast S1x1 (X (Proc.devRef .tc main_arg11)) shapeCasts_S1_S1x1 := by
  after_results <;> rfl

theorem ops3_v33 : StableHlo.after hostOps3 X (Proc.devRef .tc main_v33)
    = shapeCast S800000x1 (uitofp (F := Ideal) .f32 (cmpi .eq (X (Proc.devRef .tc main_v1) : IVec S800000 32) (X (Proc.devRef .tc main_v3))))
        shapeCasts_S800000_S800000x1 := by
  after_results <;> rfl

theorem ops4_v41 : StableHlo.after hostOps4 X (Proc.devRef .tc main_v41)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (X (Proc.devRef .tc main_v1) : IVec S800000 32))
        (X (Proc.devRef .tc main_v34_1)) := by
  after_results <;> rfl

theorem ops4_v42 : StableHlo.after hostOps4 X (Proc.devRef .tc main_v42)
    = shapeCast S50000x1 (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (X (Proc.devRef .tc main_v1) : IVec S800000 32))
        (shapeCast S800000 (X (Proc.devRef .tc main_v34_0)) shapeCasts_S800000x1_S800000)) shapeCasts_S50000_S50000x1 := by
  after_results <;> rfl
end HostReads

section Stages
theorem idx1_ext {n : ℕ} {i j : (⟨1, ![n]⟩ : Shape).Idx} (h : (i 0).val = (j 0).val) : i = j :=
  funext fun a => Fin.ext (by match a with | ⟨0, _⟩ => exact h)
theorem idx2_ext {n0 n1 : ℕ} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

variable (x0 : Vec Ideal S50000x256 .f32) (x1 : Vec Ideal S256x128 .f32) (x2 : Vec Ideal S128x64 .f32)
  (x3 x4 x5 : Vec Ideal S64 .f32) (x6 : Vec Ideal S64x32 .f32) (x7 x8 x9 : Vec Ideal S32 .f32)
  (x10 : Vec Ideal S32x1 .f32) (x11 : Vec Ideal S1 .f32) (x12 : IVec S2x800000 32)

local notation "ρ54" => val_main_v54 (F := Ideal) x0 x1 x2 x3 x4 x5 x12
local notation "ρ58" => val_main_v58 (F := Ideal) x0 x1 x2 x3 x4 x5 x6 x7 x12
local notation "ρ61" => val_main_v61 (F := Ideal) x0 x1 x2 x3 x4 x5 x6 x7 x12
local notation "ρ68" => val_main_v68 (F := Ideal) x0 x1 x2 x3 x4 x5 x6 x7 x12
local notation "ρ83" => val_main_v83 (F := Ideal) x0 x1 x2 x3 x4 x5 x6 x7 x8 x9 x12
local notation "ρ88" => val_main_v88 (F := Ideal) x0 x1 x2 x3 x4 x5 x6 x7 x8 x9 x12
local notation "ρ92" => val_main_v92 (F := Ideal) x0 x1 x2 x3 x4 x5 x6 x7 x8 x9 x10 x11 x12
local notation "ρ97" => val_main_v97 (F := Ideal) x0 x1 x2 x3 x4 x5 x6 x7 x8 x9 x10 x11 x12
local notation "ρ103" => val_main_v103 (F := Ideal) x0 x1 x2 x3 x4 x5 x6 x7 x8 x9 x10 x11 x12
local notation "ρ106" => val_main_v106 (F := Ideal) x0 x1 x2 x3 x4 x5 x6 x7 x8 x9 x10 x11 x12
local notation "ρ122" => val_main_v122 (F := Ideal) x0 x1 x2 x3 x4 x5 x6 x7 x8 x9 x10 x11 x12
local notation "ρ130" => val_main_v130 (F := Ideal) x0 x1 x2 x3 x4 x5 x6 x7 x8 x9 x10 x11 x12
local notation "ρ119" => val_main_v119 (F := Ideal) x0 x1 x2 x3 x4 x5 x6 x7 x8 x9 x10 x11 x12

theorem stage58 (e : Fin 800000) (k : Fin 32) :
    ρ58 (ix2 e k) = (∑ j : Fin 64, ρ54 (ix2 e j) * x6 (ix2 j k)) + x7 (ix1 k) := by
  rw [val_main_v58_apply, val_main_v55_apply, val_main_v57_apply, val_main_v56_apply]
  have hl : ∀ j : Fin 64, lidx_main_v55 (ix2 e k) j = ix2 e j := fun j => idx2_ext rfl rfl
  have hr : ∀ j : Fin 64, ridx_main_v55 (ix2 e k) j = ix2 j k := fun j => idx2_ext rfl rfl
  have hb : idx_main_v56 (idx_main_v57 (ix2 e k)) = ix1 k := idx1_ext rfl
  simp only [hl, hr, hb] <;> rfl

theorem stage83 (e : Fin 800000) (k : Fin 32) :
    ρ83 (ix2 e k) = Cert.Spec.bn (ρ58 (ix2 e k)) (ρ61 (ix1 k)) (ρ68 (ix1 k)) (x8 (ix1 k)) (x9 (ix1 k)) := by
  rw [val_main_v83_apply, val_main_v80_apply, val_main_v77_apply, val_main_v71_apply, val_main_v70_apply,
    val_main_v69_apply, val_main_v76_apply, val_main_v75_apply, val_main_v74_apply, val_main_v73_apply,
    val_main_v72_apply, val_main_cst_13_apply, val_main_v79_apply, val_main_v78_apply, val_main_v82_apply,
    val_main_v81_apply]
  have h1 : idx_main_v69 (idx_main_v70 (ix2 e k)) = ix1 k := idx1_ext rfl
  have h2 : idx_main_v75 (idx_main_v76 (ix2 e k)) = ix1 k := idx1_ext rfl
  have h3 : idx_main_v78 (idx_main_v79 (ix2 e k)) = ix1 k := idx1_ext rfl
  have h4 : idx_main_v81 (idx_main_v82 (ix2 e k)) = ix1 k := idx1_ext rfl
  simp only [h1, h2, h3, h4] <;> rfl

theorem stage88 (e : Fin 800000) (k : Fin 32) : ρ88 (ix2 e k) = Cert.Spec.lrelu (ρ83 (ix2 e k)) := by
  rw [val_main_v88_apply, val_main_v85_apply, val_main_v84_apply, val_main_cst_14_apply, val_main_v87_apply,
    val_main_v86_apply, val_main_cst_15_apply]
  rfl

theorem stage92 (e : Fin 800000) :
    ρ92 (ix2 e (0 : Fin 1)) = (∑ k : Fin 32, ρ88 (ix2 e k) * x10 (ix2 k (0 : Fin 1))) + x11 (ix1 (0 : Fin 1)) := by
  rw [val_main_v92_apply, val_main_v89_apply, val_main_v91_apply, val_main_v90_apply]
  have hl : ∀ k : Fin 32, lidx_main_v89 (ix2 e (0 : Fin 1)) k = ix2 e k := fun k => idx2_ext rfl rfl
  have hr : ∀ k : Fin 32, ridx_main_v89 (ix2 e (0 : Fin 1)) k = ix2 k (0 : Fin 1) := fun k => idx2_ext rfl rfl
  have hb : idx_main_v90 (idx_main_v91 (ix2 e (0 : Fin 1))) = ix1 (0 : Fin 1) := idx1_ext rfl
  simp only [hl, hr, hb] <;> rfl

theorem stage97 (e : Fin 800000) : ρ97 (ix2 e (0 : Fin 1)) = Cert.Spec.lrelu (ρ92 (ix2 e (0 : Fin 1))) := by
  rw [val_main_v97_apply, val_main_v94_apply, val_main_v93_apply, val_main_cst_16_apply, val_main_v96_apply,
    val_main_v95_apply, val_main_cst_17_apply]
  rfl

theorem stage103 (e : Fin 800000) :
    ρ103 (ix1 e) = Ideal.exp (-(ρ97 (ix2 e (0 : Fin 1)))) + val_main_v102 (F := Ideal) x12 (ix1 e) := by
  rw [val_main_v103_apply, val_main_v100_apply, val_main_v99_apply, val_main_v98_apply]
  have h : idx_main_v98 (ix1 e) = ix2 e (0 : Fin 1) := idx2_ext (Nat.div_one _) rfl
  rw [h]
  rfl

theorem stage102 (e : Fin 800000) :
    val_main_v102 (F := Ideal) x12 (ix1 e)
      = FloatOps.uitofp (F := Ideal) .f32 (IntOp.cmpi .eq (val_main_v1 (F := Ideal) x12 (ix1 e)) (val_main_v3 (F := Ideal) x12 (ix1 e))) := by
  rw [val_main_v102_apply, val_main_v101_apply]

theorem stage119 (e : Fin 800000) (j : Fin 128) :
    ρ119 (ix2 e j) = ρ103 (ix1 e) * val_main_v117 (F := Ideal) x0 x1 x12 (ix2 e j) := by
  rw [val_main_v119_apply, val_main_v118_apply, val_main_v110_apply]
  have h : idx_main_v110 (idx_main_v118 (ix2 e j)) = ix1 e := idx1_ext rfl
  rw [h]
  rfl

theorem stage117 : val_main_v117 (F := Ideal) x0 x1 x12 = val_main_v18 (F := Ideal) x0 x1 x12 := by
  unfold val_main_v117 val_main_v18; rfl

theorem stage130 (r : Fin 50000) (j : Fin 128) :
    ρ130 (ix2 r j) = Cert.Spec.lrelu (Ideal.div (ρ122 (ix2 r j)) (Cert.Spec.fixDen (ρ106 (ix1 r)))) := by
  rw [val_main_v130_apply, val_main_v127_apply, val_main_v126_apply, val_main_cst_24_apply, val_main_v129_apply,
    val_main_v128_apply, val_main_cst_25_apply, val_main_v125_apply, val_main_v124_apply, val_main_v123_apply,
    val_main_v109_apply, val_main_v108_apply, val_main_v107_apply, val_main_cst_19_apply, val_main_call3_v1_apply,
    val_main_call3_v0_apply, val_main_cst_20_apply]
  have h : idx_main_v123 (idx_main_v124 (ix2 r j)) = ix1 r := idx1_ext rfl
  simp only [h] <;> rfl

end Stages

section Inputs
variable (m : (ℓ : Loc nD τ sig) → Buf (Elt Ideal) ℓ) (c : Dev nD)

theorem z1_in : Val3.z1A (V9 m) c = z1K m c := keep9 m c main_v24_0

theorem hd_in : Val3.hdA (V9 m) c = hdK m c := keep5to9 m c main_v6

theorem a2w_in : Val3.a2wA (V9 m) c = a6 m c :=
  (keep9 m c main_arg6).trans <| (keep8in m c 7 rfl).trans <| (keep7 m c main_arg6).trans <|
    (keep6 m c main_arg6).trans <| (keep5 m c main_arg6).trans <| (keep0to4 m c main_arg6).trans rfl

theorem a2b_in (k : Fin 32) : Val3.a2bA (V9 m) c (ix2 (0 : Fin 1) k) = a7 m c (ix1 k) := by
  rw [show Val3.a2bA (V9 m) c = _ from (keep9 m c main_v10).trans <| (keep8in m c 8 rfl).trans <|
      (keep7 m c main_v10).trans <| (keep6 m c main_v10).trans (ops12_v10 (W4 m c)),
    show W4 m c (Proc.devRef .tc main_arg7) = a7 m c from (keep0to4 m c main_arg7).trans rfl]
  exact shapeCast_a_1a_apply _ _ 0 k

theorem g2_in (k : Fin 32) : Val3.g2A (V9 m) c (ix2 (0 : Fin 1) k) = a8 m c (ix1 k) := by
  rw [show Val3.g2A (V9 m) c = _ from (keep5to9 m c main_v13).trans (ops12_v13 (W4 m c)),
    show W4 m c (Proc.devRef .tc main_arg8) = a8 m c from (keep0to4 m c main_arg8).trans rfl]
  exact shapeCast_a_1a_apply _ _ 0 k

theorem b2_in (k : Fin 32) : Val3.b2A (V9 m) c (ix2 (0 : Fin 1) k) = a9 m c (ix1 k) := by
  rw [show Val3.b2A (V9 m) c = _ from (keep5to9 m c main_v14).trans (ops12_v14 (W4 m c)),
    show W4 m c (Proc.devRef .tc main_arg9) = a9 m c from (keep0to4 m c main_arg9).trans rfl]
  exact shapeCast_a_1a_apply _ _ 0 k

theorem a3w_in (k : Fin 32) : Val3.a3wA (V9 m) c (ix2 (0 : Fin 1) k) = a10 m c (ix2 k (0 : Fin 1)) := by
  rw [show Val3.a3wA (V9 m) c = _ from (keep5to9 m c main_v15).trans (ops12_v15 (W4 m c)),
    show W4 m c (Proc.devRef .tc main_arg10) = a10 m c from (keep0to4 m c main_arg10).trans rfl]
  exact row_of_col _ _ 0 k

theorem a3b_in : Val3.a3bA (V9 m) c (ix2 (0 : Fin 1) (0 : Fin 1)) = a11 m c (ix1 (0 : Fin 1)) := by
  rw [show Val3.a3bA (V9 m) c = _ from (keep5to9 m c main_v16).trans (ops12_v16 (W4 m c)),
    show W4 m c (Proc.devRef .tc main_arg11) = a11 m c from (keep0to4 m c main_arg11).trans rfl]
  exact shapeCast_a_1a_apply _ _ 0 0

theorem src_at10 : W10 m c main_v1 = srcK m c :=
  (keep10 m c main_v1).trans <| (keep5to9 m c main_v1).trans (keep1to5 m c main_v1)

theorem src_at8 : W8 m c main_v1 = srcK m c :=
  (keep8 m c main_v1).trans <| (keep7 m c main_v1).trans <| (keep6 m c main_v1).trans (keep1to5 m c main_v1)
theorem dst_at8 : W8 m c main_v3 = dstK m c :=
  (keep8 m c main_v3).trans <| (keep7 m c main_v3).trans <| (keep6 m c main_v3).trans (keep1to5 m c main_v3)

theorem ee_arr : eeK m c = Val3.eeA (V9 m) c := by
  show W10 m c main_v34_0 = _
  unfold Vals.W10
  exact Pipeline.withArrays_arr spec3 winFacts3.arr_inj c _ _ 11
theorem wh_arr : whK m c = Val3.whA (V9 m) c := by
  show W10 m c main_v34_1 = _
  unfold Vals.W10
  exact Pipeline.withArrays_arr spec3 winFacts3.arr_inj c _ _ 12
theorem out_arr : outK m c = Val4.outA (V11 m) c := by
  show W12 m c main_v43 = _
  unfold Vals.W12
  exact Pipeline.withArrays_arr spec4 winFacts4.arr_inj c _ _ 2

end Inputs

end Back

open Back

variable (m : (ℓ : Loc nD τ sig) → Buf (Elt Ideal) ℓ) (c : Dev nD)
  (hsrc : srcK m c = val_main_v1 (F := Ideal) (a12 m c)) (hdst : dstK m c = val_main_v3 (F := Ideal) (a12 m c))
  (hhd : hdK m c = val_main_v18 (F := Ideal) (a0 m c) (a1 m c) (a12 m c))
  (hz1 : ∀ (e : Fin 800000) (j : Fin 64), z1K m c (ix2 e j) = val_main_v54 (F := Ideal) (a0 m c) (a1 m c) (a2 m c) (a3 m c) (a4 m c) (a5 m c) (a12 m c) (ix2 e j))
  (hmean2 : ∀ k : Fin 32, mean2K m c (ix2 (0 : Fin 1) k) = val_main_v61 (F := Ideal) (a0 m c) (a1 m c) (a2 m c) (a3 m c) (a4 m c) (a5 m c) (a6 m c) (a7 m c) (a12 m c) (ix1 k))
  (hvar2 : ∀ k : Fin 32, var2K m c (ix2 (0 : Fin 1) k) = val_main_v68 (F := Ideal) (a0 m c) (a1 m c) (a2 m c) (a3 m c) (a4 m c) (a5 m c) (a6 m c) (a7 m c) (a12 m c) (ix1 k))

include hz1 hmean2 hvar2 hsrc hdst

theorem ee_val (e : Fin 800000) :
    Val3.ee (V9 m) c e = val_main_v103 (F := Ideal) (a0 m c) (a1 m c) (a2 m c) (a3 m c) (a4 m c) (a5 m c) (a6 m c) (a7 m c) (a8 m c) (a9 m c) (a10 m c) (a11 m c) (a12 m c) (ix1 e) := by
  have same : sameK m c (ix2 e (0 : Fin 1)) = val_main_v102 (F := Ideal) (a12 m c) (ix1 e) := by
    rw [stage102, ← hsrc, ← hdst, show sameK m c = _ from ops3_v33 (W8 m c),
      show W8 m c (Proc.devRef .tc main_v1) = _ from src_at8 m c, show W8 m c (Proc.devRef .tc main_v3) = _ from dst_at8 m c]
    exact col_of_vec _ _ e 0
  rw [stage103, ← same, stage97, stage92]
  unfold Val3.ee Val3.sc Val3.z2 Val3.v2
  rw [a3b_in m c, a2w_in m c, z1_in m c, Cert.Algebra.zeroF_eq, sub_eq_add_neg, zero_add]
  simp only [stage88, stage83, stage58, a3w_in m c, a2b_in m c, g2_in m c, b2_in m c, hz1,
    show ∀ k, Val3.mean2A (V9 m) c (ix2 (0 : Fin 1) k) = _ from hmean2,
    show ∀ k, Val3.var2A (V9 m) c (ix2 (0 : Fin 1) k) = _ from hvar2] <;> rfl

theorem ee_eq : shapeCast S800000 (eeK m c) shapeCasts_S800000x1_S800000 = val_main_v103 (F := Ideal) (a0 m c) (a1 m c) (a2 m c) (a3 m c) (a4 m c) (a5 m c) (a6 m c) (a7 m c) (a8 m c) (a9 m c) (a10 m c) (a11 m c) (a12 m c) := by
  funext i
  obtain ⟨e, rfl⟩ : ∃ e : Fin 800000, i = ix1 e := ⟨i 0, eq_ix1 i⟩
  refine (vec_of_col _ _ e).trans ?_
  rw [ee_arr m c, Val3.arr_ee (V9 m) c e]
  exact ee_val m c hsrc hdst hz1 hmean2 hvar2 e

include hhd

theorem wh_eq : whK m c = val_main_v119 (F := Ideal) (a0 m c) (a1 m c) (a2 m c) (a3 m c) (a4 m c) (a5 m c) (a6 m c) (a7 m c) (a8 m c) (a9 m c) (a10 m c) (a11 m c) (a12 m c) := by
  funext i
  obtain ⟨e, j, rfl⟩ : ∃ (e : Fin 800000) (j : Fin 128), i = ix2 e j := ⟨i 0, i 1, eq_ix2 i⟩
  rw [stage119, stage117, ← hhd, ← ee_val m c hsrc hdst hz1 hmean2 hvar2 e, wh_arr m c, Val3.arr_wh (V9 m) c e j,
    hd_in m c]

theorem out_eq : outK m c = val_main_v130 (F := Ideal) (a0 m c) (a1 m c) (a2 m c) (a3 m c) (a4 m c) (a5 m c) (a6 m c) (a7 m c) (a8 m c) (a9 m c) (a10 m c) (a11 m c) (a12 m c) := by
  funext i
  obtain ⟨r, j, rfl⟩ : ∃ (r : Fin 50000) (j : Fin 128), i = ix2 r j := ⟨i 0, i 1, eq_ix2 i⟩
  rw [out_arr m c, Val4.arr_out (V11 m) c r j, stage130]
  refine congrArg₂ (fun a b => Cert.Spec.lrelu (Ideal.div a (Cert.Spec.fixDen b))) ?_ ?_
  · show hpK m c (ix2 r j) = _
    rw [show hpK m c = _ from ops4_v41 (W10 m c), show W10 m c (Proc.devRef .tc main_v1) = _ from src_at10 m c, hsrc,
      show W10 m c (Proc.devRef .tc main_v34_1) = _ from wh_eq m c hsrc hdst hhd hz1 hmean2 hvar2]
    unfold val_main_v122 val_main_v120 val_main_v121 val_main_cst_23
    rfl
  · refine (congrFun (ops4_v42 (W10 m c)) (ix2 r (0 : Fin 1))).trans ((col_of_vec _ _ r 0).trans ?_)
    rw [show W10 m c (Proc.devRef .tc main_v1) = _ from src_at10 m c, hsrc,
      show shapeCast S800000 (W10 m c (Proc.devRef .tc main_v34_0)) shapeCasts_S800000x1_S800000 = _ from
        ee_eq m c hsrc hdst hz1 hmean2 hvar2]
    unfold val_main_v106 val_main_v104 val_main_v105 val_main_cst_18
    rfl

end Cert.KernelIdeal.Chain

end
-- ==== Proof.KI.PreFacts.lean ====
import proofs.«430728_j7627861917709_1_alg».proof.Defs
import proofs.«430728_j7627861917709_1_alg».proof.Proof.KI.Names
import proofs.«430728_j7627861917709_1_alg».proof.Proof.Algebra
import proofs.«430728_j7627861917709_1_alg».proof.Proof.RefRead
import proofs.«430728_j7627861917709_1_alg».proof.Proof.Gen.Pre_finite_inputs
import Idealize.ShloMosaic.Lib.ReduceAll
import Idealize.ShloMosaic.Lib.StableHlo.Predicate

noncomputable section

namespace Cert.KernelIdeal.Chain

open Cert.KernelIdeal.Gen
open Idealize.ShloMosaic Idealize.ShloMosaic.TcCoe
open Idealize.SL Idealize.SL.Sem
open Cert.Algebra (IsReal)

theorem scalarIdx_subsingleton : Subsingleton S_.Idx := ⟨fun a b => funext fun d => d.elim0⟩

theorem inf_word : Ideal.ofBits .f32 0x7F800000#32 = (⊤ : EReal) := by simp [Ideal.ofBits, Ideal.ieee]

theorem real_of_abs_lt (x : EReal) (h : Ideal.cmp .olt (max x (-x)) (Ideal.ofBits .f32 0x7F800000#32) = 1#1) : IsReal x := by
  rw [inf_word] at h
  have h' : max x (-x) < ⊤ := of_decide_eq_true ((StableHlo.Predicate.ofBool_eq_one_iff _).1 h)
  induction x using EReal.rec with
  | bot => exact absurd h' (by simp)
  | coe r => exact ⟨r, rfl⟩
  | top => exact absurd h' (by simp)

theorem range_of_word (x : BitVec 32)
    (h : IntOp.andi (IntOp.cmpi .sge x 0#32) (IntOp.cmpi .slt x 50000#32) = 1#1) : 0 ≤ x.toInt ∧ x.toInt < 50000 :=
  (IntOp.andi_eq_one.1 h).imp IntOp.cmpi_sge.1 IntOp.cmpi_slt.1

section

theorem real_of_all {s : Shape} {axes : List (Fin s.rank)} (x : FVec Ideal s .f32)
    (hb : S_.BroadcastsInDim s (![] : Fin 0 → Fin s.rank))
    (hr : s.ReducesTo axes S_) (h0 : 0 < S_.numel)
    (e : Host.reduce IntOp.andi
          (cmpf .olt (Host.absf x)
            (broadcastInDim s (![] : Fin 0 → Fin s.rank) hb (constant S_ .f32 0x7F800000#32)))
          (constantI S_ 1 1#1) hr h0 ValueIdx.ix0 = 1#1) (i : s.Idx) : IsReal (x i) :=
  haveI := scalarIdx_subsingleton
  real_of_abs_lt (x i) (Host.reduce_andi_all _ _ hr h0 ValueIdx.ix0 e i)

theorem range_of_all (x : IVec S2x800000 32)
    (hb : S_.BroadcastsInDim S2x800000
      (![] : Fin 0 → Fin S2x800000.rank))
    (hr : S2x800000.ReducesTo [0, 1] S_)
    (h0 : 0 < S_.numel)
    (e : Host.reduce IntOp.andi
          (andi
            (cmpi .sge x (broadcastInDim S2x800000
              (![] : Fin 0 → Fin S2x800000.rank) hb (constantI S_ 32 0#32)))
            (cmpi .slt x (broadcastInDim S2x800000
              (![] : Fin 0 → Fin S2x800000.rank) hb (constantI S_ 32 50000#32))))
          (constantI S_ 1 1#1) hr h0 ValueIdx.ix0 = 1#1)
    (i : S2x800000.Idx) : 0 ≤ (x i).toInt ∧ (x i).toInt < 50000 :=
  haveI := scalarIdx_subsingleton
  range_of_word (x i) (Host.reduce_andi_all _ _ hr h0 ValueIdx.ix0 e i)

end

variable (m : (ℓ : Loc nD τ sig) → Buf (Elt Ideal) ℓ) (c : Dev nD)

theorem pre_decode (hpre : Cert.Pre_KernelIdeal m) :
    (∀ i, IsReal (a0 m c i)) ∧ (∀ i, IsReal (a1 m c i)) ∧ (∀ i, IsReal (a2 m c i)) ∧ (∀ i, IsReal (a3 m c i))
      ∧ (∀ i, IsReal (a4 m c i)) ∧ (∀ i, IsReal (a5 m c i)) ∧ (∀ i, IsReal (a6 m c i)) ∧ (∀ i, IsReal (a7 m c i))
      ∧ (∀ i, IsReal (a8 m c i)) ∧ (∀ i, IsReal (a9 m c i)) ∧ (∀ i, IsReal (a10 m c i)) ∧ (∀ i, IsReal (a11 m c i))
      ∧ InRange (a12 m c) := by
  have h := congrFun (hpre c) ValueIdx.ix0
  dsimp only [Cert.Pre_finite_inputs.fn, Cert.Pre_finite_inputs.fn_part1, Cert.Pre_finite_inputs.fn_part2,
    Cert.Pre_finite_inputs.fn_part3] at h
  have A {a b : BitVec 1} (h : IntOp.andi a b = 1#1) := IntOp.andi_eq_one.1 h
  obtain ⟨h, h12⟩ := A h; obtain ⟨h, h11⟩ := A h; obtain ⟨h, h10⟩ := A h; obtain ⟨h, h9⟩ := A h
  obtain ⟨h, h8⟩ := A h; obtain ⟨h, h7⟩ := A h; obtain ⟨h, h6⟩ := A h; obtain ⟨h, h5⟩ := A h
  obtain ⟨h, h4⟩ := A h; obtain ⟨h, h3⟩ := A h; obtain ⟨h, h2⟩ := A h; obtain ⟨h0, h1⟩ := A h
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9, real_of_all _ _ _ _ h10, real_of_all _ _ _ _ h11,
    fun r e => range_of_all _ _ _ _ h12 (ValueIdx.ix2 r e)⟩

section Stage24
open Cert.ReferenceIdeal.Read

theorem isReal_abs_sub {a b : EReal} (ha : IsReal a) (hb : IsReal b) :
    IsReal (FloatOps.hostAbsf (F := Ideal) (φ := .f32) (FloatOps.subf (F := Ideal) (φ := .f32) a b)) :=
  IsReal.max (ha.sub hb) (ha.sub hb).neg

variable (h0 : ∀ i, IsReal (a0 m c i)) (h1 : ∀ i, IsReal (a1 m c i)) (h2 : ∀ i, IsReal (a2 m c i))
  (h3 : ∀ i, IsReal (a3 m c i))
include h0 h1

theorem real_v4 (i : Cert.ReferenceIdeal.S50000x128.Idx) : IsReal (val_main_v4 (F := Ideal) (a0 m c) (a1 m c) i) := by
  rw [val_main_v4_apply]
  exact IsReal.sum _ _ fun k _ => (h0 _).mul (h1 _)

theorem real_v20 (i : Cert.ReferenceIdeal.S800000x128.Idx) :
    IsReal (val_main_v20 (F := Ideal) (a0 m c) (a1 m c) (a12 m c) i) := by
  rw [val_main_v20_apply, val_main_v19_apply]
  refine isReal_abs_sub ?_ ?_
  · unfold val_main_v11 Host.gather
    exact real_v4 m c h0 h1 _
  · unfold val_main_v18 Host.gather
    exact real_v4 m c h0 h1 _

include h2 h3

theorem real_v24 :
    ∀ i, IsReal (Cert.ReferenceIdeal.Read.val_main_v24 (F := Ideal) (a0 m c) (a1 m c) (a2 m c) (a3 m c) (a12 m c) i) := fun i => by
  rw [val_main_v24_apply, val_main_v21_apply, val_main_v23_apply, val_main_v22_apply]
  exact IsReal.add (IsReal.sum _ _ fun k _ => (real_v20 m c h0 h1 _).mul (h2 _)) (h3 _)

end Stage24

end Cert.KernelIdeal.Chain

end
-- ==== Proof.KI.RealMid.lean ====
import proofs.«430728_j7627861917709_1_alg».proof.Proof.Algebra
import proofs.«430728_j7627861917709_1_alg».proof.Proof.RefRead
import proofs.«430728_j7627861917709_1_alg».proof.Proof.KI.Names

noncomputable section

namespace Cert.KernelIdeal.Chain

open Idealize.ShloMosaic Idealize.ShloMosaic.TcCoe
open Idealize.SL Idealize.SL.Sem
open Cert.Algebra

namespace Mid

open Cert.ReferenceIdeal Cert.ReferenceIdeal.Read

variable (x0 : Vec Ideal S50000x256 .f32) (x1 : Vec Ideal S256x128 .f32) (x2 : Vec Ideal S128x64 .f32) (x3 x4 x5 : Vec Ideal S64 .f32)
  (x6 : Vec Ideal S64x32 .f32) (x7 : Vec Ideal S32 .f32) (x12 : IVec S2x800000 32)

def preCol (j : S64.Idx) (e : Fin 800000) : EReal :=
  val_main_v24 x0 x1 x2 x3 x12 (idx_main_v25 j e)

def preMean (j : S64.Idx) : EReal :=
  Ideal.div (∑ e, preCol x0 x1 x2 x3 x12 j e) Cert.Spec.cntF

theorem word_zero : (FloatOps.ofBits (F := Ideal) .f32 0x00000000#32 : EReal) = 0 := zeroF_eq

theorem word_cnt : (FloatOps.ofBits (F := Ideal) .f32 0x49435000#32 : EReal) = Cert.Spec.cntF := rfl

theorem word_eps : (FloatOps.ofBits (F := Ideal) .f32 0x3727C5AC#32 : EReal) = Cert.Spec.epsF := rfl

theorem word_slope : (FloatOps.ofBits (F := Ideal) .f32 0x3E4CCCCD#32 : EReal) = Cert.Spec.slope := rfl

theorem stage27_eq (j : S64.Idx) :
    val_main_v27 x0 x1 x2 x3 x12 j = preMean x0 x1 x2 x3 x12 j := by
  rw [val_main_v27_apply, val_main_v25_apply, val_main_v26_apply, val_main_cst_apply, val_main_cst_3_apply,
    Ideal.hostDivf_def, word_zero, word_cnt, zero_add]
  rfl

theorem stage29_eq (j : S64.Idx) (e : Fin 800000) :
    val_main_v29 x0 x1 x2 x3 x12 (idx_main_v25 j e) = preMean x0 x1 x2 x3 x12 j := by
  rw [val_main_v29_apply, val_main_v28_apply, ← stage27_eq]
  exact congrArg _ (funext fun a => Fin.ext (by match a with | ⟨0, _⟩ => rfl))

theorem stage39_eq (j : S64.Idx) :
    val_main_v39 x0 x1 x2 x3 x12 j
      = Ideal.div (∑ e, (preCol x0 x1 x2 x3 x12 j e - preMean x0 x1 x2 x3 x12 j)
            * (preCol x0 x1 x2 x3 x12 j e - preMean x0 x1 x2 x3 x12 j)) Cert.Spec.cntF
        + Cert.Spec.epsF := by
  rw [val_main_v39_apply, val_main_v34_apply, val_main_v32_apply, val_main_v33_apply, val_main_v38_apply,
    val_main_cst_4_apply, val_main_cst_5_apply, val_main_cst_6_apply,
    Ideal.hostDivf_def, Ideal.addf_def, word_zero, word_cnt, word_eps, zero_add]
  refine congrArg (fun s => Ideal.div s Cert.Spec.cntF + Cert.Spec.epsF) (Finset.sum_congr rfl fun e _ => ?_)
  show val_main_v31 x0 x1 x2 x3 x12 (idx_main_v25 j e) = _
  rw [val_main_v31_apply, val_main_v30_apply, stage29_eq, Ideal.mulf_def, Ideal.subf_def]
  rfl

variable (h24 : ∀ i, IsReal (val_main_v24 x0 x1 x2 x3 x12 i))
include h24

theorem real_v27 (j : S64.Idx) : IsReal (val_main_v27 x0 x1 x2 x3 x12 j) := by
  rw [stage27_eq]
  exact (IsReal.sum _ _ fun e _ => h24 _).div_cnt

theorem real_v40 (j : S64.Idx) : IsReal (val_main_v40 x0 x1 x2 x3 x12 j) := by
  rw [val_main_v40_apply, Ideal.hostUnary_rsqrt_def, stage39_eq]
  obtain ⟨p, hp, hpe⟩ := var_add_eps_pos (preCol x0 x1 x2 x3 x12 j) fun e => h24 _
  rw [show preMean x0 x1 x2 x3 x12 j = Ideal.div (∑ e, preCol x0 x1 x2 x3 x12 j e) Cert.Spec.cntF from rfl, hpe,
    rsqrt_pos_real p hp]
  exact isReal_coe _

variable (h4 : ∀ i, IsReal (x4 i)) (h5 : ∀ i, IsReal (x5 i))
include h4 h5

theorem real_v49 (i : S800000x64.Idx) :
    IsReal (val_main_v49 x0 x1 x2 x3 x4 x5 x12 i) := by
  rw [val_main_v49_apply, val_main_v46_apply, val_main_v45_apply, val_main_v44_apply, val_main_v48_apply,
    val_main_v47_apply, val_main_v43_apply, val_main_v37_apply, val_main_v36_apply, val_main_v35_apply, val_main_v42_apply,
    val_main_v41_apply, Ideal.mulf_def, Ideal.addf_def, Ideal.mulf_def, Ideal.subf_def]
  exact ((((h24 i).sub (real_v27 x0 x1 x2 x3 x12 h24 _)).mul (real_v40 x0 x1 x2 x3 x12 h24 _)).mul (h4 _)).add (h5 _)

theorem real_v54 (i : S800000x64.Idx) :
    IsReal (val_main_v54 x0 x1 x2 x3 x4 x5 x12 i) := by
  have h49 := real_v49 x0 x1 x2 x3 x4 x5 x12 h24 h4 h5 i
  rw [val_main_v54_apply, val_main_v53_apply, val_main_v52_apply, val_main_cst_8_apply, Ideal.mulf_def, word_slope]
  obtain ⟨s, hs⟩ := slope_real
  unfold Scalar.select
  split
  · exact h49
  · rw [hs]; exact (isReal_coe s).mul h49

variable (h6 : ∀ i, IsReal (x6 i)) (h7 : ∀ i, IsReal (x7 i))
include h6 h7

theorem real_v58_stage (i : S800000x32.Idx) :
    IsReal (val_main_v58 x0 x1 x2 x3 x4 x5 x6 x7 x12 i) := by
  rw [val_main_v58_apply, val_main_v55_apply, val_main_v57_apply, val_main_v56_apply, Ideal.addf_def]
  exact (IsReal.sum _ _ fun k _ => (real_v54 x0 x1 x2 x3 x4 x5 x12 h24 h4 h5 _).mul (h6 _)).add (h7 _)

end Mid

variable (m : (ℓ : Loc nD τ sig) → Buf (Elt Ideal) ℓ) (c : Dev nD)

theorem real_v58
    (hr0 : ∀ i, IsReal (a0 m c i)) (hr1 : ∀ i, IsReal (a1 m c i)) (hr2 : ∀ i, IsReal (a2 m c i))
    (hr3 : ∀ i, IsReal (a3 m c i)) (hr4 : ∀ i, IsReal (a4 m c i)) (hr5 : ∀ i, IsReal (a5 m c i))
    (hr6 : ∀ i, IsReal (a6 m c i)) (hr7 : ∀ i, IsReal (a7 m c i))
    (h24 : ∀ i, IsReal (Cert.ReferenceIdeal.Read.val_main_v24 (a0 m c) (a1 m c) (a2 m c) (a3 m c) (a12 m c) i)) :
    ∀ i, IsReal (Cert.ReferenceIdeal.Read.val_main_v58 (a0 m c) (a1 m c) (a2 m c) (a3 m c) (a4 m c) (a5 m c)
      (a6 m c) (a7 m c) (a12 m c) i) :=
  Mid.real_v58_stage _ _ _ _ _ _ _ _ _ h24 hr4 hr5 hr6 hr7

end Cert.KernelIdeal.Chain

end
-- ==== Proof.KI.ChainAll.lean ====
import proofs.«430728_j7627861917709_1_alg».proof.Proof.KI.ChainFront
import proofs.«430728_j7627861917709_1_alg».proof.Proof.KI.ChainMid
import proofs.«430728_j7627861917709_1_alg».proof.Proof.KI.ChainBack
import proofs.«430728_j7627861917709_1_alg».proof.Proof.KI.PreFacts
import proofs.«430728_j7627861917709_1_alg».proof.Proof.KI.RealMid

noncomputable section

namespace Cert.KernelIdeal.Chain

open Cert.KernelIdeal.Gen Cert.KernelIdeal.Vals
open Idealize.ShloMosaic Idealize.ShloMosaic.TcCoe Idealize.ShloMosaic.ValueIdx
open Idealize.SL Idealize.SL.Sem

variable (m : (ℓ : Loc nD τ sig) → Buf (Elt Ideal) ℓ) (c : Dev nD)

theorem out_all (hpre : Cert.Pre_KernelIdeal m) :
    outK m c = Cert.ReferenceIdeal.Read.val_main_v130 (a0 m c) (a1 m c) (a2 m c) (a3 m c) (a4 m c) (a5 m c) (a6 m c) (a7 m c) (a8 m c) (a9 m c) (a10 m c) (a11 m c) (a12 m c) := by
  obtain ⟨r0, r1, r2, r3, r4, r5, r6, r7, -, -, -, -, hr⟩ := pre_decode m c hpre
  have h24 := real_v24 m c r0 r1 r2 r3
  have h58 := real_v58 m c r0 r1 r2 r3 r4 r5 r6 r7 h24
  have hmean1 := mean1_eq m c hr
  have hvar1 := var1_eq m c hr h24
  have hv1 := v1_of_eh m c (eh_eq m c hr)
  exact out_eq m c (src_eq m c) (dst_eq m c) (hd_eq m c hr) (z1_eq m c hv1 hmean1 hvar1) (mean2_eq m c hv1 hmean1 hvar1)
    (var2_eq m c hv1 hmean1 hvar1 h58)

end Cert.KernelIdeal.Chain

end
-- ==== Proof.RefHand.lean ====
import proofs.«430728_j7627861917709_1_alg».proof.Proof.RefRun
import proofs.«430728_j7627861917709_1_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

set_option maxRecDepth 8192 in
set_option maxHeartbeats 4000000 in

theorem after_v130 (V : Valuation τ sig (Elt F)) :
    after (ops (F := F)) V ↑main_v130
      = Read.val_main_v130 (F := F) (V ↑main_arg0) (V ↑main_arg1) (V ↑main_arg2) (V ↑main_arg3) (V ↑main_arg4)
          (V ↑main_arg5) (V ↑main_arg6) (V ↑main_arg7) (V ↑main_arg8) (V ↑main_arg9) (V ↑main_arg10)
          (V ↑main_arg11) (V ↑main_arg12) := by
  after_results_simp <;> rfl

theorem writes_high {op : HloOp τ sig (Elt F)} {y : Ref sig .tc} (hw : op.writes = {(↑y : DevRef τ sig)})
    (hy : 13 ≤ y.idx.val) : ∀ r : Ref sig .tc, r.idx.val < 13 → (↑r : DevRef τ sig) ∉ op.writes := by
  intro r hr hmem
  rw [hw, Finset.mem_singleton] at hmem
  have hry : r = y := Proc.devRef_injective _ hmem
  subst hry
  omega

set_option maxRecDepth 8192 in

theorem ops_high : (ops : List (HloOp τ sig (Elt F))).Forall fun op =>
    ∀ r : Ref sig .tc, r.idx.val < 13 → (↑r : DevRef τ sig) ∉ op.writes := by
  repeat (first | exact writes_high rfl (by decide) | refine ⟨writes_high rfl (by decide), ?_⟩)

theorem after_low (V : Valuation τ sig (Elt F)) (r : Ref sig .tc) (hr : r.idx.val < 13) :
    after (ops (F := F)) V ↑r = V ↑r :=
  after_of_forall_not_mem ops V fun op hop => List.forall_iff_forall_mem.1 ops_high op hop r hr

set_option maxRecDepth 8192 in

theorem ops_fresh : (ops : List (HloOp τ sig (Elt F))).Forall fun op => op.fresh = ∅ := by
  repeat (first | exact rfl | refine ⟨rfl, ?_⟩)

set_option maxRecDepth 8192 in
set_option maxHeartbeats 4000000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130)
          = Read.val_main_v130 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
              (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c =>
      ⟨(h c main_v130).trans (after_v130 _),
       (h c main_arg0).trans (after_low _ main_arg0 (by decide)),
       (h c main_arg1).trans (after_low _ main_arg1 (by decide)),
       (h c main_arg2).trans (after_low _ main_arg2 (by decide)),
       (h c main_arg3).trans (after_low _ main_arg3 (by decide)),
       (h c main_arg4).trans (after_low _ main_arg4 (by decide)),
       (h c main_arg5).trans (after_low _ main_arg5 (by decide)),
       (h c main_arg6).trans (after_low _ main_arg6 (by decide)),
       (h c main_arg7).trans (after_low _ main_arg7 (by decide)),
       (h c main_arg8).trans (after_low _ main_arg8 (by decide)),
       (h c main_arg9).trans (after_low _ main_arg9 (by decide)),
       (h c main_arg10).trans (after_low _ main_arg10 (by decide)),
       (h c main_arg11).trans (after_low _ main_arg11 (by decide)),
       (h c main_arg12).trans (after_low _ main_arg12 (by decide))⟩)
    (run_seq scopedRefs_eq scopedSems_eq defs main (fun _ => ops) main_eq (fun _ => ops_sub) m ρ
      (fun _ => List.forall_iff_forall_mem.1 ops_fresh))

end Cert.ReferenceIdeal.Hand

end
-- ==== Proof.lean ====
import proofs.«430728_j7627861917709_1_alg».proof.Defs
import proofs.«430728_j7627861917709_1_alg».proof.Proof.Gen.Kernel
import proofs.«430728_j7627861917709_1_alg».proof.Proof.Gen.KernelIdeal
import proofs.«430728_j7627861917709_1_alg».proof.Proof.Gen.ReferenceIdeal
import proofs.«430728_j7627861917709_1_alg».proof.Proof.Gen.Pre_finite_inputs
import proofs.«430728_j7627861917709_1_alg».proof.Proof.K.Launch
import proofs.«430728_j7627861917709_1_alg».proof.Proof.KI.Launch
import proofs.«430728_j7627861917709_1_alg».proof.Proof.KI.ChainAll
import proofs.«430728_j7627861917709_1_alg».proof.Proof.RefHand

noncomputable section

namespace Cert.Proof

open Idealize.ShloMosaic Idealize.ShloMosaic.TcCoe Idealize.SL.Sem

theorem frame_kernel : Cert.frame_Kernel := fun m ρ _ => Cert.Kernel.Launch.frame m ρ

theorem frame_kernel_ideal : Cert.frame_KernelIdeal := fun m ρ _ => Cert.KernelIdeal.Launch.frame m ρ

theorem frame_reference : Cert.frame_ReferenceIdeal := fun m ρ _ =>
  (θ_run Cert.ReferenceIdeal.defs _ _).mono (fun _ h c => (h c).2) (Cert.ReferenceIdeal.Hand.run (F := Ideal) m ρ)

theorem algebraic : Cert.algebraic_KernelIdeal_ReferenceIdeal := by
  intro m ρ m' ρ' hpre hagree
  refine ⟨fun c => Cert.KernelIdeal.Chain.outK m c, Cert.KernelIdeal.Launch.run_value m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11, h12⟩ := hagree c
  rw [h0, h1, h2, h3, h4, h5, h6, h7, h8, h9, h10, h11, h12]
  exact (Cert.KernelIdeal.Chain.out_all m c hpre).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
